-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_cst) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x192x224x224 : Shape := ⟨4, ![8, 192, 224, 224]⟩
abbrev S192 : Shape := ⟨1, ![192]⟩
abbrev S_ : Shape := ⟨0, ![]⟩

class Facts : Prop where
  bcast_S_S8x192x224x224 : S_.BroadcastsInDim S8x192x224x224 (![] : Fin 0 → Fin S8x192x224x224.rank)
  reducesTo_S8x192x224x224_S_d0_1_2_3 : S8x192x224x224.ReducesTo [0, 1, 2, 3] S_
  h_S_ : 0 < S_.numel
  bcast_S_S192 : S_.BroadcastsInDim S192 (![] : Fin 0 → Fin S192.rank)
  reducesTo_S192_S_d0 : S192.ReducesTo [0] S_

variable [Facts]

def fn {F : FTy → Type} [FloatOps F] (main_arg0 : FVec F S8x192x224x224 .f32) (main_arg1 : IVec S192 32) : IVec S_ 1 :=
  let main_v0 : FVec F S8x192x224x224 .f32 := Host.absf main_arg0
  let main_cst : FVec F S_ .f32 := constant S_ .f32 0x7F800000#32
  let main_v1 : FVec F S8x192x224x224 .f32 := broadcastInDim S8x192x224x224 ![] bcast_S_S8x192x224x224 main_cst
  let main_v2 : IVec S8x192x224x224 1 := cmpf .olt main_v0 main_v1
  let main_c : IVec S_ 1 := constantI S_ 1 1#1
  let main_v3 : IVec S_ 1 := (fun x v => Host.reduce IntOp.andi x v reducesTo_S8x192x224x224_S_d0_1_2_3 h_S_) main_v2 main_c
  let main_c_0 : IVec S_ 32 := constantI S_ 32 0#32
  let main_v4 : IVec S192 32 := broadcastInDim S192 ![] bcast_S_S192 main_c_0
  let main_v5 : IVec S192 1 := cmpi .sge main_arg1 main_v4
  let main_c_1 : IVec S_ 32 := constantI S_ 32 191#32
  let main_v6 : IVec S192 32 := broadcastInDim S192 ![] bcast_S_S192 main_c_1
  let main_v7 : IVec S192 1 := cmpi .sle main_arg1 main_v6
  let main_v8 : IVec S192 1 := andi main_v5 main_v7
  let main_c_2 : IVec S_ 1 := constantI S_ 1 1#1
  let main_v9 : IVec S_ 1 := (fun x v => Host.reduce IntOp.andi x v reducesTo_S192_S_d0 h_S_) main_v8 main_c_2
  let main_v10 : IVec S_ 1 := andi main_v3 main_v9
  main_v10
-- ==== Kernel.lean ====
abbrev S8x192x224x224 : Shape := ⟨4, ![8, 192, 224, 224]⟩
abbrev S192 : Shape := ⟨1, ![192]⟩
abbrev S112x224 : Shape := ⟨2, ![112, 224]⟩
abbrev S_ : Shape := ⟨0, ![]⟩
abbrev S16 : Shape := ⟨1, ![16]⟩
abbrev S1 : Shape := ⟨1, ![1]⟩
abbrev S1x1x112x224 : Shape := ⟨4, ![1, 1, 112, 224]⟩

abbrev nBuf : Table → Nat
  | .hbm => 4
  | .local .scVector .vmem => 5
  | _ => 0

abbrev bufTy : (tb : Table) → Fin (nBuf tb) → BufTy
  | .hbm, ⟨0, _⟩ => ⟨S8x192x224x224, .f32⟩
  | .hbm, ⟨1, _⟩ => ⟨S192, .i32⟩
  | .hbm, ⟨2, _⟩ => ⟨S8x192x224x224, .f32⟩
  | .hbm, ⟨3, _⟩ => ⟨S_, .f32⟩
  | .local .scVector .vmem, ⟨0, _⟩ => ⟨S192, .i32⟩
  | .local .scVector .vmem, ⟨1, _⟩ => ⟨S112x224, .f32⟩
  | .local .scVector .vmem, ⟨2, _⟩ => ⟨S112x224, .f32⟩
  | .local .scVector .vmem, ⟨3, _⟩ => ⟨S112x224, .f32⟩
  | .local .scVector .vmem, ⟨4, _⟩ => ⟨S112x224, .f32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_10 : BitVec 32 := 0#32
  let v30 : BitVec 32 := Scalar.addi v29 c0_i32_10
  v30
def k0_off1 (i : grid0.Coords) (c0_i32_10 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let v30 : BitVec 32 := Scalar.addi v29 c0_i32_10
  let v31 : BitVec 32 := v30
  let v32 : Index := Scalar.indexCast v31
  ![v32.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c16_i32 : BitVec 32 := 16#32
  let v35 : BitVec 32 := Scalar.addi v29 c16_i32
  v35
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c32_i32 : BitVec 32 := 32#32
  let v40 : BitVec 32 := Scalar.addi v29 c32_i32
  v40
def k0_off2 (i : grid0.Coords) (v46 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let c0_i32_12 : BitVec 32 := 0#32
  ![v18.toNat, v46.toNat, 0, 0]

def k0_off3 (i : grid0.Coords) (v52 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32 : BitVec 32 := 112#32
  let c0_i32_15 : BitVec 32 := 0#32
  ![v18.toNat, v52.toNat, 112, 0]

def k0_off4 (i : grid0.Coords) (v58 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_18 : BitVec 32 := 0#32
  let c0_i32_19 : BitVec 32 := 0#32
  ![v18.toNat, v58.toNat, 0, 0]

def k0_off5 (i : grid0.Coords) (v46 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_22 : BitVec 32 := 0#32
  let c0_i32_23 : BitVec 32 := 0#32
  ![v18.toNat, v46.toNat, 0, 0]

def k0_chk1 (i : grid0.Coords) (v46 : BitVec 32) : Prop :=
  (∀ a, (k0_off2 i v46) a + S1x1x112x224.size a ≤ S8x192x224x224.size a) ∧
  (∀ a, (k0_off5 i v46) a + S1x1x112x224.size a ≤ S8x192x224x224.size a)
instance k0_chk1.dec : ∀ (i : grid0.Coords) (v46 : BitVec 32), Decidable (k0_chk1 i v46) := fun i v46 => decidable_of_iff' _ (Iff.of_eq (k0_chk1.eq_1 i v46))
theorem k0_off2_inb : ∀ (i : grid0.Coords) (v46 : BitVec 32) (k0_hw1 : k0_chk1 i v46), ∀ a, (k0_off2 i v46) a + S1x1x112x224.size a ≤ S8x192x224x224.size a := fun i v46 k0_hw1 => k0_hw1.1
theorem k0_off5_inb : ∀ (i : grid0.Coords) (v46 : BitVec 32) (k0_hw1 : k0_chk1 i v46), ∀ a, (k0_off5 i v46) a + S1x1x112x224.size a ≤ S8x192x224x224.size a := fun i v46 k0_hw1 => k0_hw1.2

def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_26 : BitVec 32 := 0#32
  let v67 : BitVec 32 := Scalar.addi v29 c0_i32_26
  let c0_i32_27 : BitVec 32 := 0#32
  let c0_i32_28 : BitVec 32 := 0#32
  ![v18.toNat, v67.toNat, 0, 0]
def k0_off7 (i : grid0.Coords) (v73 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_31 : BitVec 32 := 112#32
  let c0_i32_32 : BitVec 32 := 0#32
  ![v18.toNat, v73.toNat, 112, 0]

def k0_off8 (i : grid0.Coords) (v52 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_35 : BitVec 32 := 112#32
  let c0_i32_36 : BitVec 32 := 0#32
  ![v18.toNat, v52.toNat, 112, 0]

def k0_chk2 (i : grid0.Coords) (v52 : BitVec 32) : Prop :=
  (∀ a, (k0_off3 i v52) a + S1x1x112x224.size a ≤ S8x192x224x224.size a) ∧
  (∀ a, (k0_off8 i v52) a + S1x1x112x224.size a ≤ S8x192x224x224.size a)
instance k0_chk2.dec : ∀ (i : grid0.Coords) (v52 : BitVec 32), Decidable (k0_chk2 i v52) := fun i v52 => decidable_of_iff' _ (Iff.of_eq (k0_chk2.eq_1 i v52))
theorem k0_off3_inb : ∀ (i : grid0.Coords) (v52 : BitVec 32) (k0_hw2 : k0_chk2 i v52), ∀ a, (k0_off3 i v52) a + S1x1x112x224.size a ≤ S8x192x224x224.size a := fun i v52 k0_hw2 => k0_hw2.1
theorem k0_off8_inb : ∀ (i : grid0.Coords) (v52 : BitVec 32) (k0_hw2 : k0_chk2 i v52), ∀ a, (k0_off8 i v52) a + S1x1x112x224.size a ≤ S8x192x224x224.size a := fun i v52 k0_hw2 => k0_hw2.2

def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c0_i32_39 : BitVec 32 := 0#32
  let v82 : BitVec 32 := Scalar.addi v29 c0_i32_39
  let c112_i32_40 : BitVec 32 := 112#32
  let c0_i32_41 : BitVec 32 := 0#32
  ![v18.toNat, v82.toNat, 112, 0]
def k0_off10 (i : grid0.Coords) (v92 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_50 : BitVec 32 := 0#32
  let c0_i32_51 : BitVec 32 := 0#32
  ![v18.toNat, v92.toNat, 0, 0]

def k0_off11 (i : grid0.Coords) (v58 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_54 : BitVec 32 := 0#32
  let c0_i32_55 : BitVec 32 := 0#32
  ![v18.toNat, v58.toNat, 0, 0]

def k0_chk3 (i : grid0.Coords) (v58 : BitVec 32) : Prop :=
  (∀ a, (k0_off4 i v58) a + S1x1x112x224.size a ≤ S8x192x224x224.size a) ∧
  (∀ a, (k0_off11 i v58) a + S1x1x112x224.size a ≤ S8x192x224x224.size a)
instance k0_chk3.dec : ∀ (i : grid0.Coords) (v58 : BitVec 32), Decidable (k0_chk3 i v58) := fun i v58 => decidable_of_iff' _ (Iff.of_eq (k0_chk3.eq_1 i v58))
theorem k0_off4_inb : ∀ (i : grid0.Coords) (v58 : BitVec 32) (k0_hw3 : k0_chk3 i v58), ∀ a, (k0_off4 i v58) a + S1x1x112x224.size a ≤ S8x192x224x224.size a := fun i v58 k0_hw3 => k0_hw3.1
theorem k0_off11_inb : ∀ (i : grid0.Coords) (v58 : BitVec 32) (k0_hw3 : k0_chk3 i v58), ∀ a, (k0_off11 i v58) a + S1x1x112x224.size a ≤ S8x192x224x224.size a := fun i v58 k0_hw3 => k0_hw3.2

def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c1_i32_58 : BitVec 32 := 1#32
  let v101 : BitVec 32 := Scalar.addi v29 c1_i32_58
  let c0_i32_59 : BitVec 32 := 0#32
  let c0_i32_60 : BitVec 32 := 0#32
  ![v18.toNat, v101.toNat, 0, 0]
def k0_off13 (i : grid0.Coords) (v111 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_69 : BitVec 32 := 112#32
  let c0_i32_70 : BitVec 32 := 0#32
  ![v18.toNat, v111.toNat, 112, 0]

def k0_off14 (i : grid0.Coords) (v73 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_73 : BitVec 32 := 112#32
  let c0_i32_74 : BitVec 32 := 0#32
  ![v18.toNat, v73.toNat, 112, 0]

def k0_chk4 (i : grid0.Coords) (v73 : BitVec 32) : Prop :=
  (∀ a, (k0_off7 i v73) a + S1x1x112x224.size a ≤ S8x192x224x224.size a) ∧
  (∀ a, (k0_off14 i v73) a + S1x1x112x224.size a ≤ S8x192x224x224.size a)
instance k0_chk4.dec : ∀ (i : grid0.Coords) (v73 : BitVec 32), Decidable (k0_chk4 i v73) := fun i v73 => decidable_of_iff' _ (Iff.of_eq (k0_chk4.eq_1 i v73))
theorem k0_off7_inb : ∀ (i : grid0.Coords) (v73 : BitVec 32) (k0_hw4 : k0_chk4 i v73), ∀ a, (k0_off7 i v73) a + S1x1x112x224.size a ≤ S8x192x224x224.size a := fun i v73 k0_hw4 => k0_hw4.1
theorem k0_off14_inb : ∀ (i : grid0.Coords) (v73 : BitVec 32) (k0_hw4 : k0_chk4 i v73), ∀ a, (k0_off14 i v73) a + S1x1x112x224.size a ≤ S8x192x224x224.size a := fun i v73 k0_hw4 => k0_hw4.2

def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c1_i32_77 : BitVec 32 := 1#32
  let v120 : BitVec 32 := Scalar.addi v29 c1_i32_77
  let c112_i32_78 : BitVec 32 := 112#32
  let c0_i32_79 : BitVec 32 := 0#32
  ![v18.toNat, v120.toNat, 112, 0]
def k0_off16 (i : grid0.Coords) (v130 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_88 : BitVec 32 := 0#32
  let c0_i32_89 : BitVec 32 := 0#32
  ![v18.toNat, v130.toNat, 0, 0]

def k0_off17 (i : grid0.Coords) (v92 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_92 : BitVec 32 := 0#32
  let c0_i32_93 : BitVec 32 := 0#32
  ![v18.toNat, v92.toNat, 0, 0]

def k0_chk5 (i : grid0.Coords) (v92 : BitVec 32) : Prop :=
  (∀ a, (k0_off10 i v92) a + S1x1x112x224.size a ≤ S8x192x224x224.size a) ∧
  (∀ a, (k0_off17 i v92) a + S1x1x112x224.size a ≤ S8x192x224x224.size a)
instance k0_chk5.dec : ∀ (i : grid0.Coords) (v92 : BitVec 32), Decidable (k0_chk5 i v92) := fun i v92 => decidable_of_iff' _ (Iff.of_eq (k0_chk5.eq_1 i v92))
theorem k0_off10_inb : ∀ (i : grid0.Coords) (v92 : BitVec 32) (k0_hw5 : k0_chk5 i v92), ∀ a, (k0_off10 i v92) a + S1x1x112x224.size a ≤ S8x192x224x224.size a := fun i v92 k0_hw5 => k0_hw5.1
theorem k0_off17_inb : ∀ (i : grid0.Coords) (v92 : BitVec 32) (k0_hw5 : k0_chk5 i v92), ∀ a, (k0_off17 i v92) a + S1x1x112x224.size a ≤ S8x192x224x224.size a := fun i v92 k0_hw5 => k0_hw5.2

def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c2_i32_96 : BitVec 32 := 2#32
  let v139 : BitVec 32 := Scalar.addi v29 c2_i32_96
  let c0_i32_97 : BitVec 32 := 0#32
  let c0_i32_98 : BitVec 32 := 0#32
  ![v18.toNat, v139.toNat, 0, 0]
def k0_off19 (i : grid0.Coords) (v149 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_107 : BitVec 32 := 112#32
  let c0_i32_108 : BitVec 32 := 0#32
  ![v18.toNat, v149.toNat, 112, 0]

def k0_off20 (i : grid0.Coords) (v111 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_111 : BitVec 32 := 112#32
  let c0_i32_112 : BitVec 32 := 0#32
  ![v18.toNat, v111.toNat, 112, 0]

def k0_chk6 (i : grid0.Coords) (v111 : BitVec 32) : Prop :=
  (∀ a, (k0_off13 i v111) a + S1x1x112x224.size a ≤ S8x192x224x224.size a) ∧
  (∀ a, (k0_off20 i v111) a + S1x1x112x224.size a ≤ S8x192x224x224.size a)
instance k0_chk6.dec : ∀ (i : grid0.Coords) (v111 : BitVec 32), Decidable (k0_chk6 i v111) := fun i v111 => decidable_of_iff' _ (Iff.of_eq (k0_chk6.eq_1 i v111))
theorem k0_off13_inb : ∀ (i : grid0.Coords) (v111 : BitVec 32) (k0_hw6 : k0_chk6 i v111), ∀ a, (k0_off13 i v111) a + S1x1x112x224.size a ≤ S8x192x224x224.size a := fun i v111 k0_hw6 => k0_hw6.1
theorem k0_off20_inb : ∀ (i : grid0.Coords) (v111 : BitVec 32) (k0_hw6 : k0_chk6 i v111), ∀ a, (k0_off20 i v111) a + S1x1x112x224.size a ≤ S8x192x224x224.size a := fun i v111 k0_hw6 => k0_hw6.2

def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c2_i32_115 : BitVec 32 := 2#32
  let v158 : BitVec 32 := Scalar.addi v29 c2_i32_115
  let c112_i32_116 : BitVec 32 := 112#32
  let c0_i32_117 : BitVec 32 := 0#32
  ![v18.toNat, v158.toNat, 112, 0]
def k0_off22 (i : grid0.Coords) (v168 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_126 : BitVec 32 := 0#32
  let c0_i32_127 : BitVec 32 := 0#32
  ![v18.toNat, v168.toNat, 0, 0]

def k0_off23 (i : grid0.Coords) (v130 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_130 : BitVec 32 := 0#32
  let c0_i32_131 : BitVec 32 := 0#32
  ![v18.toNat, v130.toNat, 0, 0]

def k0_chk7 (i : grid0.Coords) (v130 : BitVec 32) : Prop :=
  (∀ a, (k0_off16 i v130) a + S1x1x112x224.size a ≤ S8x192x224x224.size a) ∧
  (∀ a, (k0_off23 i v130) a + S1x1x112x224.size a ≤ S8x192x224x224.size a)
instance k0_chk7.dec : ∀ (i : grid0.Coords) (v130 : BitVec 32), Decidable (k0_chk7 i v130) := fun i v130 => decidable_of_iff' _ (Iff.of_eq (k0_chk7.eq_1 i v130))
theorem k0_off16_inb : ∀ (i : grid0.Coords) (v130 : BitVec 32) (k0_hw7 : k0_chk7 i v130), ∀ a, (k0_off16 i v130) a + S1x1x112x224.size a ≤ S8x192x224x224.size a := fun i v130 k0_hw7 => k0_hw7.1
theorem k0_off23_inb : ∀ (i : grid0.Coords) (v130 : BitVec 32) (k0_hw7 : k0_chk7 i v130), ∀ a, (k0_off23 i v130) a + S1x1x112x224.size a ≤ S8x192x224x224.size a := fun i v130 k0_hw7 => k0_hw7.2

def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c3_i32 : BitVec 32 := 3#32
  let v177 : BitVec 32 := Scalar.addi v29 c3_i32
  let c0_i32_134 : BitVec 32 := 0#32
  let c0_i32_135 : BitVec 32 := 0#32
  ![v18.toNat, v177.toNat, 0, 0]
def k0_off25 (i : grid0.Coords) (v187 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_144 : BitVec 32 := 112#32
  let c0_i32_145 : BitVec 32 := 0#32
  ![v18.toNat, v187.toNat, 112, 0]

def k0_off26 (i : grid0.Coords) (v149 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_148 : BitVec 32 := 112#32
  let c0_i32_149 : BitVec 32 := 0#32
  ![v18.toNat, v149.toNat, 112, 0]

def k0_chk8 (i : grid0.Coords) (v149 : BitVec 32) : Prop :=
  (∀ a, (k0_off19 i v149) a + S1x1x112x224.size a ≤ S8x192x224x224.size a) ∧
  (∀ a, (k0_off26 i v149) a + S1x1x112x224.size a ≤ S8x192x224x224.size a)
instance k0_chk8.dec : ∀ (i : grid0.Coords) (v149 : BitVec 32), Decidable (k0_chk8 i v149) := fun i v149 => decidable_of_iff' _ (Iff.of_eq (k0_chk8.eq_1 i v149))
theorem k0_off19_inb : ∀ (i : grid0.Coords) (v149 : BitVec 32) (k0_hw8 : k0_chk8 i v149), ∀ a, (k0_off19 i v149) a + S1x1x112x224.size a ≤ S8x192x224x224.size a := fun i v149 k0_hw8 => k0_hw8.1
theorem k0_off26_inb : ∀ (i : grid0.Coords) (v149 : BitVec 32) (k0_hw8 : k0_chk8 i v149), ∀ a, (k0_off26 i v149) a + S1x1x112x224.size a ≤ S8x192x224x224.size a := fun i v149 k0_hw8 => k0_hw8.2

def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c3_i32_152 : BitVec 32 := 3#32
  let v196 : BitVec 32 := Scalar.addi v29 c3_i32_152
  let c112_i32_153 : BitVec 32 := 112#32
  let c0_i32_154 : BitVec 32 := 0#32
  ![v18.toNat, v196.toNat, 112, 0]
def k0_off28 (i : grid0.Coords) (v206 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_163 : BitVec 32 := 0#32
  let c0_i32_164 : BitVec 32 := 0#32
  ![v18.toNat, v206.toNat, 0, 0]

def k0_off29 (i : grid0.Coords) (v168 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_167 : BitVec 32 := 0#32
  let c0_i32_168 : BitVec 32 := 0#32
  ![v18.toNat, v168.toNat, 0, 0]

def k0_chk9 (i : grid0.Coords) (v168 : BitVec 32) : Prop :=
  (∀ a, (k0_off22 i v168) a + S1x1x112x224.size a ≤ S8x192x224x224.size a) ∧
  (∀ a, (k0_off29 i v168) a + S1x1x112x224.size a ≤ S8x192x224x224.size a)
instance k0_chk9.dec : ∀ (i : grid0.Coords) (v168 : BitVec 32), Decidable (k0_chk9 i v168) := fun i v168 => decidable_of_iff' _ (Iff.of_eq (k0_chk9.eq_1 i v168))
theorem k0_off22_inb : ∀ (i : grid0.Coords) (v168 : BitVec 32) (k0_hw9 : k0_chk9 i v168), ∀ a, (k0_off22 i v168) a + S1x1x112x224.size a ≤ S8x192x224x224.size a := fun i v168 k0_hw9 => k0_hw9.1
theorem k0_off29_inb : ∀ (i : grid0.Coords) (v168 : BitVec 32) (k0_hw9 : k0_chk9 i v168), ∀ a, (k0_off29 i v168) a + S1x1x112x224.size a ≤ S8x192x224x224.size a := fun i v168 k0_hw9 => k0_hw9.2

def k0_off30 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c4_i32_171 : BitVec 32 := 4#32
  let v215 : BitVec 32 := Scalar.addi v29 c4_i32_171
  let c0_i32_172 : BitVec 32 := 0#32
  let c0_i32_173 : BitVec 32 := 0#32
  ![v18.toNat, v215.toNat, 0, 0]
def k0_off31 (i : grid0.Coords) (v225 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_182 : BitVec 32 := 112#32
  let c0_i32_183 : BitVec 32 := 0#32
  ![v18.toNat, v225.toNat, 112, 0]

def k0_off32 (i : grid0.Coords) (v187 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_186 : BitVec 32 := 112#32
  let c0_i32_187 : BitVec 32 := 0#32
  ![v18.toNat, v187.toNat, 112, 0]

def k0_chk10 (i : grid0.Coords) (v187 : BitVec 32) : Prop :=
  (∀ a, (k0_off25 i v187) a + S1x1x112x224.size a ≤ S8x192x224x224.size a) ∧
  (∀ a, (k0_off32 i v187) a + S1x1x112x224.size a ≤ S8x192x224x224.size a)
instance k0_chk10.dec : ∀ (i : grid0.Coords) (v187 : BitVec 32), Decidable (k0_chk10 i v187) := fun i v187 => decidable_of_iff' _ (Iff.of_eq (k0_chk10.eq_1 i v187))
theorem k0_off25_inb : ∀ (i : grid0.Coords) (v187 : BitVec 32) (k0_hw10 : k0_chk10 i v187), ∀ a, (k0_off25 i v187) a + S1x1x112x224.size a ≤ S8x192x224x224.size a := fun i v187 k0_hw10 => k0_hw10.1
theorem k0_off32_inb : ∀ (i : grid0.Coords) (v187 : BitVec 32) (k0_hw10 : k0_chk10 i v187), ∀ a, (k0_off32 i v187) a + S1x1x112x224.size a ≤ S8x192x224x224.size a := fun i v187 k0_hw10 => k0_hw10.2

def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c4_i32_190 : BitVec 32 := 4#32
  let v234 : BitVec 32 := Scalar.addi v29 c4_i32_190
  let c112_i32_191 : BitVec 32 := 112#32
  let c0_i32_192 : BitVec 32 := 0#32
  ![v18.toNat, v234.toNat, 112, 0]
def k0_off34 (i : grid0.Coords) (v244 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_201 : BitVec 32 := 0#32
  let c0_i32_202 : BitVec 32 := 0#32
  ![v18.toNat, v244.toNat, 0, 0]

def k0_off35 (i : grid0.Coords) (v206 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_205 : BitVec 32 := 0#32
  let c0_i32_206 : BitVec 32 := 0#32
  ![v18.toNat, v206.toNat, 0, 0]

def k0_chk11 (i : grid0.Coords) (v206 : BitVec 32) : Prop :=
  (∀ a, (k0_off28 i v206) a + S1x1x112x224.size a ≤ S8x192x224x224.size a) ∧
  (∀ a, (k0_off35 i v206) a + S1x1x112x224.size a ≤ S8x192x224x224.size a)
instance k0_chk11.dec : ∀ (i : grid0.Coords) (v206 : BitVec 32), Decidable (k0_chk11 i v206) := fun i v206 => decidable_of_iff' _ (Iff.of_eq (k0_chk11.eq_1 i v206))
theorem k0_off28_inb : ∀ (i : grid0.Coords) (v206 : BitVec 32) (k0_hw11 : k0_chk11 i v206), ∀ a, (k0_off28 i v206) a + S1x1x112x224.size a ≤ S8x192x224x224.size a := fun i v206 k0_hw11 => k0_hw11.1
theorem k0_off35_inb : ∀ (i : grid0.Coords) (v206 : BitVec 32) (k0_hw11 : k0_chk11 i v206), ∀ a, (k0_off35 i v206) a + S1x1x112x224.size a ≤ S8x192x224x224.size a := fun i v206 k0_hw11 => k0_hw11.2

def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c5_i32 : BitVec 32 := 5#32
  let v253 : BitVec 32 := Scalar.addi v29 c5_i32
  let c0_i32_209 : BitVec 32 := 0#32
  let c0_i32_210 : BitVec 32 := 0#32
  ![v18.toNat, v253.toNat, 0, 0]
def k0_off37 (i : grid0.Coords) (v263 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_219 : BitVec 32 := 112#32
  let c0_i32_220 : BitVec 32 := 0#32
  ![v18.toNat, v263.toNat, 112, 0]

def k0_off38 (i : grid0.Coords) (v225 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_223 : BitVec 32 := 112#32
  let c0_i32_224 : BitVec 32 := 0#32
  ![v18.toNat, v225.toNat, 112, 0]

def k0_chk12 (i : grid0.Coords) (v225 : BitVec 32) : Prop :=
  (∀ a, (k0_off31 i v225) a + S1x1x112x224.size a ≤ S8x192x224x224.size a) ∧
  (∀ a, (k0_off38 i v225) a + S1x1x112x224.size a ≤ S8x192x224x224.size a)
instance k0_chk12.dec : ∀ (i : grid0.Coords) (v225 : BitVec 32), Decidable (k0_chk12 i v225) := fun i v225 => decidable_of_iff' _ (Iff.of_eq (k0_chk12.eq_1 i v225))
theorem k0_off31_inb : ∀ (i : grid0.Coords) (v225 : BitVec 32) (k0_hw12 : k0_chk12 i v225), ∀ a, (k0_off31 i v225) a + S1x1x112x224.size a ≤ S8x192x224x224.size a := fun i v225 k0_hw12 => k0_hw12.1
theorem k0_off38_inb : ∀ (i : grid0.Coords) (v225 : BitVec 32) (k0_hw12 : k0_chk12 i v225), ∀ a, (k0_off38 i v225) a + S1x1x112x224.size a ≤ S8x192x224x224.size a := fun i v225 k0_hw12 => k0_hw12.2

def k0_off39 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c5_i32_227 : BitVec 32 := 5#32
  let v272 : BitVec 32 := Scalar.addi v29 c5_i32_227
  let c112_i32_228 : BitVec 32 := 112#32
  let c0_i32_229 : BitVec 32 := 0#32
  ![v18.toNat, v272.toNat, 112, 0]
def k0_off40 (i : grid0.Coords) (v282 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_238 : BitVec 32 := 0#32
  let c0_i32_239 : BitVec 32 := 0#32
  ![v18.toNat, v282.toNat, 0, 0]

def k0_off41 (i : grid0.Coords) (v244 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_242 : BitVec 32 := 0#32
  let c0_i32_243 : BitVec 32 := 0#32
  ![v18.toNat, v244.toNat, 0, 0]

def k0_chk13 (i : grid0.Coords) (v244 : BitVec 32) : Prop :=
  (∀ a, (k0_off34 i v244) a + S1x1x112x224.size a ≤ S8x192x224x224.size a) ∧
  (∀ a, (k0_off41 i v244) a + S1x1x112x224.size a ≤ S8x192x224x224.size a)
instance k0_chk13.dec : ∀ (i : grid0.Coords) (v244 : BitVec 32), Decidable (k0_chk13 i v244) := fun i v244 => decidable_of_iff' _ (Iff.of_eq (k0_chk13.eq_1 i v244))
theorem k0_off34_inb : ∀ (i : grid0.Coords) (v244 : BitVec 32) (k0_hw13 : k0_chk13 i v244), ∀ a, (k0_off34 i v244) a + S1x1x112x224.size a ≤ S8x192x224x224.size a := fun i v244 k0_hw13 => k0_hw13.1
theorem k0_off41_inb : ∀ (i : grid0.Coords) (v244 : BitVec 32) (k0_hw13 : k0_chk13 i v244), ∀ a, (k0_off41 i v244) a + S1x1x112x224.size a ≤ S8x192x224x224.size a := fun i v244 k0_hw13 => k0_hw13.2

def k0_off42 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c6_i32 : BitVec 32 := 6#32
  let v291 : BitVec 32 := Scalar.addi v29 c6_i32
  let c0_i32_246 : BitVec 32 := 0#32
  let c0_i32_247 : BitVec 32 := 0#32
  ![v18.toNat, v291.toNat, 0, 0]
def k0_off43 (i : grid0.Coords) (v301 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_256 : BitVec 32 := 112#32
  let c0_i32_257 : BitVec 32 := 0#32
  ![v18.toNat, v301.toNat, 112, 0]

def k0_off44 (i : grid0.Coords) (v263 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_260 : BitVec 32 := 112#32
  let c0_i32_261 : BitVec 32 := 0#32
  ![v18.toNat, v263.toNat, 112, 0]

def k0_chk14 (i : grid0.Coords) (v263 : BitVec 32) : Prop :=
  (∀ a, (k0_off37 i v263) a + S1x1x112x224.size a ≤ S8x192x224x224.size a) ∧
  (∀ a, (k0_off44 i v263) a + S1x1x112x224.size a ≤ S8x192x224x224.size a)
instance k0_chk14.dec : ∀ (i : grid0.Coords) (v263 : BitVec 32), Decidable (k0_chk14 i v263) := fun i v263 => decidable_of_iff' _ (Iff.of_eq (k0_chk14.eq_1 i v263))
theorem k0_off37_inb : ∀ (i : grid0.Coords) (v263 : BitVec 32) (k0_hw14 : k0_chk14 i v263), ∀ a, (k0_off37 i v263) a + S1x1x112x224.size a ≤ S8x192x224x224.size a := fun i v263 k0_hw14 => k0_hw14.1
theorem k0_off44_inb : ∀ (i : grid0.Coords) (v263 : BitVec 32) (k0_hw14 : k0_chk14 i v263), ∀ a, (k0_off44 i v263) a + S1x1x112x224.size a ≤ S8x192x224x224.size a := fun i v263 k0_hw14 => k0_hw14.2

def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c6_i32_264 : BitVec 32 := 6#32
  let v310 : BitVec 32 := Scalar.addi v29 c6_i32_264
  let c112_i32_265 : BitVec 32 := 112#32
  let c0_i32_266 : BitVec 32 := 0#32
  ![v18.toNat, v310.toNat, 112, 0]
def k0_off46 (i : grid0.Coords) (v320 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_275 : BitVec 32 := 0#32
  let c0_i32_276 : BitVec 32 := 0#32
  ![v18.toNat, v320.toNat, 0, 0]

def k0_off47 (i : grid0.Coords) (v282 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_279 : BitVec 32 := 0#32
  let c0_i32_280 : BitVec 32 := 0#32
  ![v18.toNat, v282.toNat, 0, 0]

def k0_chk15 (i : grid0.Coords) (v282 : BitVec 32) : Prop :=
  (∀ a, (k0_off40 i v282) a + S1x1x112x224.size a ≤ S8x192x224x224.size a) ∧
  (∀ a, (k0_off47 i v282) a + S1x1x112x224.size a ≤ S8x192x224x224.size a)
instance k0_chk15.dec : ∀ (i : grid0.Coords) (v282 : BitVec 32), Decidable (k0_chk15 i v282) := fun i v282 => decidable_of_iff' _ (Iff.of_eq (k0_chk15.eq_1 i v282))
theorem k0_off40_inb : ∀ (i : grid0.Coords) (v282 : BitVec 32) (k0_hw15 : k0_chk15 i v282), ∀ a, (k0_off40 i v282) a + S1x1x112x224.size a ≤ S8x192x224x224.size a := fun i v282 k0_hw15 => k0_hw15.1
theorem k0_off47_inb : ∀ (i : grid0.Coords) (v282 : BitVec 32) (k0_hw15 : k0_chk15 i v282), ∀ a, (k0_off47 i v282) a + S1x1x112x224.size a ≤ S8x192x224x224.size a := fun i v282 k0_hw15 => k0_hw15.2

def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c7_i32 : BitVec 32 := 7#32
  let v329 : BitVec 32 := Scalar.addi v29 c7_i32
  let c0_i32_283 : BitVec 32 := 0#32
  let c0_i32_284 : BitVec 32 := 0#32
  ![v18.toNat, v329.toNat, 0, 0]
def k0_off49 (i : grid0.Coords) (v339 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_293 : BitVec 32 := 112#32
  let c0_i32_294 : BitVec 32 := 0#32
  ![v18.toNat, v339.toNat, 112, 0]

def k0_off50 (i : grid0.Coords) (v301 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_297 : BitVec 32 := 112#32
  let c0_i32_298 : BitVec 32 := 0#32
  ![v18.toNat, v301.toNat, 112, 0]

def k0_chk16 (i : grid0.Coords) (v301 : BitVec 32) : Prop :=
  (∀ a, (k0_off43 i v301) a + S1x1x112x224.size a ≤ S8x192x224x224.size a) ∧
  (∀ a, (k0_off50 i v301) a + S1x1x112x224.size a ≤ S8x192x224x224.size a)
instance k0_chk16.dec : ∀ (i : grid0.Coords) (v301 : BitVec 32), Decidable (k0_chk16 i v301) := fun i v301 => decidable_of_iff' _ (Iff.of_eq (k0_chk16.eq_1 i v301))
theorem k0_off43_inb : ∀ (i : grid0.Coords) (v301 : BitVec 32) (k0_hw16 : k0_chk16 i v301), ∀ a, (k0_off43 i v301) a + S1x1x112x224.size a ≤ S8x192x224x224.size a := fun i v301 k0_hw16 => k0_hw16.1
theorem k0_off50_inb : ∀ (i : grid0.Coords) (v301 : BitVec 32) (k0_hw16 : k0_chk16 i v301), ∀ a, (k0_off50 i v301) a + S1x1x112x224.size a ≤ S8x192x224x224.size a := fun i v301 k0_hw16 => k0_hw16.2

def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c7_i32_301 : BitVec 32 := 7#32
  let v348 : BitVec 32 := Scalar.addi v29 c7_i32_301
  let c112_i32_302 : BitVec 32 := 112#32
  let c0_i32_303 : BitVec 32 := 0#32
  ![v18.toNat, v348.toNat, 112, 0]
def k0_off52 (i : grid0.Coords) (v358 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_312 : BitVec 32 := 0#32
  let c0_i32_313 : BitVec 32 := 0#32
  ![v18.toNat, v358.toNat, 0, 0]

def k0_off53 (i : grid0.Coords) (v320 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_316 : BitVec 32 := 0#32
  let c0_i32_317 : BitVec 32 := 0#32
  ![v18.toNat, v320.toNat, 0, 0]

def k0_chk17 (i : grid0.Coords) (v320 : BitVec 32) : Prop :=
  (∀ a, (k0_off46 i v320) a + S1x1x112x224.size a ≤ S8x192x224x224.size a) ∧
  (∀ a, (k0_off53 i v320) a + S1x1x112x224.size a ≤ S8x192x224x224.size a)
instance k0_chk17.dec : ∀ (i : grid0.Coords) (v320 : BitVec 32), Decidable (k0_chk17 i v320) := fun i v320 => decidable_of_iff' _ (Iff.of_eq (k0_chk17.eq_1 i v320))
theorem k0_off46_inb : ∀ (i : grid0.Coords) (v320 : BitVec 32) (k0_hw17 : k0_chk17 i v320), ∀ a, (k0_off46 i v320) a + S1x1x112x224.size a ≤ S8x192x224x224.size a := fun i v320 k0_hw17 => k0_hw17.1
theorem k0_off53_inb : ∀ (i : grid0.Coords) (v320 : BitVec 32) (k0_hw17 : k0_chk17 i v320), ∀ a, (k0_off53 i v320) a + S1x1x112x224.size a ≤ S8x192x224x224.size a := fun i v320 k0_hw17 => k0_hw17.2

def k0_off54 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32 : BitVec 32 := 8#32
  let v367 : BitVec 32 := Scalar.addi v29 c8_i32
  let c0_i32_320 : BitVec 32 := 0#32
  let c0_i32_321 : BitVec 32 := 0#32
  ![v18.toNat, v367.toNat, 0, 0]
def k0_off55 (i : grid0.Coords) (v377 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_330 : BitVec 32 := 112#32
  let c0_i32_331 : BitVec 32 := 0#32
  ![v18.toNat, v377.toNat, 112, 0]

def k0_off56 (i : grid0.Coords) (v339 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_334 : BitVec 32 := 112#32
  let c0_i32_335 : BitVec 32 := 0#32
  ![v18.toNat, v339.toNat, 112, 0]

def k0_chk18 (i : grid0.Coords) (v339 : BitVec 32) : Prop :=
  (∀ a, (k0_off49 i v339) a + S1x1x112x224.size a ≤ S8x192x224x224.size a) ∧
  (∀ a, (k0_off56 i v339) a + S1x1x112x224.size a ≤ S8x192x224x224.size a)
instance k0_chk18.dec : ∀ (i : grid0.Coords) (v339 : BitVec 32), Decidable (k0_chk18 i v339) := fun i v339 => decidable_of_iff' _ (Iff.of_eq (k0_chk18.eq_1 i v339))
theorem k0_off49_inb : ∀ (i : grid0.Coords) (v339 : BitVec 32) (k0_hw18 : k0_chk18 i v339), ∀ a, (k0_off49 i v339) a + S1x1x112x224.size a ≤ S8x192x224x224.size a := fun i v339 k0_hw18 => k0_hw18.1
theorem k0_off56_inb : ∀ (i : grid0.Coords) (v339 : BitVec 32) (k0_hw18 : k0_chk18 i v339), ∀ a, (k0_off56 i v339) a + S1x1x112x224.size a ≤ S8x192x224x224.size a := fun i v339 k0_hw18 => k0_hw18.2

def k0_off57 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c8_i32_338 : BitVec 32 := 8#32
  let v386 : BitVec 32 := Scalar.addi v29 c8_i32_338
  let c112_i32_339 : BitVec 32 := 112#32
  let c0_i32_340 : BitVec 32 := 0#32
  ![v18.toNat, v386.toNat, 112, 0]
def k0_off58 (i : grid0.Coords) (v396 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_349 : BitVec 32 := 0#32
  let c0_i32_350 : BitVec 32 := 0#32
  ![v18.toNat, v396.toNat, 0, 0]

def k0_off59 (i : grid0.Coords) (v358 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_353 : BitVec 32 := 0#32
  let c0_i32_354 : BitVec 32 := 0#32
  ![v18.toNat, v358.toNat, 0, 0]

def k0_chk19 (i : grid0.Coords) (v358 : BitVec 32) : Prop :=
  (∀ a, (k0_off52 i v358) a + S1x1x112x224.size a ≤ S8x192x224x224.size a) ∧
  (∀ a, (k0_off59 i v358) a + S1x1x112x224.size a ≤ S8x192x224x224.size a)
instance k0_chk19.dec : ∀ (i : grid0.Coords) (v358 : BitVec 32), Decidable (k0_chk19 i v358) := fun i v358 => decidable_of_iff' _ (Iff.of_eq (k0_chk19.eq_1 i v358))
theorem k0_off52_inb : ∀ (i : grid0.Coords) (v358 : BitVec 32) (k0_hw19 : k0_chk19 i v358), ∀ a, (k0_off52 i v358) a + S1x1x112x224.size a ≤ S8x192x224x224.size a := fun i v358 k0_hw19 => k0_hw19.1
theorem k0_off59_inb : ∀ (i : grid0.Coords) (v358 : BitVec 32) (k0_hw19 : k0_chk19 i v358), ∀ a, (k0_off59 i v358) a + S1x1x112x224.size a ≤ S8x192x224x224.size a := fun i v358 k0_hw19 => k0_hw19.2

def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c9_i32 : BitVec 32 := 9#32
  let v405 : BitVec 32 := Scalar.addi v29 c9_i32
  let c0_i32_357 : BitVec 32 := 0#32
  let c0_i32_358 : BitVec 32 := 0#32
  ![v18.toNat, v405.toNat, 0, 0]
def k0_off61 (i : grid0.Coords) (v415 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_367 : BitVec 32 := 112#32
  let c0_i32_368 : BitVec 32 := 0#32
  ![v18.toNat, v415.toNat, 112, 0]

def k0_off62 (i : grid0.Coords) (v377 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_371 : BitVec 32 := 112#32
  let c0_i32_372 : BitVec 32 := 0#32
  ![v18.toNat, v377.toNat, 112, 0]

def k0_chk20 (i : grid0.Coords) (v377 : BitVec 32) : Prop :=
  (∀ a, (k0_off55 i v377) a + S1x1x112x224.size a ≤ S8x192x224x224.size a) ∧
  (∀ a, (k0_off62 i v377) a + S1x1x112x224.size a ≤ S8x192x224x224.size a)
instance k0_chk20.dec : ∀ (i : grid0.Coords) (v377 : BitVec 32), Decidable (k0_chk20 i v377) := fun i v377 => decidable_of_iff' _ (Iff.of_eq (k0_chk20.eq_1 i v377))
theorem k0_off55_inb : ∀ (i : grid0.Coords) (v377 : BitVec 32) (k0_hw20 : k0_chk20 i v377), ∀ a, (k0_off55 i v377) a + S1x1x112x224.size a ≤ S8x192x224x224.size a := fun i v377 k0_hw20 => k0_hw20.1
theorem k0_off62_inb : ∀ (i : grid0.Coords) (v377 : BitVec 32) (k0_hw20 : k0_chk20 i v377), ∀ a, (k0_off62 i v377) a + S1x1x112x224.size a ≤ S8x192x224x224.size a := fun i v377 k0_hw20 => k0_hw20.2

def k0_off63 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c9_i32_375 : BitVec 32 := 9#32
  let v424 : BitVec 32 := Scalar.addi v29 c9_i32_375
  let c112_i32_376 : BitVec 32 := 112#32
  let c0_i32_377 : BitVec 32 := 0#32
  ![v18.toNat, v424.toNat, 112, 0]
def k0_off64 (i : grid0.Coords) (v434 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_386 : BitVec 32 := 0#32
  let c0_i32_387 : BitVec 32 := 0#32
  ![v18.toNat, v434.toNat, 0, 0]

def k0_off65 (i : grid0.Coords) (v396 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_390 : BitVec 32 := 0#32
  let c0_i32_391 : BitVec 32 := 0#32
  ![v18.toNat, v396.toNat, 0, 0]

def k0_chk21 (i : grid0.Coords) (v396 : BitVec 32) : Prop :=
  (∀ a, (k0_off58 i v396) a + S1x1x112x224.size a ≤ S8x192x224x224.size a) ∧
  (∀ a, (k0_off65 i v396) a + S1x1x112x224.size a ≤ S8x192x224x224.size a)
instance k0_chk21.dec : ∀ (i : grid0.Coords) (v396 : BitVec 32), Decidable (k0_chk21 i v396) := fun i v396 => decidable_of_iff' _ (Iff.of_eq (k0_chk21.eq_1 i v396))
theorem k0_off58_inb : ∀ (i : grid0.Coords) (v396 : BitVec 32) (k0_hw21 : k0_chk21 i v396), ∀ a, (k0_off58 i v396) a + S1x1x112x224.size a ≤ S8x192x224x224.size a := fun i v396 k0_hw21 => k0_hw21.1
theorem k0_off65_inb : ∀ (i : grid0.Coords) (v396 : BitVec 32) (k0_hw21 : k0_chk21 i v396), ∀ a, (k0_off65 i v396) a + S1x1x112x224.size a ≤ S8x192x224x224.size a := fun i v396 k0_hw21 => k0_hw21.2

def k0_off66 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c10_i32 : BitVec 32 := 10#32
  let v443 : BitVec 32 := Scalar.addi v29 c10_i32
  let c0_i32_394 : BitVec 32 := 0#32
  let c0_i32_395 : BitVec 32 := 0#32
  ![v18.toNat, v443.toNat, 0, 0]
def k0_off67 (i : grid0.Coords) (v453 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_404 : BitVec 32 := 112#32
  let c0_i32_405 : BitVec 32 := 0#32
  ![v18.toNat, v453.toNat, 112, 0]

def k0_off68 (i : grid0.Coords) (v415 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_408 : BitVec 32 := 112#32
  let c0_i32_409 : BitVec 32 := 0#32
  ![v18.toNat, v415.toNat, 112, 0]

def k0_chk22 (i : grid0.Coords) (v415 : BitVec 32) : Prop :=
  (∀ a, (k0_off61 i v415) a + S1x1x112x224.size a ≤ S8x192x224x224.size a) ∧
  (∀ a, (k0_off68 i v415) a + S1x1x112x224.size a ≤ S8x192x224x224.size a)
instance k0_chk22.dec : ∀ (i : grid0.Coords) (v415 : BitVec 32), Decidable (k0_chk22 i v415) := fun i v415 => decidable_of_iff' _ (Iff.of_eq (k0_chk22.eq_1 i v415))
theorem k0_off61_inb : ∀ (i : grid0.Coords) (v415 : BitVec 32) (k0_hw22 : k0_chk22 i v415), ∀ a, (k0_off61 i v415) a + S1x1x112x224.size a ≤ S8x192x224x224.size a := fun i v415 k0_hw22 => k0_hw22.1
theorem k0_off68_inb : ∀ (i : grid0.Coords) (v415 : BitVec 32) (k0_hw22 : k0_chk22 i v415), ∀ a, (k0_off68 i v415) a + S1x1x112x224.size a ≤ S8x192x224x224.size a := fun i v415 k0_hw22 => k0_hw22.2

def k0_off69 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c10_i32_412 : BitVec 32 := 10#32
  let v462 : BitVec 32 := Scalar.addi v29 c10_i32_412
  let c112_i32_413 : BitVec 32 := 112#32
  let c0_i32_414 : BitVec 32 := 0#32
  ![v18.toNat, v462.toNat, 112, 0]
def k0_off70 (i : grid0.Coords) (v472 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_423 : BitVec 32 := 0#32
  let c0_i32_424 : BitVec 32 := 0#32
  ![v18.toNat, v472.toNat, 0, 0]

def k0_off71 (i : grid0.Coords) (v434 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_427 : BitVec 32 := 0#32
  let c0_i32_428 : BitVec 32 := 0#32
  ![v18.toNat, v434.toNat, 0, 0]

def k0_chk23 (i : grid0.Coords) (v434 : BitVec 32) : Prop :=
  (∀ a, (k0_off64 i v434) a + S1x1x112x224.size a ≤ S8x192x224x224.size a) ∧
  (∀ a, (k0_off71 i v434) a + S1x1x112x224.size a ≤ S8x192x224x224.size a)
instance k0_chk23.dec : ∀ (i : grid0.Coords) (v434 : BitVec 32), Decidable (k0_chk23 i v434) := fun i v434 => decidable_of_iff' _ (Iff.of_eq (k0_chk23.eq_1 i v434))
theorem k0_off64_inb : ∀ (i : grid0.Coords) (v434 : BitVec 32) (k0_hw23 : k0_chk23 i v434), ∀ a, (k0_off64 i v434) a + S1x1x112x224.size a ≤ S8x192x224x224.size a := fun i v434 k0_hw23 => k0_hw23.1
theorem k0_off71_inb : ∀ (i : grid0.Coords) (v434 : BitVec 32) (k0_hw23 : k0_chk23 i v434), ∀ a, (k0_off71 i v434) a + S1x1x112x224.size a ≤ S8x192x224x224.size a := fun i v434 k0_hw23 => k0_hw23.2

def k0_off72 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c11_i32 : BitVec 32 := 11#32
  let v481 : BitVec 32 := Scalar.addi v29 c11_i32
  let c0_i32_431 : BitVec 32 := 0#32
  let c0_i32_432 : BitVec 32 := 0#32
  ![v18.toNat, v481.toNat, 0, 0]
def k0_off73 (i : grid0.Coords) (v491 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_441 : BitVec 32 := 112#32
  let c0_i32_442 : BitVec 32 := 0#32
  ![v18.toNat, v491.toNat, 112, 0]

def k0_off74 (i : grid0.Coords) (v453 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_445 : BitVec 32 := 112#32
  let c0_i32_446 : BitVec 32 := 0#32
  ![v18.toNat, v453.toNat, 112, 0]

def k0_chk24 (i : grid0.Coords) (v453 : BitVec 32) : Prop :=
  (∀ a, (k0_off67 i v453) a + S1x1x112x224.size a ≤ S8x192x224x224.size a) ∧
  (∀ a, (k0_off74 i v453) a + S1x1x112x224.size a ≤ S8x192x224x224.size a)
instance k0_chk24.dec : ∀ (i : grid0.Coords) (v453 : BitVec 32), Decidable (k0_chk24 i v453) := fun i v453 => decidable_of_iff' _ (Iff.of_eq (k0_chk24.eq_1 i v453))
theorem k0_off67_inb : ∀ (i : grid0.Coords) (v453 : BitVec 32) (k0_hw24 : k0_chk24 i v453), ∀ a, (k0_off67 i v453) a + S1x1x112x224.size a ≤ S8x192x224x224.size a := fun i v453 k0_hw24 => k0_hw24.1
theorem k0_off74_inb : ∀ (i : grid0.Coords) (v453 : BitVec 32) (k0_hw24 : k0_chk24 i v453), ∀ a, (k0_off74 i v453) a + S1x1x112x224.size a ≤ S8x192x224x224.size a := fun i v453 k0_hw24 => k0_hw24.2

def k0_off75 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c11_i32_449 : BitVec 32 := 11#32
  let v500 : BitVec 32 := Scalar.addi v29 c11_i32_449
  let c112_i32_450 : BitVec 32 := 112#32
  let c0_i32_451 : BitVec 32 := 0#32
  ![v18.toNat, v500.toNat, 112, 0]
def k0_off76 (i : grid0.Coords) (v510 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_460 : BitVec 32 := 0#32
  let c0_i32_461 : BitVec 32 := 0#32
  ![v18.toNat, v510.toNat, 0, 0]

def k0_off77 (i : grid0.Coords) (v472 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_464 : BitVec 32 := 0#32
  let c0_i32_465 : BitVec 32 := 0#32
  ![v18.toNat, v472.toNat, 0, 0]

def k0_chk25 (i : grid0.Coords) (v472 : BitVec 32) : Prop :=
  (∀ a, (k0_off70 i v472) a + S1x1x112x224.size a ≤ S8x192x224x224.size a) ∧
  (∀ a, (k0_off77 i v472) a + S1x1x112x224.size a ≤ S8x192x224x224.size a)
instance k0_chk25.dec : ∀ (i : grid0.Coords) (v472 : BitVec 32), Decidable (k0_chk25 i v472) := fun i v472 => decidable_of_iff' _ (Iff.of_eq (k0_chk25.eq_1 i v472))
theorem k0_off70_inb : ∀ (i : grid0.Coords) (v472 : BitVec 32) (k0_hw25 : k0_chk25 i v472), ∀ a, (k0_off70 i v472) a + S1x1x112x224.size a ≤ S8x192x224x224.size a := fun i v472 k0_hw25 => k0_hw25.1
theorem k0_off77_inb : ∀ (i : grid0.Coords) (v472 : BitVec 32) (k0_hw25 : k0_chk25 i v472), ∀ a, (k0_off77 i v472) a + S1x1x112x224.size a ≤ S8x192x224x224.size a := fun i v472 k0_hw25 => k0_hw25.2

def k0_off78 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c12_i32 : BitVec 32 := 12#32
  let v519 : BitVec 32 := Scalar.addi v29 c12_i32
  let c0_i32_468 : BitVec 32 := 0#32
  let c0_i32_469 : BitVec 32 := 0#32
  ![v18.toNat, v519.toNat, 0, 0]
def k0_off79 (i : grid0.Coords) (v529 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_478 : BitVec 32 := 112#32
  let c0_i32_479 : BitVec 32 := 0#32
  ![v18.toNat, v529.toNat, 112, 0]

def k0_off80 (i : grid0.Coords) (v491 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_482 : BitVec 32 := 112#32
  let c0_i32_483 : BitVec 32 := 0#32
  ![v18.toNat, v491.toNat, 112, 0]

def k0_chk26 (i : grid0.Coords) (v491 : BitVec 32) : Prop :=
  (∀ a, (k0_off73 i v491) a + S1x1x112x224.size a ≤ S8x192x224x224.size a) ∧
  (∀ a, (k0_off80 i v491) a + S1x1x112x224.size a ≤ S8x192x224x224.size a)
instance k0_chk26.dec : ∀ (i : grid0.Coords) (v491 : BitVec 32), Decidable (k0_chk26 i v491) := fun i v491 => decidable_of_iff' _ (Iff.of_eq (k0_chk26.eq_1 i v491))
theorem k0_off73_inb : ∀ (i : grid0.Coords) (v491 : BitVec 32) (k0_hw26 : k0_chk26 i v491), ∀ a, (k0_off73 i v491) a + S1x1x112x224.size a ≤ S8x192x224x224.size a := fun i v491 k0_hw26 => k0_hw26.1
theorem k0_off80_inb : ∀ (i : grid0.Coords) (v491 : BitVec 32) (k0_hw26 : k0_chk26 i v491), ∀ a, (k0_off80 i v491) a + S1x1x112x224.size a ≤ S8x192x224x224.size a := fun i v491 k0_hw26 => k0_hw26.2

def k0_off81 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c12_i32_486 : BitVec 32 := 12#32
  let v538 : BitVec 32 := Scalar.addi v29 c12_i32_486
  let c112_i32_487 : BitVec 32 := 112#32
  let c0_i32_488 : BitVec 32 := 0#32
  ![v18.toNat, v538.toNat, 112, 0]
def k0_off82 (i : grid0.Coords) (v548 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_497 : BitVec 32 := 0#32
  let c0_i32_498 : BitVec 32 := 0#32
  ![v18.toNat, v548.toNat, 0, 0]

def k0_off83 (i : grid0.Coords) (v510 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_501 : BitVec 32 := 0#32
  let c0_i32_502 : BitVec 32 := 0#32
  ![v18.toNat, v510.toNat, 0, 0]

def k0_chk27 (i : grid0.Coords) (v510 : BitVec 32) : Prop :=
  (∀ a, (k0_off76 i v510) a + S1x1x112x224.size a ≤ S8x192x224x224.size a) ∧
  (∀ a, (k0_off83 i v510) a + S1x1x112x224.size a ≤ S8x192x224x224.size a)
instance k0_chk27.dec : ∀ (i : grid0.Coords) (v510 : BitVec 32), Decidable (k0_chk27 i v510) := fun i v510 => decidable_of_iff' _ (Iff.of_eq (k0_chk27.eq_1 i v510))
theorem k0_off76_inb : ∀ (i : grid0.Coords) (v510 : BitVec 32) (k0_hw27 : k0_chk27 i v510), ∀ a, (k0_off76 i v510) a + S1x1x112x224.size a ≤ S8x192x224x224.size a := fun i v510 k0_hw27 => k0_hw27.1
theorem k0_off83_inb : ∀ (i : grid0.Coords) (v510 : BitVec 32) (k0_hw27 : k0_chk27 i v510), ∀ a, (k0_off83 i v510) a + S1x1x112x224.size a ≤ S8x192x224x224.size a := fun i v510 k0_hw27 => k0_hw27.2

def k0_off84 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c13_i32 : BitVec 32 := 13#32
  let v557 : BitVec 32 := Scalar.addi v29 c13_i32
  let c0_i32_505 : BitVec 32 := 0#32
  let c0_i32_506 : BitVec 32 := 0#32
  ![v18.toNat, v557.toNat, 0, 0]
def k0_off85 (i : grid0.Coords) (v567 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_515 : BitVec 32 := 112#32
  let c0_i32_516 : BitVec 32 := 0#32
  ![v18.toNat, v567.toNat, 112, 0]

def k0_off86 (i : grid0.Coords) (v529 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_519 : BitVec 32 := 112#32
  let c0_i32_520 : BitVec 32 := 0#32
  ![v18.toNat, v529.toNat, 112, 0]

def k0_chk28 (i : grid0.Coords) (v529 : BitVec 32) : Prop :=
  (∀ a, (k0_off79 i v529) a + S1x1x112x224.size a ≤ S8x192x224x224.size a) ∧
  (∀ a, (k0_off86 i v529) a + S1x1x112x224.size a ≤ S8x192x224x224.size a)
instance k0_chk28.dec : ∀ (i : grid0.Coords) (v529 : BitVec 32), Decidable (k0_chk28 i v529) := fun i v529 => decidable_of_iff' _ (Iff.of_eq (k0_chk28.eq_1 i v529))
theorem k0_off79_inb : ∀ (i : grid0.Coords) (v529 : BitVec 32) (k0_hw28 : k0_chk28 i v529), ∀ a, (k0_off79 i v529) a + S1x1x112x224.size a ≤ S8x192x224x224.size a := fun i v529 k0_hw28 => k0_hw28.1
theorem k0_off86_inb : ∀ (i : grid0.Coords) (v529 : BitVec 32) (k0_hw28 : k0_chk28 i v529), ∀ a, (k0_off86 i v529) a + S1x1x112x224.size a ≤ S8x192x224x224.size a := fun i v529 k0_hw28 => k0_hw28.2

def k0_off87 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c13_i32_523 : BitVec 32 := 13#32
  let v576 : BitVec 32 := Scalar.addi v29 c13_i32_523
  let c112_i32_524 : BitVec 32 := 112#32
  let c0_i32_525 : BitVec 32 := 0#32
  ![v18.toNat, v576.toNat, 112, 0]
def k0_off88 (i : grid0.Coords) (v586 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_534 : BitVec 32 := 0#32
  let c0_i32_535 : BitVec 32 := 0#32
  ![v18.toNat, v586.toNat, 0, 0]

def k0_off89 (i : grid0.Coords) (v548 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_538 : BitVec 32 := 0#32
  let c0_i32_539 : BitVec 32 := 0#32
  ![v18.toNat, v548.toNat, 0, 0]

def k0_chk29 (i : grid0.Coords) (v548 : BitVec 32) : Prop :=
  (∀ a, (k0_off82 i v548) a + S1x1x112x224.size a ≤ S8x192x224x224.size a) ∧
  (∀ a, (k0_off89 i v548) a + S1x1x112x224.size a ≤ S8x192x224x224.size a)
instance k0_chk29.dec : ∀ (i : grid0.Coords) (v548 : BitVec 32), Decidable (k0_chk29 i v548) := fun i v548 => decidable_of_iff' _ (Iff.of_eq (k0_chk29.eq_1 i v548))
theorem k0_off82_inb : ∀ (i : grid0.Coords) (v548 : BitVec 32) (k0_hw29 : k0_chk29 i v548), ∀ a, (k0_off82 i v548) a + S1x1x112x224.size a ≤ S8x192x224x224.size a := fun i v548 k0_hw29 => k0_hw29.1
theorem k0_off89_inb : ∀ (i : grid0.Coords) (v548 : BitVec 32) (k0_hw29 : k0_chk29 i v548), ∀ a, (k0_off89 i v548) a + S1x1x112x224.size a ≤ S8x192x224x224.size a := fun i v548 k0_hw29 => k0_hw29.2

def k0_off90 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c14_i32 : BitVec 32 := 14#32
  let v595 : BitVec 32 := Scalar.addi v29 c14_i32
  let c0_i32_542 : BitVec 32 := 0#32
  let c0_i32_543 : BitVec 32 := 0#32
  ![v18.toNat, v595.toNat, 0, 0]
def k0_off91 (i : grid0.Coords) (v605 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_552 : BitVec 32 := 112#32
  let c0_i32_553 : BitVec 32 := 0#32
  ![v18.toNat, v605.toNat, 112, 0]

def k0_off92 (i : grid0.Coords) (v567 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_556 : BitVec 32 := 112#32
  let c0_i32_557 : BitVec 32 := 0#32
  ![v18.toNat, v567.toNat, 112, 0]

def k0_chk30 (i : grid0.Coords) (v567 : BitVec 32) : Prop :=
  (∀ a, (k0_off85 i v567) a + S1x1x112x224.size a ≤ S8x192x224x224.size a) ∧
  (∀ a, (k0_off92 i v567) a + S1x1x112x224.size a ≤ S8x192x224x224.size a)
instance k0_chk30.dec : ∀ (i : grid0.Coords) (v567 : BitVec 32), Decidable (k0_chk30 i v567) := fun i v567 => decidable_of_iff' _ (Iff.of_eq (k0_chk30.eq_1 i v567))
theorem k0_off85_inb : ∀ (i : grid0.Coords) (v567 : BitVec 32) (k0_hw30 : k0_chk30 i v567), ∀ a, (k0_off85 i v567) a + S1x1x112x224.size a ≤ S8x192x224x224.size a := fun i v567 k0_hw30 => k0_hw30.1
theorem k0_off92_inb : ∀ (i : grid0.Coords) (v567 : BitVec 32) (k0_hw30 : k0_chk30 i v567), ∀ a, (k0_off92 i v567) a + S1x1x112x224.size a ≤ S8x192x224x224.size a := fun i v567 k0_hw30 => k0_hw30.2

def k0_off93 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c14_i32_560 : BitVec 32 := 14#32
  let v614 : BitVec 32 := Scalar.addi v29 c14_i32_560
  let c112_i32_561 : BitVec 32 := 112#32
  let c0_i32_562 : BitVec 32 := 0#32
  ![v18.toNat, v614.toNat, 112, 0]
def k0_off94 (i : grid0.Coords) (v624 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_571 : BitVec 32 := 0#32
  let c0_i32_572 : BitVec 32 := 0#32
  ![v18.toNat, v624.toNat, 0, 0]

def k0_off95 (i : grid0.Coords) (v586 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_575 : BitVec 32 := 0#32
  let c0_i32_576 : BitVec 32 := 0#32
  ![v18.toNat, v586.toNat, 0, 0]

def k0_chk31 (i : grid0.Coords) (v586 : BitVec 32) : Prop :=
  (∀ a, (k0_off88 i v586) a + S1x1x112x224.size a ≤ S8x192x224x224.size a) ∧
  (∀ a, (k0_off95 i v586) a + S1x1x112x224.size a ≤ S8x192x224x224.size a)
instance k0_chk31.dec : ∀ (i : grid0.Coords) (v586 : BitVec 32), Decidable (k0_chk31 i v586) := fun i v586 => decidable_of_iff' _ (Iff.of_eq (k0_chk31.eq_1 i v586))
theorem k0_off88_inb : ∀ (i : grid0.Coords) (v586 : BitVec 32) (k0_hw31 : k0_chk31 i v586), ∀ a, (k0_off88 i v586) a + S1x1x112x224.size a ≤ S8x192x224x224.size a := fun i v586 k0_hw31 => k0_hw31.1
theorem k0_off95_inb : ∀ (i : grid0.Coords) (v586 : BitVec 32) (k0_hw31 : k0_chk31 i v586), ∀ a, (k0_off95 i v586) a + S1x1x112x224.size a ≤ S8x192x224x224.size a := fun i v586 k0_hw31 => k0_hw31.2

def k0_off96 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c15_i32 : BitVec 32 := 15#32
  let v633 : BitVec 32 := Scalar.addi v29 c15_i32
  let c0_i32_579 : BitVec 32 := 0#32
  let c0_i32_580 : BitVec 32 := 0#32
  ![v18.toNat, v633.toNat, 0, 0]
def k0_off97 (i : grid0.Coords) (v643 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_589 : BitVec 32 := 112#32
  let c0_i32_590 : BitVec 32 := 0#32
  ![v18.toNat, v643.toNat, 112, 0]

def k0_off98 (i : grid0.Coords) (v605 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_593 : BitVec 32 := 112#32
  let c0_i32_594 : BitVec 32 := 0#32
  ![v18.toNat, v605.toNat, 112, 0]

def k0_chk32 (i : grid0.Coords) (v605 : BitVec 32) : Prop :=
  (∀ a, (k0_off91 i v605) a + S1x1x112x224.size a ≤ S8x192x224x224.size a) ∧
  (∀ a, (k0_off98 i v605) a + S1x1x112x224.size a ≤ S8x192x224x224.size a)
instance k0_chk32.dec : ∀ (i : grid0.Coords) (v605 : BitVec 32), Decidable (k0_chk32 i v605) := fun i v605 => decidable_of_iff' _ (Iff.of_eq (k0_chk32.eq_1 i v605))
theorem k0_off91_inb : ∀ (i : grid0.Coords) (v605 : BitVec 32) (k0_hw32 : k0_chk32 i v605), ∀ a, (k0_off91 i v605) a + S1x1x112x224.size a ≤ S8x192x224x224.size a := fun i v605 k0_hw32 => k0_hw32.1
theorem k0_off98_inb : ∀ (i : grid0.Coords) (v605 : BitVec 32) (k0_hw32 : k0_chk32 i v605), ∀ a, (k0_off98 i v605) a + S1x1x112x224.size a ≤ S8x192x224x224.size a := fun i v605 k0_hw32 => k0_hw32.2

def k0_off99 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c15_i32_597 : BitVec 32 := 15#32
  let v652 : BitVec 32 := Scalar.addi v29 c15_i32_597
  let c112_i32_598 : BitVec 32 := 112#32
  let c0_i32_599 : BitVec 32 := 0#32
  ![v18.toNat, v652.toNat, 112, 0]
def k0_off100 (i : grid0.Coords) (v662 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_608 : BitVec 32 := 0#32
  let c0_i32_609 : BitVec 32 := 0#32
  ![v18.toNat, v662.toNat, 0, 0]

def k0_off101 (i : grid0.Coords) (v624 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_612 : BitVec 32 := 0#32
  let c0_i32_613 : BitVec 32 := 0#32
  ![v18.toNat, v624.toNat, 0, 0]

def k0_chk33 (i : grid0.Coords) (v624 : BitVec 32) : Prop :=
  (∀ a, (k0_off94 i v624) a + S1x1x112x224.size a ≤ S8x192x224x224.size a) ∧
  (∀ a, (k0_off101 i v624) a + S1x1x112x224.size a ≤ S8x192x224x224.size a)
instance k0_chk33.dec : ∀ (i : grid0.Coords) (v624 : BitVec 32), Decidable (k0_chk33 i v624) := fun i v624 => decidable_of_iff' _ (Iff.of_eq (k0_chk33.eq_1 i v624))
theorem k0_off94_inb : ∀ (i : grid0.Coords) (v624 : BitVec 32) (k0_hw33 : k0_chk33 i v624), ∀ a, (k0_off94 i v624) a + S1x1x112x224.size a ≤ S8x192x224x224.size a := fun i v624 k0_hw33 => k0_hw33.1
theorem k0_off101_inb : ∀ (i : grid0.Coords) (v624 : BitVec 32) (k0_hw33 : k0_chk33 i v624), ∀ a, (k0_off101 i v624) a + S1x1x112x224.size a ≤ S8x192x224x224.size a := fun i v624 k0_hw33 => k0_hw33.2

def k0_off102 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c16_i32_616 : BitVec 32 := 16#32
  let v671 : BitVec 32 := Scalar.addi v29 c16_i32_616
  let c0_i32_617 : BitVec 32 := 0#32
  let c0_i32_618 : BitVec 32 := 0#32
  ![v18.toNat, v671.toNat, 0, 0]
def k0_off103 (i : grid0.Coords) (v681 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_627 : BitVec 32 := 112#32
  let c0_i32_628 : BitVec 32 := 0#32
  ![v18.toNat, v681.toNat, 112, 0]

def k0_off104 (i : grid0.Coords) (v643 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_631 : BitVec 32 := 112#32
  let c0_i32_632 : BitVec 32 := 0#32
  ![v18.toNat, v643.toNat, 112, 0]

def k0_chk34 (i : grid0.Coords) (v643 : BitVec 32) : Prop :=
  (∀ a, (k0_off97 i v643) a + S1x1x112x224.size a ≤ S8x192x224x224.size a) ∧
  (∀ a, (k0_off104 i v643) a + S1x1x112x224.size a ≤ S8x192x224x224.size a)
instance k0_chk34.dec : ∀ (i : grid0.Coords) (v643 : BitVec 32), Decidable (k0_chk34 i v643) := fun i v643 => decidable_of_iff' _ (Iff.of_eq (k0_chk34.eq_1 i v643))
theorem k0_off97_inb : ∀ (i : grid0.Coords) (v643 : BitVec 32) (k0_hw34 : k0_chk34 i v643), ∀ a, (k0_off97 i v643) a + S1x1x112x224.size a ≤ S8x192x224x224.size a := fun i v643 k0_hw34 => k0_hw34.1
theorem k0_off104_inb : ∀ (i : grid0.Coords) (v643 : BitVec 32) (k0_hw34 : k0_chk34 i v643), ∀ a, (k0_off104 i v643) a + S1x1x112x224.size a ≤ S8x192x224x224.size a := fun i v643 k0_hw34 => k0_hw34.2

def k0_off105 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c16_i32_635 : BitVec 32 := 16#32
  let v690 : BitVec 32 := Scalar.addi v29 c16_i32_635
  let c112_i32_636 : BitVec 32 := 112#32
  let c0_i32_637 : BitVec 32 := 0#32
  ![v18.toNat, v690.toNat, 112, 0]
def k0_off106 (i : grid0.Coords) (v700 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_646 : BitVec 32 := 0#32
  let c0_i32_647 : BitVec 32 := 0#32
  ![v18.toNat, v700.toNat, 0, 0]

def k0_off107 (i : grid0.Coords) (v662 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_650 : BitVec 32 := 0#32
  let c0_i32_651 : BitVec 32 := 0#32
  ![v18.toNat, v662.toNat, 0, 0]

def k0_chk35 (i : grid0.Coords) (v662 : BitVec 32) : Prop :=
  (∀ a, (k0_off100 i v662) a + S1x1x112x224.size a ≤ S8x192x224x224.size a) ∧
  (∀ a, (k0_off107 i v662) a + S1x1x112x224.size a ≤ S8x192x224x224.size a)
instance k0_chk35.dec : ∀ (i : grid0.Coords) (v662 : BitVec 32), Decidable (k0_chk35 i v662) := fun i v662 => decidable_of_iff' _ (Iff.of_eq (k0_chk35.eq_1 i v662))
theorem k0_off100_inb : ∀ (i : grid0.Coords) (v662 : BitVec 32) (k0_hw35 : k0_chk35 i v662), ∀ a, (k0_off100 i v662) a + S1x1x112x224.size a ≤ S8x192x224x224.size a := fun i v662 k0_hw35 => k0_hw35.1
theorem k0_off107_inb : ∀ (i : grid0.Coords) (v662 : BitVec 32) (k0_hw35 : k0_chk35 i v662), ∀ a, (k0_off107 i v662) a + S1x1x112x224.size a ≤ S8x192x224x224.size a := fun i v662 k0_hw35 => k0_hw35.2

def k0_off108 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c17_i32 : BitVec 32 := 17#32
  let v709 : BitVec 32 := Scalar.addi v29 c17_i32
  let c0_i32_654 : BitVec 32 := 0#32
  let c0_i32_655 : BitVec 32 := 0#32
  ![v18.toNat, v709.toNat, 0, 0]
def k0_off109 (i : grid0.Coords) (v719 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_664 : BitVec 32 := 112#32
  let c0_i32_665 : BitVec 32 := 0#32
  ![v18.toNat, v719.toNat, 112, 0]

def k0_off110 (i : grid0.Coords) (v681 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_668 : BitVec 32 := 112#32
  let c0_i32_669 : BitVec 32 := 0#32
  ![v18.toNat, v681.toNat, 112, 0]

def k0_chk36 (i : grid0.Coords) (v681 : BitVec 32) : Prop :=
  (∀ a, (k0_off103 i v681) a + S1x1x112x224.size a ≤ S8x192x224x224.size a) ∧
  (∀ a, (k0_off110 i v681) a + S1x1x112x224.size a ≤ S8x192x224x224.size a)
instance k0_chk36.dec : ∀ (i : grid0.Coords) (v681 : BitVec 32), Decidable (k0_chk36 i v681) := fun i v681 => decidable_of_iff' _ (Iff.of_eq (k0_chk36.eq_1 i v681))
theorem k0_off103_inb : ∀ (i : grid0.Coords) (v681 : BitVec 32) (k0_hw36 : k0_chk36 i v681), ∀ a, (k0_off103 i v681) a + S1x1x112x224.size a ≤ S8x192x224x224.size a := fun i v681 k0_hw36 => k0_hw36.1
theorem k0_off110_inb : ∀ (i : grid0.Coords) (v681 : BitVec 32) (k0_hw36 : k0_chk36 i v681), ∀ a, (k0_off110 i v681) a + S1x1x112x224.size a ≤ S8x192x224x224.size a := fun i v681 k0_hw36 => k0_hw36.2

def k0_off111 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c17_i32_672 : BitVec 32 := 17#32
  let v728 : BitVec 32 := Scalar.addi v29 c17_i32_672
  let c112_i32_673 : BitVec 32 := 112#32
  let c0_i32_674 : BitVec 32 := 0#32
  ![v18.toNat, v728.toNat, 112, 0]
def k0_off112 (i : grid0.Coords) (v738 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_683 : BitVec 32 := 0#32
  let c0_i32_684 : BitVec 32 := 0#32
  ![v18.toNat, v738.toNat, 0, 0]

def k0_off113 (i : grid0.Coords) (v700 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_687 : BitVec 32 := 0#32
  let c0_i32_688 : BitVec 32 := 0#32
  ![v18.toNat, v700.toNat, 0, 0]

def k0_chk37 (i : grid0.Coords) (v700 : BitVec 32) : Prop :=
  (∀ a, (k0_off106 i v700) a + S1x1x112x224.size a ≤ S8x192x224x224.size a) ∧
  (∀ a, (k0_off113 i v700) a + S1x1x112x224.size a ≤ S8x192x224x224.size a)
instance k0_chk37.dec : ∀ (i : grid0.Coords) (v700 : BitVec 32), Decidable (k0_chk37 i v700) := fun i v700 => decidable_of_iff' _ (Iff.of_eq (k0_chk37.eq_1 i v700))
theorem k0_off106_inb : ∀ (i : grid0.Coords) (v700 : BitVec 32) (k0_hw37 : k0_chk37 i v700), ∀ a, (k0_off106 i v700) a + S1x1x112x224.size a ≤ S8x192x224x224.size a := fun i v700 k0_hw37 => k0_hw37.1
theorem k0_off113_inb : ∀ (i : grid0.Coords) (v700 : BitVec 32) (k0_hw37 : k0_chk37 i v700), ∀ a, (k0_off113 i v700) a + S1x1x112x224.size a ≤ S8x192x224x224.size a := fun i v700 k0_hw37 => k0_hw37.2

def k0_off114 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c18_i32 : BitVec 32 := 18#32
  let v747 : BitVec 32 := Scalar.addi v29 c18_i32
  let c0_i32_691 : BitVec 32 := 0#32
  let c0_i32_692 : BitVec 32 := 0#32
  ![v18.toNat, v747.toNat, 0, 0]
def k0_off115 (i : grid0.Coords) (v757 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_701 : BitVec 32 := 112#32
  let c0_i32_702 : BitVec 32 := 0#32
  ![v18.toNat, v757.toNat, 112, 0]

def k0_off116 (i : grid0.Coords) (v719 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_705 : BitVec 32 := 112#32
  let c0_i32_706 : BitVec 32 := 0#32
  ![v18.toNat, v719.toNat, 112, 0]

def k0_chk38 (i : grid0.Coords) (v719 : BitVec 32) : Prop :=
  (∀ a, (k0_off109 i v719) a + S1x1x112x224.size a ≤ S8x192x224x224.size a) ∧
  (∀ a, (k0_off116 i v719) a + S1x1x112x224.size a ≤ S8x192x224x224.size a)
instance k0_chk38.dec : ∀ (i : grid0.Coords) (v719 : BitVec 32), Decidable (k0_chk38 i v719) := fun i v719 => decidable_of_iff' _ (Iff.of_eq (k0_chk38.eq_1 i v719))
theorem k0_off109_inb : ∀ (i : grid0.Coords) (v719 : BitVec 32) (k0_hw38 : k0_chk38 i v719), ∀ a, (k0_off109 i v719) a + S1x1x112x224.size a ≤ S8x192x224x224.size a := fun i v719 k0_hw38 => k0_hw38.1
theorem k0_off116_inb : ∀ (i : grid0.Coords) (v719 : BitVec 32) (k0_hw38 : k0_chk38 i v719), ∀ a, (k0_off116 i v719) a + S1x1x112x224.size a ≤ S8x192x224x224.size a := fun i v719 k0_hw38 => k0_hw38.2

def k0_off117 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c18_i32_709 : BitVec 32 := 18#32
  let v766 : BitVec 32 := Scalar.addi v29 c18_i32_709
  let c112_i32_710 : BitVec 32 := 112#32
  let c0_i32_711 : BitVec 32 := 0#32
  ![v18.toNat, v766.toNat, 112, 0]
def k0_off118 (i : grid0.Coords) (v776 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_720 : BitVec 32 := 0#32
  let c0_i32_721 : BitVec 32 := 0#32
  ![v18.toNat, v776.toNat, 0, 0]

def k0_off119 (i : grid0.Coords) (v738 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_724 : BitVec 32 := 0#32
  let c0_i32_725 : BitVec 32 := 0#32
  ![v18.toNat, v738.toNat, 0, 0]

def k0_chk39 (i : grid0.Coords) (v738 : BitVec 32) : Prop :=
  (∀ a, (k0_off112 i v738) a + S1x1x112x224.size a ≤ S8x192x224x224.size a) ∧
  (∀ a, (k0_off119 i v738) a + S1x1x112x224.size a ≤ S8x192x224x224.size a)
instance k0_chk39.dec : ∀ (i : grid0.Coords) (v738 : BitVec 32), Decidable (k0_chk39 i v738) := fun i v738 => decidable_of_iff' _ (Iff.of_eq (k0_chk39.eq_1 i v738))
theorem k0_off112_inb : ∀ (i : grid0.Coords) (v738 : BitVec 32) (k0_hw39 : k0_chk39 i v738), ∀ a, (k0_off112 i v738) a + S1x1x112x224.size a ≤ S8x192x224x224.size a := fun i v738 k0_hw39 => k0_hw39.1
theorem k0_off119_inb : ∀ (i : grid0.Coords) (v738 : BitVec 32) (k0_hw39 : k0_chk39 i v738), ∀ a, (k0_off119 i v738) a + S1x1x112x224.size a ≤ S8x192x224x224.size a := fun i v738 k0_hw39 => k0_hw39.2

def k0_off120 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c19_i32 : BitVec 32 := 19#32
  let v785 : BitVec 32 := Scalar.addi v29 c19_i32
  let c0_i32_728 : BitVec 32 := 0#32
  let c0_i32_729 : BitVec 32 := 0#32
  ![v18.toNat, v785.toNat, 0, 0]
def k0_off121 (i : grid0.Coords) (v795 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_738 : BitVec 32 := 112#32
  let c0_i32_739 : BitVec 32 := 0#32
  ![v18.toNat, v795.toNat, 112, 0]

def k0_off122 (i : grid0.Coords) (v757 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_742 : BitVec 32 := 112#32
  let c0_i32_743 : BitVec 32 := 0#32
  ![v18.toNat, v757.toNat, 112, 0]

def k0_chk40 (i : grid0.Coords) (v757 : BitVec 32) : Prop :=
  (∀ a, (k0_off115 i v757) a + S1x1x112x224.size a ≤ S8x192x224x224.size a) ∧
  (∀ a, (k0_off122 i v757) a + S1x1x112x224.size a ≤ S8x192x224x224.size a)
instance k0_chk40.dec : ∀ (i : grid0.Coords) (v757 : BitVec 32), Decidable (k0_chk40 i v757) := fun i v757 => decidable_of_iff' _ (Iff.of_eq (k0_chk40.eq_1 i v757))
theorem k0_off115_inb : ∀ (i : grid0.Coords) (v757 : BitVec 32) (k0_hw40 : k0_chk40 i v757), ∀ a, (k0_off115 i v757) a + S1x1x112x224.size a ≤ S8x192x224x224.size a := fun i v757 k0_hw40 => k0_hw40.1
theorem k0_off122_inb : ∀ (i : grid0.Coords) (v757 : BitVec 32) (k0_hw40 : k0_chk40 i v757), ∀ a, (k0_off122 i v757) a + S1x1x112x224.size a ≤ S8x192x224x224.size a := fun i v757 k0_hw40 => k0_hw40.2

def k0_off123 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c19_i32_746 : BitVec 32 := 19#32
  let v804 : BitVec 32 := Scalar.addi v29 c19_i32_746
  let c112_i32_747 : BitVec 32 := 112#32
  let c0_i32_748 : BitVec 32 := 0#32
  ![v18.toNat, v804.toNat, 112, 0]
def k0_off124 (i : grid0.Coords) (v814 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_757 : BitVec 32 := 0#32
  let c0_i32_758 : BitVec 32 := 0#32
  ![v18.toNat, v814.toNat, 0, 0]

def k0_off125 (i : grid0.Coords) (v776 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_761 : BitVec 32 := 0#32
  let c0_i32_762 : BitVec 32 := 0#32
  ![v18.toNat, v776.toNat, 0, 0]

def k0_chk41 (i : grid0.Coords) (v776 : BitVec 32) : Prop :=
  (∀ a, (k0_off118 i v776) a + S1x1x112x224.size a ≤ S8x192x224x224.size a) ∧
  (∀ a, (k0_off125 i v776) a + S1x1x112x224.size a ≤ S8x192x224x224.size a)
instance k0_chk41.dec : ∀ (i : grid0.Coords) (v776 : BitVec 32), Decidable (k0_chk41 i v776) := fun i v776 => decidable_of_iff' _ (Iff.of_eq (k0_chk41.eq_1 i v776))
theorem k0_off118_inb : ∀ (i : grid0.Coords) (v776 : BitVec 32) (k0_hw41 : k0_chk41 i v776), ∀ a, (k0_off118 i v776) a + S1x1x112x224.size a ≤ S8x192x224x224.size a := fun i v776 k0_hw41 => k0_hw41.1
theorem k0_off125_inb : ∀ (i : grid0.Coords) (v776 : BitVec 32) (k0_hw41 : k0_chk41 i v776), ∀ a, (k0_off125 i v776) a + S1x1x112x224.size a ≤ S8x192x224x224.size a := fun i v776 k0_hw41 => k0_hw41.2

def k0_off126 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c20_i32 : BitVec 32 := 20#32
  let v823 : BitVec 32 := Scalar.addi v29 c20_i32
  let c0_i32_765 : BitVec 32 := 0#32
  let c0_i32_766 : BitVec 32 := 0#32
  ![v18.toNat, v823.toNat, 0, 0]
def k0_off127 (i : grid0.Coords) (v833 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_775 : BitVec 32 := 112#32
  let c0_i32_776 : BitVec 32 := 0#32
  ![v18.toNat, v833.toNat, 112, 0]

def k0_off128 (i : grid0.Coords) (v795 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_779 : BitVec 32 := 112#32
  let c0_i32_780 : BitVec 32 := 0#32
  ![v18.toNat, v795.toNat, 112, 0]

def k0_chk42 (i : grid0.Coords) (v795 : BitVec 32) : Prop :=
  (∀ a, (k0_off121 i v795) a + S1x1x112x224.size a ≤ S8x192x224x224.size a) ∧
  (∀ a, (k0_off128 i v795) a + S1x1x112x224.size a ≤ S8x192x224x224.size a)
instance k0_chk42.dec : ∀ (i : grid0.Coords) (v795 : BitVec 32), Decidable (k0_chk42 i v795) := fun i v795 => decidable_of_iff' _ (Iff.of_eq (k0_chk42.eq_1 i v795))
theorem k0_off121_inb : ∀ (i : grid0.Coords) (v795 : BitVec 32) (k0_hw42 : k0_chk42 i v795), ∀ a, (k0_off121 i v795) a + S1x1x112x224.size a ≤ S8x192x224x224.size a := fun i v795 k0_hw42 => k0_hw42.1
theorem k0_off128_inb : ∀ (i : grid0.Coords) (v795 : BitVec 32) (k0_hw42 : k0_chk42 i v795), ∀ a, (k0_off128 i v795) a + S1x1x112x224.size a ≤ S8x192x224x224.size a := fun i v795 k0_hw42 => k0_hw42.2

def k0_off129 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c20_i32_783 : BitVec 32 := 20#32
  let v842 : BitVec 32 := Scalar.addi v29 c20_i32_783
  let c112_i32_784 : BitVec 32 := 112#32
  let c0_i32_785 : BitVec 32 := 0#32
  ![v18.toNat, v842.toNat, 112, 0]
def k0_off130 (i : grid0.Coords) (v852 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_794 : BitVec 32 := 0#32
  let c0_i32_795 : BitVec 32 := 0#32
  ![v18.toNat, v852.toNat, 0, 0]

def k0_off131 (i : grid0.Coords) (v814 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_798 : BitVec 32 := 0#32
  let c0_i32_799 : BitVec 32 := 0#32
  ![v18.toNat, v814.toNat, 0, 0]

def k0_chk43 (i : grid0.Coords) (v814 : BitVec 32) : Prop :=
  (∀ a, (k0_off124 i v814) a + S1x1x112x224.size a ≤ S8x192x224x224.size a) ∧
  (∀ a, (k0_off131 i v814) a + S1x1x112x224.size a ≤ S8x192x224x224.size a)
instance k0_chk43.dec : ∀ (i : grid0.Coords) (v814 : BitVec 32), Decidable (k0_chk43 i v814) := fun i v814 => decidable_of_iff' _ (Iff.of_eq (k0_chk43.eq_1 i v814))
theorem k0_off124_inb : ∀ (i : grid0.Coords) (v814 : BitVec 32) (k0_hw43 : k0_chk43 i v814), ∀ a, (k0_off124 i v814) a + S1x1x112x224.size a ≤ S8x192x224x224.size a := fun i v814 k0_hw43 => k0_hw43.1
theorem k0_off131_inb : ∀ (i : grid0.Coords) (v814 : BitVec 32) (k0_hw43 : k0_chk43 i v814), ∀ a, (k0_off131 i v814) a + S1x1x112x224.size a ≤ S8x192x224x224.size a := fun i v814 k0_hw43 => k0_hw43.2

def k0_off132 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c21_i32 : BitVec 32 := 21#32
  let v861 : BitVec 32 := Scalar.addi v29 c21_i32
  let c0_i32_802 : BitVec 32 := 0#32
  let c0_i32_803 : BitVec 32 := 0#32
  ![v18.toNat, v861.toNat, 0, 0]
def k0_off133 (i : grid0.Coords) (v871 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_812 : BitVec 32 := 112#32
  let c0_i32_813 : BitVec 32 := 0#32
  ![v18.toNat, v871.toNat, 112, 0]

def k0_off134 (i : grid0.Coords) (v833 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_816 : BitVec 32 := 112#32
  let c0_i32_817 : BitVec 32 := 0#32
  ![v18.toNat, v833.toNat, 112, 0]

def k0_chk44 (i : grid0.Coords) (v833 : BitVec 32) : Prop :=
  (∀ a, (k0_off127 i v833) a + S1x1x112x224.size a ≤ S8x192x224x224.size a) ∧
  (∀ a, (k0_off134 i v833) a + S1x1x112x224.size a ≤ S8x192x224x224.size a)
instance k0_chk44.dec : ∀ (i : grid0.Coords) (v833 : BitVec 32), Decidable (k0_chk44 i v833) := fun i v833 => decidable_of_iff' _ (Iff.of_eq (k0_chk44.eq_1 i v833))
theorem k0_off127_inb : ∀ (i : grid0.Coords) (v833 : BitVec 32) (k0_hw44 : k0_chk44 i v833), ∀ a, (k0_off127 i v833) a + S1x1x112x224.size a ≤ S8x192x224x224.size a := fun i v833 k0_hw44 => k0_hw44.1
theorem k0_off134_inb : ∀ (i : grid0.Coords) (v833 : BitVec 32) (k0_hw44 : k0_chk44 i v833), ∀ a, (k0_off134 i v833) a + S1x1x112x224.size a ≤ S8x192x224x224.size a := fun i v833 k0_hw44 => k0_hw44.2

def k0_off135 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c21_i32_820 : BitVec 32 := 21#32
  let v880 : BitVec 32 := Scalar.addi v29 c21_i32_820
  let c112_i32_821 : BitVec 32 := 112#32
  let c0_i32_822 : BitVec 32 := 0#32
  ![v18.toNat, v880.toNat, 112, 0]
def k0_off136 (i : grid0.Coords) (v890 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_831 : BitVec 32 := 0#32
  let c0_i32_832 : BitVec 32 := 0#32
  ![v18.toNat, v890.toNat, 0, 0]

def k0_off137 (i : grid0.Coords) (v852 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_835 : BitVec 32 := 0#32
  let c0_i32_836 : BitVec 32 := 0#32
  ![v18.toNat, v852.toNat, 0, 0]

def k0_chk45 (i : grid0.Coords) (v852 : BitVec 32) : Prop :=
  (∀ a, (k0_off130 i v852) a + S1x1x112x224.size a ≤ S8x192x224x224.size a) ∧
  (∀ a, (k0_off137 i v852) a + S1x1x112x224.size a ≤ S8x192x224x224.size a)
instance k0_chk45.dec : ∀ (i : grid0.Coords) (v852 : BitVec 32), Decidable (k0_chk45 i v852) := fun i v852 => decidable_of_iff' _ (Iff.of_eq (k0_chk45.eq_1 i v852))
theorem k0_off130_inb : ∀ (i : grid0.Coords) (v852 : BitVec 32) (k0_hw45 : k0_chk45 i v852), ∀ a, (k0_off130 i v852) a + S1x1x112x224.size a ≤ S8x192x224x224.size a := fun i v852 k0_hw45 => k0_hw45.1
theorem k0_off137_inb : ∀ (i : grid0.Coords) (v852 : BitVec 32) (k0_hw45 : k0_chk45 i v852), ∀ a, (k0_off137 i v852) a + S1x1x112x224.size a ≤ S8x192x224x224.size a := fun i v852 k0_hw45 => k0_hw45.2

def k0_off138 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c22_i32 : BitVec 32 := 22#32
  let v899 : BitVec 32 := Scalar.addi v29 c22_i32
  let c0_i32_839 : BitVec 32 := 0#32
  let c0_i32_840 : BitVec 32 := 0#32
  ![v18.toNat, v899.toNat, 0, 0]
def k0_off139 (i : grid0.Coords) (v909 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_849 : BitVec 32 := 112#32
  let c0_i32_850 : BitVec 32 := 0#32
  ![v18.toNat, v909.toNat, 112, 0]

def k0_off140 (i : grid0.Coords) (v871 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_853 : BitVec 32 := 112#32
  let c0_i32_854 : BitVec 32 := 0#32
  ![v18.toNat, v871.toNat, 112, 0]

def k0_chk46 (i : grid0.Coords) (v871 : BitVec 32) : Prop :=
  (∀ a, (k0_off133 i v871) a + S1x1x112x224.size a ≤ S8x192x224x224.size a) ∧
  (∀ a, (k0_off140 i v871) a + S1x1x112x224.size a ≤ S8x192x224x224.size a)
instance k0_chk46.dec : ∀ (i : grid0.Coords) (v871 : BitVec 32), Decidable (k0_chk46 i v871) := fun i v871 => decidable_of_iff' _ (Iff.of_eq (k0_chk46.eq_1 i v871))
theorem k0_off133_inb : ∀ (i : grid0.Coords) (v871 : BitVec 32) (k0_hw46 : k0_chk46 i v871), ∀ a, (k0_off133 i v871) a + S1x1x112x224.size a ≤ S8x192x224x224.size a := fun i v871 k0_hw46 => k0_hw46.1
theorem k0_off140_inb : ∀ (i : grid0.Coords) (v871 : BitVec 32) (k0_hw46 : k0_chk46 i v871), ∀ a, (k0_off140 i v871) a + S1x1x112x224.size a ≤ S8x192x224x224.size a := fun i v871 k0_hw46 => k0_hw46.2

def k0_off141 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c22_i32_857 : BitVec 32 := 22#32
  let v918 : BitVec 32 := Scalar.addi v29 c22_i32_857
  let c112_i32_858 : BitVec 32 := 112#32
  let c0_i32_859 : BitVec 32 := 0#32
  ![v18.toNat, v918.toNat, 112, 0]
def k0_off142 (i : grid0.Coords) (v928 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_868 : BitVec 32 := 0#32
  let c0_i32_869 : BitVec 32 := 0#32
  ![v18.toNat, v928.toNat, 0, 0]

def k0_off143 (i : grid0.Coords) (v890 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_872 : BitVec 32 := 0#32
  let c0_i32_873 : BitVec 32 := 0#32
  ![v18.toNat, v890.toNat, 0, 0]

def k0_chk47 (i : grid0.Coords) (v890 : BitVec 32) : Prop :=
  (∀ a, (k0_off136 i v890) a + S1x1x112x224.size a ≤ S8x192x224x224.size a) ∧
  (∀ a, (k0_off143 i v890) a + S1x1x112x224.size a ≤ S8x192x224x224.size a)
instance k0_chk47.dec : ∀ (i : grid0.Coords) (v890 : BitVec 32), Decidable (k0_chk47 i v890) := fun i v890 => decidable_of_iff' _ (Iff.of_eq (k0_chk47.eq_1 i v890))
theorem k0_off136_inb : ∀ (i : grid0.Coords) (v890 : BitVec 32) (k0_hw47 : k0_chk47 i v890), ∀ a, (k0_off136 i v890) a + S1x1x112x224.size a ≤ S8x192x224x224.size a := fun i v890 k0_hw47 => k0_hw47.1
theorem k0_off143_inb : ∀ (i : grid0.Coords) (v890 : BitVec 32) (k0_hw47 : k0_chk47 i v890), ∀ a, (k0_off143 i v890) a + S1x1x112x224.size a ≤ S8x192x224x224.size a := fun i v890 k0_hw47 => k0_hw47.2

def k0_off144 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c23_i32 : BitVec 32 := 23#32
  let v937 : BitVec 32 := Scalar.addi v29 c23_i32
  let c0_i32_876 : BitVec 32 := 0#32
  let c0_i32_877 : BitVec 32 := 0#32
  ![v18.toNat, v937.toNat, 0, 0]
def k0_off145 (i : grid0.Coords) (v947 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_886 : BitVec 32 := 112#32
  let c0_i32_887 : BitVec 32 := 0#32
  ![v18.toNat, v947.toNat, 112, 0]

def k0_off146 (i : grid0.Coords) (v909 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_890 : BitVec 32 := 112#32
  let c0_i32_891 : BitVec 32 := 0#32
  ![v18.toNat, v909.toNat, 112, 0]

def k0_chk48 (i : grid0.Coords) (v909 : BitVec 32) : Prop :=
  (∀ a, (k0_off139 i v909) a + S1x1x112x224.size a ≤ S8x192x224x224.size a) ∧
  (∀ a, (k0_off146 i v909) a + S1x1x112x224.size a ≤ S8x192x224x224.size a)
instance k0_chk48.dec : ∀ (i : grid0.Coords) (v909 : BitVec 32), Decidable (k0_chk48 i v909) := fun i v909 => decidable_of_iff' _ (Iff.of_eq (k0_chk48.eq_1 i v909))
theorem k0_off139_inb : ∀ (i : grid0.Coords) (v909 : BitVec 32) (k0_hw48 : k0_chk48 i v909), ∀ a, (k0_off139 i v909) a + S1x1x112x224.size a ≤ S8x192x224x224.size a := fun i v909 k0_hw48 => k0_hw48.1
theorem k0_off146_inb : ∀ (i : grid0.Coords) (v909 : BitVec 32) (k0_hw48 : k0_chk48 i v909), ∀ a, (k0_off146 i v909) a + S1x1x112x224.size a ≤ S8x192x224x224.size a := fun i v909 k0_hw48 => k0_hw48.2

def k0_off147 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c23_i32_894 : BitVec 32 := 23#32
  let v956 : BitVec 32 := Scalar.addi v29 c23_i32_894
  let c112_i32_895 : BitVec 32 := 112#32
  let c0_i32_896 : BitVec 32 := 0#32
  ![v18.toNat, v956.toNat, 112, 0]
def k0_off148 (i : grid0.Coords) (v966 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_905 : BitVec 32 := 0#32
  let c0_i32_906 : BitVec 32 := 0#32
  ![v18.toNat, v966.toNat, 0, 0]

def k0_off149 (i : grid0.Coords) (v928 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_909 : BitVec 32 := 0#32
  let c0_i32_910 : BitVec 32 := 0#32
  ![v18.toNat, v928.toNat, 0, 0]

def k0_chk49 (i : grid0.Coords) (v928 : BitVec 32) : Prop :=
  (∀ a, (k0_off142 i v928) a + S1x1x112x224.size a ≤ S8x192x224x224.size a) ∧
  (∀ a, (k0_off149 i v928) a + S1x1x112x224.size a ≤ S8x192x224x224.size a)
instance k0_chk49.dec : ∀ (i : grid0.Coords) (v928 : BitVec 32), Decidable (k0_chk49 i v928) := fun i v928 => decidable_of_iff' _ (Iff.of_eq (k0_chk49.eq_1 i v928))
theorem k0_off142_inb : ∀ (i : grid0.Coords) (v928 : BitVec 32) (k0_hw49 : k0_chk49 i v928), ∀ a, (k0_off142 i v928) a + S1x1x112x224.size a ≤ S8x192x224x224.size a := fun i v928 k0_hw49 => k0_hw49.1
theorem k0_off149_inb : ∀ (i : grid0.Coords) (v928 : BitVec 32) (k0_hw49 : k0_chk49 i v928), ∀ a, (k0_off149 i v928) a + S1x1x112x224.size a ≤ S8x192x224x224.size a := fun i v928 k0_hw49 => k0_hw49.2

def k0_off150 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c24_i32 : BitVec 32 := 24#32
  let v975 : BitVec 32 := Scalar.addi v29 c24_i32
  let c0_i32_913 : BitVec 32 := 0#32
  let c0_i32_914 : BitVec 32 := 0#32
  ![v18.toNat, v975.toNat, 0, 0]
def k0_off151 (i : grid0.Coords) (v985 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_923 : BitVec 32 := 112#32
  let c0_i32_924 : BitVec 32 := 0#32
  ![v18.toNat, v985.toNat, 112, 0]

def k0_off152 (i : grid0.Coords) (v947 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_927 : BitVec 32 := 112#32
  let c0_i32_928 : BitVec 32 := 0#32
  ![v18.toNat, v947.toNat, 112, 0]

def k0_chk50 (i : grid0.Coords) (v947 : BitVec 32) : Prop :=
  (∀ a, (k0_off145 i v947) a + S1x1x112x224.size a ≤ S8x192x224x224.size a) ∧
  (∀ a, (k0_off152 i v947) a + S1x1x112x224.size a ≤ S8x192x224x224.size a)
instance k0_chk50.dec : ∀ (i : grid0.Coords) (v947 : BitVec 32), Decidable (k0_chk50 i v947) := fun i v947 => decidable_of_iff' _ (Iff.of_eq (k0_chk50.eq_1 i v947))
theorem k0_off145_inb : ∀ (i : grid0.Coords) (v947 : BitVec 32) (k0_hw50 : k0_chk50 i v947), ∀ a, (k0_off145 i v947) a + S1x1x112x224.size a ≤ S8x192x224x224.size a := fun i v947 k0_hw50 => k0_hw50.1
theorem k0_off152_inb : ∀ (i : grid0.Coords) (v947 : BitVec 32) (k0_hw50 : k0_chk50 i v947), ∀ a, (k0_off152 i v947) a + S1x1x112x224.size a ≤ S8x192x224x224.size a := fun i v947 k0_hw50 => k0_hw50.2

def k0_off153 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c24_i32_931 : BitVec 32 := 24#32
  let v994 : BitVec 32 := Scalar.addi v29 c24_i32_931
  let c112_i32_932 : BitVec 32 := 112#32
  let c0_i32_933 : BitVec 32 := 0#32
  ![v18.toNat, v994.toNat, 112, 0]
def k0_off154 (i : grid0.Coords) (v1004 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_942 : BitVec 32 := 0#32
  let c0_i32_943 : BitVec 32 := 0#32
  ![v18.toNat, v1004.toNat, 0, 0]

def k0_off155 (i : grid0.Coords) (v966 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_946 : BitVec 32 := 0#32
  let c0_i32_947 : BitVec 32 := 0#32
  ![v18.toNat, v966.toNat, 0, 0]

def k0_chk51 (i : grid0.Coords) (v966 : BitVec 32) : Prop :=
  (∀ a, (k0_off148 i v966) a + S1x1x112x224.size a ≤ S8x192x224x224.size a) ∧
  (∀ a, (k0_off155 i v966) a + S1x1x112x224.size a ≤ S8x192x224x224.size a)
instance k0_chk51.dec : ∀ (i : grid0.Coords) (v966 : BitVec 32), Decidable (k0_chk51 i v966) := fun i v966 => decidable_of_iff' _ (Iff.of_eq (k0_chk51.eq_1 i v966))
theorem k0_off148_inb : ∀ (i : grid0.Coords) (v966 : BitVec 32) (k0_hw51 : k0_chk51 i v966), ∀ a, (k0_off148 i v966) a + S1x1x112x224.size a ≤ S8x192x224x224.size a := fun i v966 k0_hw51 => k0_hw51.1
theorem k0_off155_inb : ∀ (i : grid0.Coords) (v966 : BitVec 32) (k0_hw51 : k0_chk51 i v966), ∀ a, (k0_off155 i v966) a + S1x1x112x224.size a ≤ S8x192x224x224.size a := fun i v966 k0_hw51 => k0_hw51.2

def k0_off156 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c25_i32 : BitVec 32 := 25#32
  let v1013 : BitVec 32 := Scalar.addi v29 c25_i32
  let c0_i32_950 : BitVec 32 := 0#32
  let c0_i32_951 : BitVec 32 := 0#32
  ![v18.toNat, v1013.toNat, 0, 0]
def k0_off157 (i : grid0.Coords) (v1023 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_960 : BitVec 32 := 112#32
  let c0_i32_961 : BitVec 32 := 0#32
  ![v18.toNat, v1023.toNat, 112, 0]

def k0_off158 (i : grid0.Coords) (v985 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_964 : BitVec 32 := 112#32
  let c0_i32_965 : BitVec 32 := 0#32
  ![v18.toNat, v985.toNat, 112, 0]

def k0_chk52 (i : grid0.Coords) (v985 : BitVec 32) : Prop :=
  (∀ a, (k0_off151 i v985) a + S1x1x112x224.size a ≤ S8x192x224x224.size a) ∧
  (∀ a, (k0_off158 i v985) a + S1x1x112x224.size a ≤ S8x192x224x224.size a)
instance k0_chk52.dec : ∀ (i : grid0.Coords) (v985 : BitVec 32), Decidable (k0_chk52 i v985) := fun i v985 => decidable_of_iff' _ (Iff.of_eq (k0_chk52.eq_1 i v985))
theorem k0_off151_inb : ∀ (i : grid0.Coords) (v985 : BitVec 32) (k0_hw52 : k0_chk52 i v985), ∀ a, (k0_off151 i v985) a + S1x1x112x224.size a ≤ S8x192x224x224.size a := fun i v985 k0_hw52 => k0_hw52.1
theorem k0_off158_inb : ∀ (i : grid0.Coords) (v985 : BitVec 32) (k0_hw52 : k0_chk52 i v985), ∀ a, (k0_off158 i v985) a + S1x1x112x224.size a ≤ S8x192x224x224.size a := fun i v985 k0_hw52 => k0_hw52.2

def k0_off159 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c25_i32_968 : BitVec 32 := 25#32
  let v1032 : BitVec 32 := Scalar.addi v29 c25_i32_968
  let c112_i32_969 : BitVec 32 := 112#32
  let c0_i32_970 : BitVec 32 := 0#32
  ![v18.toNat, v1032.toNat, 112, 0]
def k0_off160 (i : grid0.Coords) (v1042 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_979 : BitVec 32 := 0#32
  let c0_i32_980 : BitVec 32 := 0#32
  ![v18.toNat, v1042.toNat, 0, 0]

def k0_off161 (i : grid0.Coords) (v1004 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_983 : BitVec 32 := 0#32
  let c0_i32_984 : BitVec 32 := 0#32
  ![v18.toNat, v1004.toNat, 0, 0]

def k0_chk53 (i : grid0.Coords) (v1004 : BitVec 32) : Prop :=
  (∀ a, (k0_off154 i v1004) a + S1x1x112x224.size a ≤ S8x192x224x224.size a) ∧
  (∀ a, (k0_off161 i v1004) a + S1x1x112x224.size a ≤ S8x192x224x224.size a)
instance k0_chk53.dec : ∀ (i : grid0.Coords) (v1004 : BitVec 32), Decidable (k0_chk53 i v1004) := fun i v1004 => decidable_of_iff' _ (Iff.of_eq (k0_chk53.eq_1 i v1004))
theorem k0_off154_inb : ∀ (i : grid0.Coords) (v1004 : BitVec 32) (k0_hw53 : k0_chk53 i v1004), ∀ a, (k0_off154 i v1004) a + S1x1x112x224.size a ≤ S8x192x224x224.size a := fun i v1004 k0_hw53 => k0_hw53.1
theorem k0_off161_inb : ∀ (i : grid0.Coords) (v1004 : BitVec 32) (k0_hw53 : k0_chk53 i v1004), ∀ a, (k0_off161 i v1004) a + S1x1x112x224.size a ≤ S8x192x224x224.size a := fun i v1004 k0_hw53 => k0_hw53.2

def k0_off162 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c26_i32 : BitVec 32 := 26#32
  let v1051 : BitVec 32 := Scalar.addi v29 c26_i32
  let c0_i32_987 : BitVec 32 := 0#32
  let c0_i32_988 : BitVec 32 := 0#32
  ![v18.toNat, v1051.toNat, 0, 0]
def k0_off163 (i : grid0.Coords) (v1061 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_997 : BitVec 32 := 112#32
  let c0_i32_998 : BitVec 32 := 0#32
  ![v18.toNat, v1061.toNat, 112, 0]

def k0_off164 (i : grid0.Coords) (v1023 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1001 : BitVec 32 := 112#32
  let c0_i32_1002 : BitVec 32 := 0#32
  ![v18.toNat, v1023.toNat, 112, 0]

def k0_chk54 (i : grid0.Coords) (v1023 : BitVec 32) : Prop :=
  (∀ a, (k0_off157 i v1023) a + S1x1x112x224.size a ≤ S8x192x224x224.size a) ∧
  (∀ a, (k0_off164 i v1023) a + S1x1x112x224.size a ≤ S8x192x224x224.size a)
instance k0_chk54.dec : ∀ (i : grid0.Coords) (v1023 : BitVec 32), Decidable (k0_chk54 i v1023) := fun i v1023 => decidable_of_iff' _ (Iff.of_eq (k0_chk54.eq_1 i v1023))
theorem k0_off157_inb : ∀ (i : grid0.Coords) (v1023 : BitVec 32) (k0_hw54 : k0_chk54 i v1023), ∀ a, (k0_off157 i v1023) a + S1x1x112x224.size a ≤ S8x192x224x224.size a := fun i v1023 k0_hw54 => k0_hw54.1
theorem k0_off164_inb : ∀ (i : grid0.Coords) (v1023 : BitVec 32) (k0_hw54 : k0_chk54 i v1023), ∀ a, (k0_off164 i v1023) a + S1x1x112x224.size a ≤ S8x192x224x224.size a := fun i v1023 k0_hw54 => k0_hw54.2

def k0_off165 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c26_i32_1005 : BitVec 32 := 26#32
  let v1070 : BitVec 32 := Scalar.addi v29 c26_i32_1005
  let c112_i32_1006 : BitVec 32 := 112#32
  let c0_i32_1007 : BitVec 32 := 0#32
  ![v18.toNat, v1070.toNat, 112, 0]
def k0_off166 (i : grid0.Coords) (v1080 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1016 : BitVec 32 := 0#32
  let c0_i32_1017 : BitVec 32 := 0#32
  ![v18.toNat, v1080.toNat, 0, 0]

def k0_off167 (i : grid0.Coords) (v1042 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1020 : BitVec 32 := 0#32
  let c0_i32_1021 : BitVec 32 := 0#32
  ![v18.toNat, v1042.toNat, 0, 0]

def k0_chk55 (i : grid0.Coords) (v1042 : BitVec 32) : Prop :=
  (∀ a, (k0_off160 i v1042) a + S1x1x112x224.size a ≤ S8x192x224x224.size a) ∧
  (∀ a, (k0_off167 i v1042) a + S1x1x112x224.size a ≤ S8x192x224x224.size a)
instance k0_chk55.dec : ∀ (i : grid0.Coords) (v1042 : BitVec 32), Decidable (k0_chk55 i v1042) := fun i v1042 => decidable_of_iff' _ (Iff.of_eq (k0_chk55.eq_1 i v1042))
theorem k0_off160_inb : ∀ (i : grid0.Coords) (v1042 : BitVec 32) (k0_hw55 : k0_chk55 i v1042), ∀ a, (k0_off160 i v1042) a + S1x1x112x224.size a ≤ S8x192x224x224.size a := fun i v1042 k0_hw55 => k0_hw55.1
theorem k0_off167_inb : ∀ (i : grid0.Coords) (v1042 : BitVec 32) (k0_hw55 : k0_chk55 i v1042), ∀ a, (k0_off167 i v1042) a + S1x1x112x224.size a ≤ S8x192x224x224.size a := fun i v1042 k0_hw55 => k0_hw55.2

def k0_off168 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c27_i32 : BitVec 32 := 27#32
  let v1089 : BitVec 32 := Scalar.addi v29 c27_i32
  let c0_i32_1024 : BitVec 32 := 0#32
  let c0_i32_1025 : BitVec 32 := 0#32
  ![v18.toNat, v1089.toNat, 0, 0]
def k0_off169 (i : grid0.Coords) (v1099 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1034 : BitVec 32 := 112#32
  let c0_i32_1035 : BitVec 32 := 0#32
  ![v18.toNat, v1099.toNat, 112, 0]

def k0_off170 (i : grid0.Coords) (v1061 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1038 : BitVec 32 := 112#32
  let c0_i32_1039 : BitVec 32 := 0#32
  ![v18.toNat, v1061.toNat, 112, 0]

def k0_chk56 (i : grid0.Coords) (v1061 : BitVec 32) : Prop :=
  (∀ a, (k0_off163 i v1061) a + S1x1x112x224.size a ≤ S8x192x224x224.size a) ∧
  (∀ a, (k0_off170 i v1061) a + S1x1x112x224.size a ≤ S8x192x224x224.size a)
instance k0_chk56.dec : ∀ (i : grid0.Coords) (v1061 : BitVec 32), Decidable (k0_chk56 i v1061) := fun i v1061 => decidable_of_iff' _ (Iff.of_eq (k0_chk56.eq_1 i v1061))
theorem k0_off163_inb : ∀ (i : grid0.Coords) (v1061 : BitVec 32) (k0_hw56 : k0_chk56 i v1061), ∀ a, (k0_off163 i v1061) a + S1x1x112x224.size a ≤ S8x192x224x224.size a := fun i v1061 k0_hw56 => k0_hw56.1
theorem k0_off170_inb : ∀ (i : grid0.Coords) (v1061 : BitVec 32) (k0_hw56 : k0_chk56 i v1061), ∀ a, (k0_off170 i v1061) a + S1x1x112x224.size a ≤ S8x192x224x224.size a := fun i v1061 k0_hw56 => k0_hw56.2

def k0_off171 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c27_i32_1042 : BitVec 32 := 27#32
  let v1108 : BitVec 32 := Scalar.addi v29 c27_i32_1042
  let c112_i32_1043 : BitVec 32 := 112#32
  let c0_i32_1044 : BitVec 32 := 0#32
  ![v18.toNat, v1108.toNat, 112, 0]
def k0_off172 (i : grid0.Coords) (v1118 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1053 : BitVec 32 := 0#32
  let c0_i32_1054 : BitVec 32 := 0#32
  ![v18.toNat, v1118.toNat, 0, 0]

def k0_off173 (i : grid0.Coords) (v1080 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1057 : BitVec 32 := 0#32
  let c0_i32_1058 : BitVec 32 := 0#32
  ![v18.toNat, v1080.toNat, 0, 0]

def k0_chk57 (i : grid0.Coords) (v1080 : BitVec 32) : Prop :=
  (∀ a, (k0_off166 i v1080) a + S1x1x112x224.size a ≤ S8x192x224x224.size a) ∧
  (∀ a, (k0_off173 i v1080) a + S1x1x112x224.size a ≤ S8x192x224x224.size a)
instance k0_chk57.dec : ∀ (i : grid0.Coords) (v1080 : BitVec 32), Decidable (k0_chk57 i v1080) := fun i v1080 => decidable_of_iff' _ (Iff.of_eq (k0_chk57.eq_1 i v1080))
theorem k0_off166_inb : ∀ (i : grid0.Coords) (v1080 : BitVec 32) (k0_hw57 : k0_chk57 i v1080), ∀ a, (k0_off166 i v1080) a + S1x1x112x224.size a ≤ S8x192x224x224.size a := fun i v1080 k0_hw57 => k0_hw57.1
theorem k0_off173_inb : ∀ (i : grid0.Coords) (v1080 : BitVec 32) (k0_hw57 : k0_chk57 i v1080), ∀ a, (k0_off173 i v1080) a + S1x1x112x224.size a ≤ S8x192x224x224.size a := fun i v1080 k0_hw57 => k0_hw57.2

def k0_off174 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c28_i32 : BitVec 32 := 28#32
  let v1127 : BitVec 32 := Scalar.addi v29 c28_i32
  let c0_i32_1061 : BitVec 32 := 0#32
  let c0_i32_1062 : BitVec 32 := 0#32
  ![v18.toNat, v1127.toNat, 0, 0]
def k0_off175 (i : grid0.Coords) (v1137 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1071 : BitVec 32 := 112#32
  let c0_i32_1072 : BitVec 32 := 0#32
  ![v18.toNat, v1137.toNat, 112, 0]

def k0_off176 (i : grid0.Coords) (v1099 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1075 : BitVec 32 := 112#32
  let c0_i32_1076 : BitVec 32 := 0#32
  ![v18.toNat, v1099.toNat, 112, 0]

def k0_chk58 (i : grid0.Coords) (v1099 : BitVec 32) : Prop :=
  (∀ a, (k0_off169 i v1099) a + S1x1x112x224.size a ≤ S8x192x224x224.size a) ∧
  (∀ a, (k0_off176 i v1099) a + S1x1x112x224.size a ≤ S8x192x224x224.size a)
instance k0_chk58.dec : ∀ (i : grid0.Coords) (v1099 : BitVec 32), Decidable (k0_chk58 i v1099) := fun i v1099 => decidable_of_iff' _ (Iff.of_eq (k0_chk58.eq_1 i v1099))
theorem k0_off169_inb : ∀ (i : grid0.Coords) (v1099 : BitVec 32) (k0_hw58 : k0_chk58 i v1099), ∀ a, (k0_off169 i v1099) a + S1x1x112x224.size a ≤ S8x192x224x224.size a := fun i v1099 k0_hw58 => k0_hw58.1
theorem k0_off176_inb : ∀ (i : grid0.Coords) (v1099 : BitVec 32) (k0_hw58 : k0_chk58 i v1099), ∀ a, (k0_off176 i v1099) a + S1x1x112x224.size a ≤ S8x192x224x224.size a := fun i v1099 k0_hw58 => k0_hw58.2

def k0_off177 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c28_i32_1079 : BitVec 32 := 28#32
  let v1146 : BitVec 32 := Scalar.addi v29 c28_i32_1079
  let c112_i32_1080 : BitVec 32 := 112#32
  let c0_i32_1081 : BitVec 32 := 0#32
  ![v18.toNat, v1146.toNat, 112, 0]
def k0_off178 (i : grid0.Coords) (v1156 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1090 : BitVec 32 := 0#32
  let c0_i32_1091 : BitVec 32 := 0#32
  ![v18.toNat, v1156.toNat, 0, 0]

def k0_off179 (i : grid0.Coords) (v1118 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1094 : BitVec 32 := 0#32
  let c0_i32_1095 : BitVec 32 := 0#32
  ![v18.toNat, v1118.toNat, 0, 0]

def k0_chk59 (i : grid0.Coords) (v1118 : BitVec 32) : Prop :=
  (∀ a, (k0_off172 i v1118) a + S1x1x112x224.size a ≤ S8x192x224x224.size a) ∧
  (∀ a, (k0_off179 i v1118) a + S1x1x112x224.size a ≤ S8x192x224x224.size a)
instance k0_chk59.dec : ∀ (i : grid0.Coords) (v1118 : BitVec 32), Decidable (k0_chk59 i v1118) := fun i v1118 => decidable_of_iff' _ (Iff.of_eq (k0_chk59.eq_1 i v1118))
theorem k0_off172_inb : ∀ (i : grid0.Coords) (v1118 : BitVec 32) (k0_hw59 : k0_chk59 i v1118), ∀ a, (k0_off172 i v1118) a + S1x1x112x224.size a ≤ S8x192x224x224.size a := fun i v1118 k0_hw59 => k0_hw59.1
theorem k0_off179_inb : ∀ (i : grid0.Coords) (v1118 : BitVec 32) (k0_hw59 : k0_chk59 i v1118), ∀ a, (k0_off179 i v1118) a + S1x1x112x224.size a ≤ S8x192x224x224.size a := fun i v1118 k0_hw59 => k0_hw59.2

def k0_off180 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c29_i32 : BitVec 32 := 29#32
  let v1165 : BitVec 32 := Scalar.addi v29 c29_i32
  let c0_i32_1098 : BitVec 32 := 0#32
  let c0_i32_1099 : BitVec 32 := 0#32
  ![v18.toNat, v1165.toNat, 0, 0]
def k0_off181 (i : grid0.Coords) (v1175 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1108 : BitVec 32 := 112#32
  let c0_i32_1109 : BitVec 32 := 0#32
  ![v18.toNat, v1175.toNat, 112, 0]

def k0_off182 (i : grid0.Coords) (v1137 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1112 : BitVec 32 := 112#32
  let c0_i32_1113 : BitVec 32 := 0#32
  ![v18.toNat, v1137.toNat, 112, 0]

def k0_chk60 (i : grid0.Coords) (v1137 : BitVec 32) : Prop :=
  (∀ a, (k0_off175 i v1137) a + S1x1x112x224.size a ≤ S8x192x224x224.size a) ∧
  (∀ a, (k0_off182 i v1137) a + S1x1x112x224.size a ≤ S8x192x224x224.size a)
instance k0_chk60.dec : ∀ (i : grid0.Coords) (v1137 : BitVec 32), Decidable (k0_chk60 i v1137) := fun i v1137 => decidable_of_iff' _ (Iff.of_eq (k0_chk60.eq_1 i v1137))
theorem k0_off175_inb : ∀ (i : grid0.Coords) (v1137 : BitVec 32) (k0_hw60 : k0_chk60 i v1137), ∀ a, (k0_off175 i v1137) a + S1x1x112x224.size a ≤ S8x192x224x224.size a := fun i v1137 k0_hw60 => k0_hw60.1
theorem k0_off182_inb : ∀ (i : grid0.Coords) (v1137 : BitVec 32) (k0_hw60 : k0_chk60 i v1137), ∀ a, (k0_off182 i v1137) a + S1x1x112x224.size a ≤ S8x192x224x224.size a := fun i v1137 k0_hw60 => k0_hw60.2

def k0_off183 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c29_i32_1116 : BitVec 32 := 29#32
  let v1184 : BitVec 32 := Scalar.addi v29 c29_i32_1116
  let c112_i32_1117 : BitVec 32 := 112#32
  let c0_i32_1118 : BitVec 32 := 0#32
  ![v18.toNat, v1184.toNat, 112, 0]
def k0_off184 (i : grid0.Coords) (v1194 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1127 : BitVec 32 := 0#32
  let c0_i32_1128 : BitVec 32 := 0#32
  ![v18.toNat, v1194.toNat, 0, 0]

def k0_off185 (i : grid0.Coords) (v1156 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1131 : BitVec 32 := 0#32
  let c0_i32_1132 : BitVec 32 := 0#32
  ![v18.toNat, v1156.toNat, 0, 0]

def k0_chk61 (i : grid0.Coords) (v1156 : BitVec 32) : Prop :=
  (∀ a, (k0_off178 i v1156) a + S1x1x112x224.size a ≤ S8x192x224x224.size a) ∧
  (∀ a, (k0_off185 i v1156) a + S1x1x112x224.size a ≤ S8x192x224x224.size a)
instance k0_chk61.dec : ∀ (i : grid0.Coords) (v1156 : BitVec 32), Decidable (k0_chk61 i v1156) := fun i v1156 => decidable_of_iff' _ (Iff.of_eq (k0_chk61.eq_1 i v1156))
theorem k0_off178_inb : ∀ (i : grid0.Coords) (v1156 : BitVec 32) (k0_hw61 : k0_chk61 i v1156), ∀ a, (k0_off178 i v1156) a + S1x1x112x224.size a ≤ S8x192x224x224.size a := fun i v1156 k0_hw61 => k0_hw61.1
theorem k0_off185_inb : ∀ (i : grid0.Coords) (v1156 : BitVec 32) (k0_hw61 : k0_chk61 i v1156), ∀ a, (k0_off185 i v1156) a + S1x1x112x224.size a ≤ S8x192x224x224.size a := fun i v1156 k0_hw61 => k0_hw61.2

def k0_off186 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c30_i32 : BitVec 32 := 30#32
  let v1203 : BitVec 32 := Scalar.addi v29 c30_i32
  let c0_i32_1135 : BitVec 32 := 0#32
  let c0_i32_1136 : BitVec 32 := 0#32
  ![v18.toNat, v1203.toNat, 0, 0]
def k0_off187 (i : grid0.Coords) (v1213 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1145 : BitVec 32 := 112#32
  let c0_i32_1146 : BitVec 32 := 0#32
  ![v18.toNat, v1213.toNat, 112, 0]

def k0_off188 (i : grid0.Coords) (v1175 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1149 : BitVec 32 := 112#32
  let c0_i32_1150 : BitVec 32 := 0#32
  ![v18.toNat, v1175.toNat, 112, 0]

def k0_chk62 (i : grid0.Coords) (v1175 : BitVec 32) : Prop :=
  (∀ a, (k0_off181 i v1175) a + S1x1x112x224.size a ≤ S8x192x224x224.size a) ∧
  (∀ a, (k0_off188 i v1175) a + S1x1x112x224.size a ≤ S8x192x224x224.size a)
instance k0_chk62.dec : ∀ (i : grid0.Coords) (v1175 : BitVec 32), Decidable (k0_chk62 i v1175) := fun i v1175 => decidable_of_iff' _ (Iff.of_eq (k0_chk62.eq_1 i v1175))
theorem k0_off181_inb : ∀ (i : grid0.Coords) (v1175 : BitVec 32) (k0_hw62 : k0_chk62 i v1175), ∀ a, (k0_off181 i v1175) a + S1x1x112x224.size a ≤ S8x192x224x224.size a := fun i v1175 k0_hw62 => k0_hw62.1
theorem k0_off188_inb : ∀ (i : grid0.Coords) (v1175 : BitVec 32) (k0_hw62 : k0_chk62 i v1175), ∀ a, (k0_off188 i v1175) a + S1x1x112x224.size a ≤ S8x192x224x224.size a := fun i v1175 k0_hw62 => k0_hw62.2

def k0_off189 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c30_i32_1153 : BitVec 32 := 30#32
  let v1222 : BitVec 32 := Scalar.addi v29 c30_i32_1153
  let c112_i32_1154 : BitVec 32 := 112#32
  let c0_i32_1155 : BitVec 32 := 0#32
  ![v18.toNat, v1222.toNat, 112, 0]
def k0_off190 (i : grid0.Coords) (v1232 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1164 : BitVec 32 := 0#32
  let c0_i32_1165 : BitVec 32 := 0#32
  ![v18.toNat, v1232.toNat, 0, 0]

def k0_off191 (i : grid0.Coords) (v1194 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1168 : BitVec 32 := 0#32
  let c0_i32_1169 : BitVec 32 := 0#32
  ![v18.toNat, v1194.toNat, 0, 0]

def k0_chk63 (i : grid0.Coords) (v1194 : BitVec 32) : Prop :=
  (∀ a, (k0_off184 i v1194) a + S1x1x112x224.size a ≤ S8x192x224x224.size a) ∧
  (∀ a, (k0_off191 i v1194) a + S1x1x112x224.size a ≤ S8x192x224x224.size a)
instance k0_chk63.dec : ∀ (i : grid0.Coords) (v1194 : BitVec 32), Decidable (k0_chk63 i v1194) := fun i v1194 => decidable_of_iff' _ (Iff.of_eq (k0_chk63.eq_1 i v1194))
theorem k0_off184_inb : ∀ (i : grid0.Coords) (v1194 : BitVec 32) (k0_hw63 : k0_chk63 i v1194), ∀ a, (k0_off184 i v1194) a + S1x1x112x224.size a ≤ S8x192x224x224.size a := fun i v1194 k0_hw63 => k0_hw63.1
theorem k0_off191_inb : ∀ (i : grid0.Coords) (v1194 : BitVec 32) (k0_hw63 : k0_chk63 i v1194), ∀ a, (k0_off191 i v1194) a + S1x1x112x224.size a ≤ S8x192x224x224.size a := fun i v1194 k0_hw63 => k0_hw63.2

def k0_off192 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c31_i32 : BitVec 32 := 31#32
  let v1241 : BitVec 32 := Scalar.addi v29 c31_i32
  let c0_i32_1172 : BitVec 32 := 0#32
  let c0_i32_1173 : BitVec 32 := 0#32
  ![v18.toNat, v1241.toNat, 0, 0]
def k0_off193 (i : grid0.Coords) (v1251 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1182 : BitVec 32 := 112#32
  let c0_i32_1183 : BitVec 32 := 0#32
  ![v18.toNat, v1251.toNat, 112, 0]

def k0_off194 (i : grid0.Coords) (v1213 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1186 : BitVec 32 := 112#32
  let c0_i32_1187 : BitVec 32 := 0#32
  ![v18.toNat, v1213.toNat, 112, 0]

def k0_chk64 (i : grid0.Coords) (v1213 : BitVec 32) : Prop :=
  (∀ a, (k0_off187 i v1213) a + S1x1x112x224.size a ≤ S8x192x224x224.size a) ∧
  (∀ a, (k0_off194 i v1213) a + S1x1x112x224.size a ≤ S8x192x224x224.size a)
instance k0_chk64.dec : ∀ (i : grid0.Coords) (v1213 : BitVec 32), Decidable (k0_chk64 i v1213) := fun i v1213 => decidable_of_iff' _ (Iff.of_eq (k0_chk64.eq_1 i v1213))
theorem k0_off187_inb : ∀ (i : grid0.Coords) (v1213 : BitVec 32) (k0_hw64 : k0_chk64 i v1213), ∀ a, (k0_off187 i v1213) a + S1x1x112x224.size a ≤ S8x192x224x224.size a := fun i v1213 k0_hw64 => k0_hw64.1
theorem k0_off194_inb : ∀ (i : grid0.Coords) (v1213 : BitVec 32) (k0_hw64 : k0_chk64 i v1213), ∀ a, (k0_off194 i v1213) a + S1x1x112x224.size a ≤ S8x192x224x224.size a := fun i v1213 k0_hw64 => k0_hw64.2

def k0_off195 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c31_i32_1190 : BitVec 32 := 31#32
  let v1260 : BitVec 32 := Scalar.addi v29 c31_i32_1190
  let c112_i32_1191 : BitVec 32 := 112#32
  let c0_i32_1192 : BitVec 32 := 0#32
  ![v18.toNat, v1260.toNat, 112, 0]
def k0_off196 (i : grid0.Coords) (v1270 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1201 : BitVec 32 := 0#32
  let c0_i32_1202 : BitVec 32 := 0#32
  ![v18.toNat, v1270.toNat, 0, 0]

def k0_off197 (i : grid0.Coords) (v1232 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1205 : BitVec 32 := 0#32
  let c0_i32_1206 : BitVec 32 := 0#32
  ![v18.toNat, v1232.toNat, 0, 0]

def k0_chk65 (i : grid0.Coords) (v1232 : BitVec 32) : Prop :=
  (∀ a, (k0_off190 i v1232) a + S1x1x112x224.size a ≤ S8x192x224x224.size a) ∧
  (∀ a, (k0_off197 i v1232) a + S1x1x112x224.size a ≤ S8x192x224x224.size a)
instance k0_chk65.dec : ∀ (i : grid0.Coords) (v1232 : BitVec 32), Decidable (k0_chk65 i v1232) := fun i v1232 => decidable_of_iff' _ (Iff.of_eq (k0_chk65.eq_1 i v1232))
theorem k0_off190_inb : ∀ (i : grid0.Coords) (v1232 : BitVec 32) (k0_hw65 : k0_chk65 i v1232), ∀ a, (k0_off190 i v1232) a + S1x1x112x224.size a ≤ S8x192x224x224.size a := fun i v1232 k0_hw65 => k0_hw65.1
theorem k0_off197_inb : ∀ (i : grid0.Coords) (v1232 : BitVec 32) (k0_hw65 : k0_chk65 i v1232), ∀ a, (k0_off197 i v1232) a + S1x1x112x224.size a ≤ S8x192x224x224.size a := fun i v1232 k0_hw65 => k0_hw65.2

def k0_off198 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c32_i32_1209 : BitVec 32 := 32#32
  let v1279 : BitVec 32 := Scalar.addi v29 c32_i32_1209
  let c0_i32_1210 : BitVec 32 := 0#32
  let c0_i32_1211 : BitVec 32 := 0#32
  ![v18.toNat, v1279.toNat, 0, 0]
def k0_off199 (i : grid0.Coords) (v1289 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1220 : BitVec 32 := 112#32
  let c0_i32_1221 : BitVec 32 := 0#32
  ![v18.toNat, v1289.toNat, 112, 0]

def k0_off200 (i : grid0.Coords) (v1251 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1224 : BitVec 32 := 112#32
  let c0_i32_1225 : BitVec 32 := 0#32
  ![v18.toNat, v1251.toNat, 112, 0]

def k0_chk66 (i : grid0.Coords) (v1251 : BitVec 32) : Prop :=
  (∀ a, (k0_off193 i v1251) a + S1x1x112x224.size a ≤ S8x192x224x224.size a) ∧
  (∀ a, (k0_off200 i v1251) a + S1x1x112x224.size a ≤ S8x192x224x224.size a)
instance k0_chk66.dec : ∀ (i : grid0.Coords) (v1251 : BitVec 32), Decidable (k0_chk66 i v1251) := fun i v1251 => decidable_of_iff' _ (Iff.of_eq (k0_chk66.eq_1 i v1251))
theorem k0_off193_inb : ∀ (i : grid0.Coords) (v1251 : BitVec 32) (k0_hw66 : k0_chk66 i v1251), ∀ a, (k0_off193 i v1251) a + S1x1x112x224.size a ≤ S8x192x224x224.size a := fun i v1251 k0_hw66 => k0_hw66.1
theorem k0_off200_inb : ∀ (i : grid0.Coords) (v1251 : BitVec 32) (k0_hw66 : k0_chk66 i v1251), ∀ a, (k0_off200 i v1251) a + S1x1x112x224.size a ≤ S8x192x224x224.size a := fun i v1251 k0_hw66 => k0_hw66.2

def k0_off201 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c32_i32_1228 : BitVec 32 := 32#32
  let v1298 : BitVec 32 := Scalar.addi v29 c32_i32_1228
  let c112_i32_1229 : BitVec 32 := 112#32
  let c0_i32_1230 : BitVec 32 := 0#32
  ![v18.toNat, v1298.toNat, 112, 0]
def k0_off202 (i : grid0.Coords) (v1308 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1239 : BitVec 32 := 0#32
  let c0_i32_1240 : BitVec 32 := 0#32
  ![v18.toNat, v1308.toNat, 0, 0]

def k0_off203 (i : grid0.Coords) (v1270 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1243 : BitVec 32 := 0#32
  let c0_i32_1244 : BitVec 32 := 0#32
  ![v18.toNat, v1270.toNat, 0, 0]

def k0_chk67 (i : grid0.Coords) (v1270 : BitVec 32) : Prop :=
  (∀ a, (k0_off196 i v1270) a + S1x1x112x224.size a ≤ S8x192x224x224.size a) ∧
  (∀ a, (k0_off203 i v1270) a + S1x1x112x224.size a ≤ S8x192x224x224.size a)
instance k0_chk67.dec : ∀ (i : grid0.Coords) (v1270 : BitVec 32), Decidable (k0_chk67 i v1270) := fun i v1270 => decidable_of_iff' _ (Iff.of_eq (k0_chk67.eq_1 i v1270))
theorem k0_off196_inb : ∀ (i : grid0.Coords) (v1270 : BitVec 32) (k0_hw67 : k0_chk67 i v1270), ∀ a, (k0_off196 i v1270) a + S1x1x112x224.size a ≤ S8x192x224x224.size a := fun i v1270 k0_hw67 => k0_hw67.1
theorem k0_off203_inb : ∀ (i : grid0.Coords) (v1270 : BitVec 32) (k0_hw67 : k0_chk67 i v1270), ∀ a, (k0_off203 i v1270) a + S1x1x112x224.size a ≤ S8x192x224x224.size a := fun i v1270 k0_hw67 => k0_hw67.2

def k0_off204 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c33_i32 : BitVec 32 := 33#32
  let v1317 : BitVec 32 := Scalar.addi v29 c33_i32
  let c0_i32_1247 : BitVec 32 := 0#32
  let c0_i32_1248 : BitVec 32 := 0#32
  ![v18.toNat, v1317.toNat, 0, 0]
def k0_off205 (i : grid0.Coords) (v1327 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1257 : BitVec 32 := 112#32
  let c0_i32_1258 : BitVec 32 := 0#32
  ![v18.toNat, v1327.toNat, 112, 0]

def k0_off206 (i : grid0.Coords) (v1289 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1261 : BitVec 32 := 112#32
  let c0_i32_1262 : BitVec 32 := 0#32
  ![v18.toNat, v1289.toNat, 112, 0]

def k0_chk68 (i : grid0.Coords) (v1289 : BitVec 32) : Prop :=
  (∀ a, (k0_off199 i v1289) a + S1x1x112x224.size a ≤ S8x192x224x224.size a) ∧
  (∀ a, (k0_off206 i v1289) a + S1x1x112x224.size a ≤ S8x192x224x224.size a)
instance k0_chk68.dec : ∀ (i : grid0.Coords) (v1289 : BitVec 32), Decidable (k0_chk68 i v1289) := fun i v1289 => decidable_of_iff' _ (Iff.of_eq (k0_chk68.eq_1 i v1289))
theorem k0_off199_inb : ∀ (i : grid0.Coords) (v1289 : BitVec 32) (k0_hw68 : k0_chk68 i v1289), ∀ a, (k0_off199 i v1289) a + S1x1x112x224.size a ≤ S8x192x224x224.size a := fun i v1289 k0_hw68 => k0_hw68.1
theorem k0_off206_inb : ∀ (i : grid0.Coords) (v1289 : BitVec 32) (k0_hw68 : k0_chk68 i v1289), ∀ a, (k0_off206 i v1289) a + S1x1x112x224.size a ≤ S8x192x224x224.size a := fun i v1289 k0_hw68 => k0_hw68.2

def k0_off207 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c33_i32_1265 : BitVec 32 := 33#32
  let v1336 : BitVec 32 := Scalar.addi v29 c33_i32_1265
  let c112_i32_1266 : BitVec 32 := 112#32
  let c0_i32_1267 : BitVec 32 := 0#32
  ![v18.toNat, v1336.toNat, 112, 0]
def k0_off208 (i : grid0.Coords) (v1346 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1276 : BitVec 32 := 0#32
  let c0_i32_1277 : BitVec 32 := 0#32
  ![v18.toNat, v1346.toNat, 0, 0]

def k0_off209 (i : grid0.Coords) (v1308 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1280 : BitVec 32 := 0#32
  let c0_i32_1281 : BitVec 32 := 0#32
  ![v18.toNat, v1308.toNat, 0, 0]

def k0_chk69 (i : grid0.Coords) (v1308 : BitVec 32) : Prop :=
  (∀ a, (k0_off202 i v1308) a + S1x1x112x224.size a ≤ S8x192x224x224.size a) ∧
  (∀ a, (k0_off209 i v1308) a + S1x1x112x224.size a ≤ S8x192x224x224.size a)
instance k0_chk69.dec : ∀ (i : grid0.Coords) (v1308 : BitVec 32), Decidable (k0_chk69 i v1308) := fun i v1308 => decidable_of_iff' _ (Iff.of_eq (k0_chk69.eq_1 i v1308))
theorem k0_off202_inb : ∀ (i : grid0.Coords) (v1308 : BitVec 32) (k0_hw69 : k0_chk69 i v1308), ∀ a, (k0_off202 i v1308) a + S1x1x112x224.size a ≤ S8x192x224x224.size a := fun i v1308 k0_hw69 => k0_hw69.1
theorem k0_off209_inb : ∀ (i : grid0.Coords) (v1308 : BitVec 32) (k0_hw69 : k0_chk69 i v1308), ∀ a, (k0_off209 i v1308) a + S1x1x112x224.size a ≤ S8x192x224x224.size a := fun i v1308 k0_hw69 => k0_hw69.2

def k0_off210 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c34_i32 : BitVec 32 := 34#32
  let v1355 : BitVec 32 := Scalar.addi v29 c34_i32
  let c0_i32_1284 : BitVec 32 := 0#32
  let c0_i32_1285 : BitVec 32 := 0#32
  ![v18.toNat, v1355.toNat, 0, 0]
def k0_off211 (i : grid0.Coords) (v1365 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1294 : BitVec 32 := 112#32
  let c0_i32_1295 : BitVec 32 := 0#32
  ![v18.toNat, v1365.toNat, 112, 0]

def k0_off212 (i : grid0.Coords) (v1327 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1298 : BitVec 32 := 112#32
  let c0_i32_1299 : BitVec 32 := 0#32
  ![v18.toNat, v1327.toNat, 112, 0]

def k0_chk70 (i : grid0.Coords) (v1327 : BitVec 32) : Prop :=
  (∀ a, (k0_off205 i v1327) a + S1x1x112x224.size a ≤ S8x192x224x224.size a) ∧
  (∀ a, (k0_off212 i v1327) a + S1x1x112x224.size a ≤ S8x192x224x224.size a)
instance k0_chk70.dec : ∀ (i : grid0.Coords) (v1327 : BitVec 32), Decidable (k0_chk70 i v1327) := fun i v1327 => decidable_of_iff' _ (Iff.of_eq (k0_chk70.eq_1 i v1327))
theorem k0_off205_inb : ∀ (i : grid0.Coords) (v1327 : BitVec 32) (k0_hw70 : k0_chk70 i v1327), ∀ a, (k0_off205 i v1327) a + S1x1x112x224.size a ≤ S8x192x224x224.size a := fun i v1327 k0_hw70 => k0_hw70.1
theorem k0_off212_inb : ∀ (i : grid0.Coords) (v1327 : BitVec 32) (k0_hw70 : k0_chk70 i v1327), ∀ a, (k0_off212 i v1327) a + S1x1x112x224.size a ≤ S8x192x224x224.size a := fun i v1327 k0_hw70 => k0_hw70.2

def k0_off213 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c34_i32_1302 : BitVec 32 := 34#32
  let v1374 : BitVec 32 := Scalar.addi v29 c34_i32_1302
  let c112_i32_1303 : BitVec 32 := 112#32
  let c0_i32_1304 : BitVec 32 := 0#32
  ![v18.toNat, v1374.toNat, 112, 0]
def k0_off214 (i : grid0.Coords) (v1384 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1313 : BitVec 32 := 0#32
  let c0_i32_1314 : BitVec 32 := 0#32
  ![v18.toNat, v1384.toNat, 0, 0]

def k0_off215 (i : grid0.Coords) (v1346 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1317 : BitVec 32 := 0#32
  let c0_i32_1318 : BitVec 32 := 0#32
  ![v18.toNat, v1346.toNat, 0, 0]

def k0_chk71 (i : grid0.Coords) (v1346 : BitVec 32) : Prop :=
  (∀ a, (k0_off208 i v1346) a + S1x1x112x224.size a ≤ S8x192x224x224.size a) ∧
  (∀ a, (k0_off215 i v1346) a + S1x1x112x224.size a ≤ S8x192x224x224.size a)
instance k0_chk71.dec : ∀ (i : grid0.Coords) (v1346 : BitVec 32), Decidable (k0_chk71 i v1346) := fun i v1346 => decidable_of_iff' _ (Iff.of_eq (k0_chk71.eq_1 i v1346))
theorem k0_off208_inb : ∀ (i : grid0.Coords) (v1346 : BitVec 32) (k0_hw71 : k0_chk71 i v1346), ∀ a, (k0_off208 i v1346) a + S1x1x112x224.size a ≤ S8x192x224x224.size a := fun i v1346 k0_hw71 => k0_hw71.1
theorem k0_off215_inb : ∀ (i : grid0.Coords) (v1346 : BitVec 32) (k0_hw71 : k0_chk71 i v1346), ∀ a, (k0_off215 i v1346) a + S1x1x112x224.size a ≤ S8x192x224x224.size a := fun i v1346 k0_hw71 => k0_hw71.2

def k0_off216 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c35_i32 : BitVec 32 := 35#32
  let v1393 : BitVec 32 := Scalar.addi v29 c35_i32
  let c0_i32_1321 : BitVec 32 := 0#32
  let c0_i32_1322 : BitVec 32 := 0#32
  ![v18.toNat, v1393.toNat, 0, 0]
def k0_off217 (i : grid0.Coords) (v1403 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1331 : BitVec 32 := 112#32
  let c0_i32_1332 : BitVec 32 := 0#32
  ![v18.toNat, v1403.toNat, 112, 0]

def k0_off218 (i : grid0.Coords) (v1365 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1335 : BitVec 32 := 112#32
  let c0_i32_1336 : BitVec 32 := 0#32
  ![v18.toNat, v1365.toNat, 112, 0]

def k0_chk72 (i : grid0.Coords) (v1365 : BitVec 32) : Prop :=
  (∀ a, (k0_off211 i v1365) a + S1x1x112x224.size a ≤ S8x192x224x224.size a) ∧
  (∀ a, (k0_off218 i v1365) a + S1x1x112x224.size a ≤ S8x192x224x224.size a)
instance k0_chk72.dec : ∀ (i : grid0.Coords) (v1365 : BitVec 32), Decidable (k0_chk72 i v1365) := fun i v1365 => decidable_of_iff' _ (Iff.of_eq (k0_chk72.eq_1 i v1365))
theorem k0_off211_inb : ∀ (i : grid0.Coords) (v1365 : BitVec 32) (k0_hw72 : k0_chk72 i v1365), ∀ a, (k0_off211 i v1365) a + S1x1x112x224.size a ≤ S8x192x224x224.size a := fun i v1365 k0_hw72 => k0_hw72.1
theorem k0_off218_inb : ∀ (i : grid0.Coords) (v1365 : BitVec 32) (k0_hw72 : k0_chk72 i v1365), ∀ a, (k0_off218 i v1365) a + S1x1x112x224.size a ≤ S8x192x224x224.size a := fun i v1365 k0_hw72 => k0_hw72.2

def k0_off219 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c35_i32_1339 : BitVec 32 := 35#32
  let v1412 : BitVec 32 := Scalar.addi v29 c35_i32_1339
  let c112_i32_1340 : BitVec 32 := 112#32
  let c0_i32_1341 : BitVec 32 := 0#32
  ![v18.toNat, v1412.toNat, 112, 0]
def k0_off220 (i : grid0.Coords) (v1422 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1350 : BitVec 32 := 0#32
  let c0_i32_1351 : BitVec 32 := 0#32
  ![v18.toNat, v1422.toNat, 0, 0]

def k0_off221 (i : grid0.Coords) (v1384 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1354 : BitVec 32 := 0#32
  let c0_i32_1355 : BitVec 32 := 0#32
  ![v18.toNat, v1384.toNat, 0, 0]

def k0_chk73 (i : grid0.Coords) (v1384 : BitVec 32) : Prop :=
  (∀ a, (k0_off214 i v1384) a + S1x1x112x224.size a ≤ S8x192x224x224.size a) ∧
  (∀ a, (k0_off221 i v1384) a + S1x1x112x224.size a ≤ S8x192x224x224.size a)
instance k0_chk73.dec : ∀ (i : grid0.Coords) (v1384 : BitVec 32), Decidable (k0_chk73 i v1384) := fun i v1384 => decidable_of_iff' _ (Iff.of_eq (k0_chk73.eq_1 i v1384))
theorem k0_off214_inb : ∀ (i : grid0.Coords) (v1384 : BitVec 32) (k0_hw73 : k0_chk73 i v1384), ∀ a, (k0_off214 i v1384) a + S1x1x112x224.size a ≤ S8x192x224x224.size a := fun i v1384 k0_hw73 => k0_hw73.1
theorem k0_off221_inb : ∀ (i : grid0.Coords) (v1384 : BitVec 32) (k0_hw73 : k0_chk73 i v1384), ∀ a, (k0_off221 i v1384) a + S1x1x112x224.size a ≤ S8x192x224x224.size a := fun i v1384 k0_hw73 => k0_hw73.2

def k0_off222 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c36_i32 : BitVec 32 := 36#32
  let v1431 : BitVec 32 := Scalar.addi v29 c36_i32
  let c0_i32_1358 : BitVec 32 := 0#32
  let c0_i32_1359 : BitVec 32 := 0#32
  ![v18.toNat, v1431.toNat, 0, 0]
def k0_off223 (i : grid0.Coords) (v1441 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1368 : BitVec 32 := 112#32
  let c0_i32_1369 : BitVec 32 := 0#32
  ![v18.toNat, v1441.toNat, 112, 0]

def k0_off224 (i : grid0.Coords) (v1403 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1372 : BitVec 32 := 112#32
  let c0_i32_1373 : BitVec 32 := 0#32
  ![v18.toNat, v1403.toNat, 112, 0]

def k0_chk74 (i : grid0.Coords) (v1403 : BitVec 32) : Prop :=
  (∀ a, (k0_off217 i v1403) a + S1x1x112x224.size a ≤ S8x192x224x224.size a) ∧
  (∀ a, (k0_off224 i v1403) a + S1x1x112x224.size a ≤ S8x192x224x224.size a)
instance k0_chk74.dec : ∀ (i : grid0.Coords) (v1403 : BitVec 32), Decidable (k0_chk74 i v1403) := fun i v1403 => decidable_of_iff' _ (Iff.of_eq (k0_chk74.eq_1 i v1403))
theorem k0_off217_inb : ∀ (i : grid0.Coords) (v1403 : BitVec 32) (k0_hw74 : k0_chk74 i v1403), ∀ a, (k0_off217 i v1403) a + S1x1x112x224.size a ≤ S8x192x224x224.size a := fun i v1403 k0_hw74 => k0_hw74.1
theorem k0_off224_inb : ∀ (i : grid0.Coords) (v1403 : BitVec 32) (k0_hw74 : k0_chk74 i v1403), ∀ a, (k0_off224 i v1403) a + S1x1x112x224.size a ≤ S8x192x224x224.size a := fun i v1403 k0_hw74 => k0_hw74.2

def k0_off225 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c36_i32_1376 : BitVec 32 := 36#32
  let v1450 : BitVec 32 := Scalar.addi v29 c36_i32_1376
  let c112_i32_1377 : BitVec 32 := 112#32
  let c0_i32_1378 : BitVec 32 := 0#32
  ![v18.toNat, v1450.toNat, 112, 0]
def k0_off226 (i : grid0.Coords) (v1460 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1387 : BitVec 32 := 0#32
  let c0_i32_1388 : BitVec 32 := 0#32
  ![v18.toNat, v1460.toNat, 0, 0]

def k0_off227 (i : grid0.Coords) (v1422 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1391 : BitVec 32 := 0#32
  let c0_i32_1392 : BitVec 32 := 0#32
  ![v18.toNat, v1422.toNat, 0, 0]

def k0_chk75 (i : grid0.Coords) (v1422 : BitVec 32) : Prop :=
  (∀ a, (k0_off220 i v1422) a + S1x1x112x224.size a ≤ S8x192x224x224.size a) ∧
  (∀ a, (k0_off227 i v1422) a + S1x1x112x224.size a ≤ S8x192x224x224.size a)
instance k0_chk75.dec : ∀ (i : grid0.Coords) (v1422 : BitVec 32), Decidable (k0_chk75 i v1422) := fun i v1422 => decidable_of_iff' _ (Iff.of_eq (k0_chk75.eq_1 i v1422))
theorem k0_off220_inb : ∀ (i : grid0.Coords) (v1422 : BitVec 32) (k0_hw75 : k0_chk75 i v1422), ∀ a, (k0_off220 i v1422) a + S1x1x112x224.size a ≤ S8x192x224x224.size a := fun i v1422 k0_hw75 => k0_hw75.1
theorem k0_off227_inb : ∀ (i : grid0.Coords) (v1422 : BitVec 32) (k0_hw75 : k0_chk75 i v1422), ∀ a, (k0_off227 i v1422) a + S1x1x112x224.size a ≤ S8x192x224x224.size a := fun i v1422 k0_hw75 => k0_hw75.2

def k0_off228 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c37_i32 : BitVec 32 := 37#32
  let v1469 : BitVec 32 := Scalar.addi v29 c37_i32
  let c0_i32_1395 : BitVec 32 := 0#32
  let c0_i32_1396 : BitVec 32 := 0#32
  ![v18.toNat, v1469.toNat, 0, 0]
def k0_off229 (i : grid0.Coords) (v1479 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1405 : BitVec 32 := 112#32
  let c0_i32_1406 : BitVec 32 := 0#32
  ![v18.toNat, v1479.toNat, 112, 0]

def k0_off230 (i : grid0.Coords) (v1441 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1409 : BitVec 32 := 112#32
  let c0_i32_1410 : BitVec 32 := 0#32
  ![v18.toNat, v1441.toNat, 112, 0]

def k0_chk76 (i : grid0.Coords) (v1441 : BitVec 32) : Prop :=
  (∀ a, (k0_off223 i v1441) a + S1x1x112x224.size a ≤ S8x192x224x224.size a) ∧
  (∀ a, (k0_off230 i v1441) a + S1x1x112x224.size a ≤ S8x192x224x224.size a)
instance k0_chk76.dec : ∀ (i : grid0.Coords) (v1441 : BitVec 32), Decidable (k0_chk76 i v1441) := fun i v1441 => decidable_of_iff' _ (Iff.of_eq (k0_chk76.eq_1 i v1441))
theorem k0_off223_inb : ∀ (i : grid0.Coords) (v1441 : BitVec 32) (k0_hw76 : k0_chk76 i v1441), ∀ a, (k0_off223 i v1441) a + S1x1x112x224.size a ≤ S8x192x224x224.size a := fun i v1441 k0_hw76 => k0_hw76.1
theorem k0_off230_inb : ∀ (i : grid0.Coords) (v1441 : BitVec 32) (k0_hw76 : k0_chk76 i v1441), ∀ a, (k0_off230 i v1441) a + S1x1x112x224.size a ≤ S8x192x224x224.size a := fun i v1441 k0_hw76 => k0_hw76.2

def k0_off231 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c37_i32_1413 : BitVec 32 := 37#32
  let v1488 : BitVec 32 := Scalar.addi v29 c37_i32_1413
  let c112_i32_1414 : BitVec 32 := 112#32
  let c0_i32_1415 : BitVec 32 := 0#32
  ![v18.toNat, v1488.toNat, 112, 0]
def k0_off232 (i : grid0.Coords) (v1498 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1424 : BitVec 32 := 0#32
  let c0_i32_1425 : BitVec 32 := 0#32
  ![v18.toNat, v1498.toNat, 0, 0]

def k0_off233 (i : grid0.Coords) (v1460 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1428 : BitVec 32 := 0#32
  let c0_i32_1429 : BitVec 32 := 0#32
  ![v18.toNat, v1460.toNat, 0, 0]

def k0_chk77 (i : grid0.Coords) (v1460 : BitVec 32) : Prop :=
  (∀ a, (k0_off226 i v1460) a + S1x1x112x224.size a ≤ S8x192x224x224.size a) ∧
  (∀ a, (k0_off233 i v1460) a + S1x1x112x224.size a ≤ S8x192x224x224.size a)
instance k0_chk77.dec : ∀ (i : grid0.Coords) (v1460 : BitVec 32), Decidable (k0_chk77 i v1460) := fun i v1460 => decidable_of_iff' _ (Iff.of_eq (k0_chk77.eq_1 i v1460))
theorem k0_off226_inb : ∀ (i : grid0.Coords) (v1460 : BitVec 32) (k0_hw77 : k0_chk77 i v1460), ∀ a, (k0_off226 i v1460) a + S1x1x112x224.size a ≤ S8x192x224x224.size a := fun i v1460 k0_hw77 => k0_hw77.1
theorem k0_off233_inb : ∀ (i : grid0.Coords) (v1460 : BitVec 32) (k0_hw77 : k0_chk77 i v1460), ∀ a, (k0_off233 i v1460) a + S1x1x112x224.size a ≤ S8x192x224x224.size a := fun i v1460 k0_hw77 => k0_hw77.2

def k0_off234 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c38_i32 : BitVec 32 := 38#32
  let v1507 : BitVec 32 := Scalar.addi v29 c38_i32
  let c0_i32_1432 : BitVec 32 := 0#32
  let c0_i32_1433 : BitVec 32 := 0#32
  ![v18.toNat, v1507.toNat, 0, 0]
def k0_off235 (i : grid0.Coords) (v1517 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1442 : BitVec 32 := 112#32
  let c0_i32_1443 : BitVec 32 := 0#32
  ![v18.toNat, v1517.toNat, 112, 0]

def k0_off236 (i : grid0.Coords) (v1479 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1446 : BitVec 32 := 112#32
  let c0_i32_1447 : BitVec 32 := 0#32
  ![v18.toNat, v1479.toNat, 112, 0]

def k0_chk78 (i : grid0.Coords) (v1479 : BitVec 32) : Prop :=
  (∀ a, (k0_off229 i v1479) a + S1x1x112x224.size a ≤ S8x192x224x224.size a) ∧
  (∀ a, (k0_off236 i v1479) a + S1x1x112x224.size a ≤ S8x192x224x224.size a)
instance k0_chk78.dec : ∀ (i : grid0.Coords) (v1479 : BitVec 32), Decidable (k0_chk78 i v1479) := fun i v1479 => decidable_of_iff' _ (Iff.of_eq (k0_chk78.eq_1 i v1479))
theorem k0_off229_inb : ∀ (i : grid0.Coords) (v1479 : BitVec 32) (k0_hw78 : k0_chk78 i v1479), ∀ a, (k0_off229 i v1479) a + S1x1x112x224.size a ≤ S8x192x224x224.size a := fun i v1479 k0_hw78 => k0_hw78.1
theorem k0_off236_inb : ∀ (i : grid0.Coords) (v1479 : BitVec 32) (k0_hw78 : k0_chk78 i v1479), ∀ a, (k0_off236 i v1479) a + S1x1x112x224.size a ≤ S8x192x224x224.size a := fun i v1479 k0_hw78 => k0_hw78.2

def k0_off237 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c38_i32_1450 : BitVec 32 := 38#32
  let v1526 : BitVec 32 := Scalar.addi v29 c38_i32_1450
  let c112_i32_1451 : BitVec 32 := 112#32
  let c0_i32_1452 : BitVec 32 := 0#32
  ![v18.toNat, v1526.toNat, 112, 0]
def k0_off238 (i : grid0.Coords) (v1536 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1461 : BitVec 32 := 0#32
  let c0_i32_1462 : BitVec 32 := 0#32
  ![v18.toNat, v1536.toNat, 0, 0]

def k0_off239 (i : grid0.Coords) (v1498 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1465 : BitVec 32 := 0#32
  let c0_i32_1466 : BitVec 32 := 0#32
  ![v18.toNat, v1498.toNat, 0, 0]

def k0_chk79 (i : grid0.Coords) (v1498 : BitVec 32) : Prop :=
  (∀ a, (k0_off232 i v1498) a + S1x1x112x224.size a ≤ S8x192x224x224.size a) ∧
  (∀ a, (k0_off239 i v1498) a + S1x1x112x224.size a ≤ S8x192x224x224.size a)
instance k0_chk79.dec : ∀ (i : grid0.Coords) (v1498 : BitVec 32), Decidable (k0_chk79 i v1498) := fun i v1498 => decidable_of_iff' _ (Iff.of_eq (k0_chk79.eq_1 i v1498))
theorem k0_off232_inb : ∀ (i : grid0.Coords) (v1498 : BitVec 32) (k0_hw79 : k0_chk79 i v1498), ∀ a, (k0_off232 i v1498) a + S1x1x112x224.size a ≤ S8x192x224x224.size a := fun i v1498 k0_hw79 => k0_hw79.1
theorem k0_off239_inb : ∀ (i : grid0.Coords) (v1498 : BitVec 32) (k0_hw79 : k0_chk79 i v1498), ∀ a, (k0_off239 i v1498) a + S1x1x112x224.size a ≤ S8x192x224x224.size a := fun i v1498 k0_hw79 => k0_hw79.2

def k0_off240 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c39_i32 : BitVec 32 := 39#32
  let v1545 : BitVec 32 := Scalar.addi v29 c39_i32
  let c0_i32_1469 : BitVec 32 := 0#32
  let c0_i32_1470 : BitVec 32 := 0#32
  ![v18.toNat, v1545.toNat, 0, 0]
def k0_off241 (i : grid0.Coords) (v1555 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1479 : BitVec 32 := 112#32
  let c0_i32_1480 : BitVec 32 := 0#32
  ![v18.toNat, v1555.toNat, 112, 0]

def k0_off242 (i : grid0.Coords) (v1517 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1483 : BitVec 32 := 112#32
  let c0_i32_1484 : BitVec 32 := 0#32
  ![v18.toNat, v1517.toNat, 112, 0]

def k0_chk80 (i : grid0.Coords) (v1517 : BitVec 32) : Prop :=
  (∀ a, (k0_off235 i v1517) a + S1x1x112x224.size a ≤ S8x192x224x224.size a) ∧
  (∀ a, (k0_off242 i v1517) a + S1x1x112x224.size a ≤ S8x192x224x224.size a)
instance k0_chk80.dec : ∀ (i : grid0.Coords) (v1517 : BitVec 32), Decidable (k0_chk80 i v1517) := fun i v1517 => decidable_of_iff' _ (Iff.of_eq (k0_chk80.eq_1 i v1517))
theorem k0_off235_inb : ∀ (i : grid0.Coords) (v1517 : BitVec 32) (k0_hw80 : k0_chk80 i v1517), ∀ a, (k0_off235 i v1517) a + S1x1x112x224.size a ≤ S8x192x224x224.size a := fun i v1517 k0_hw80 => k0_hw80.1
theorem k0_off242_inb : ∀ (i : grid0.Coords) (v1517 : BitVec 32) (k0_hw80 : k0_chk80 i v1517), ∀ a, (k0_off242 i v1517) a + S1x1x112x224.size a ≤ S8x192x224x224.size a := fun i v1517 k0_hw80 => k0_hw80.2

def k0_off243 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c39_i32_1487 : BitVec 32 := 39#32
  let v1564 : BitVec 32 := Scalar.addi v29 c39_i32_1487
  let c112_i32_1488 : BitVec 32 := 112#32
  let c0_i32_1489 : BitVec 32 := 0#32
  ![v18.toNat, v1564.toNat, 112, 0]
def k0_off244 (i : grid0.Coords) (v1574 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1498 : BitVec 32 := 0#32
  let c0_i32_1499 : BitVec 32 := 0#32
  ![v18.toNat, v1574.toNat, 0, 0]

def k0_off245 (i : grid0.Coords) (v1536 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1502 : BitVec 32 := 0#32
  let c0_i32_1503 : BitVec 32 := 0#32
  ![v18.toNat, v1536.toNat, 0, 0]

def k0_chk81 (i : grid0.Coords) (v1536 : BitVec 32) : Prop :=
  (∀ a, (k0_off238 i v1536) a + S1x1x112x224.size a ≤ S8x192x224x224.size a) ∧
  (∀ a, (k0_off245 i v1536) a + S1x1x112x224.size a ≤ S8x192x224x224.size a)
instance k0_chk81.dec : ∀ (i : grid0.Coords) (v1536 : BitVec 32), Decidable (k0_chk81 i v1536) := fun i v1536 => decidable_of_iff' _ (Iff.of_eq (k0_chk81.eq_1 i v1536))
theorem k0_off238_inb : ∀ (i : grid0.Coords) (v1536 : BitVec 32) (k0_hw81 : k0_chk81 i v1536), ∀ a, (k0_off238 i v1536) a + S1x1x112x224.size a ≤ S8x192x224x224.size a := fun i v1536 k0_hw81 => k0_hw81.1
theorem k0_off245_inb : ∀ (i : grid0.Coords) (v1536 : BitVec 32) (k0_hw81 : k0_chk81 i v1536), ∀ a, (k0_off245 i v1536) a + S1x1x112x224.size a ≤ S8x192x224x224.size a := fun i v1536 k0_hw81 => k0_hw81.2

def k0_off246 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c40_i32 : BitVec 32 := 40#32
  let v1583 : BitVec 32 := Scalar.addi v29 c40_i32
  let c0_i32_1506 : BitVec 32 := 0#32
  let c0_i32_1507 : BitVec 32 := 0#32
  ![v18.toNat, v1583.toNat, 0, 0]
def k0_off247 (i : grid0.Coords) (v1593 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1516 : BitVec 32 := 112#32
  let c0_i32_1517 : BitVec 32 := 0#32
  ![v18.toNat, v1593.toNat, 112, 0]

def k0_off248 (i : grid0.Coords) (v1555 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1520 : BitVec 32 := 112#32
  let c0_i32_1521 : BitVec 32 := 0#32
  ![v18.toNat, v1555.toNat, 112, 0]

def k0_chk82 (i : grid0.Coords) (v1555 : BitVec 32) : Prop :=
  (∀ a, (k0_off241 i v1555) a + S1x1x112x224.size a ≤ S8x192x224x224.size a) ∧
  (∀ a, (k0_off248 i v1555) a + S1x1x112x224.size a ≤ S8x192x224x224.size a)
instance k0_chk82.dec : ∀ (i : grid0.Coords) (v1555 : BitVec 32), Decidable (k0_chk82 i v1555) := fun i v1555 => decidable_of_iff' _ (Iff.of_eq (k0_chk82.eq_1 i v1555))
theorem k0_off241_inb : ∀ (i : grid0.Coords) (v1555 : BitVec 32) (k0_hw82 : k0_chk82 i v1555), ∀ a, (k0_off241 i v1555) a + S1x1x112x224.size a ≤ S8x192x224x224.size a := fun i v1555 k0_hw82 => k0_hw82.1
theorem k0_off248_inb : ∀ (i : grid0.Coords) (v1555 : BitVec 32) (k0_hw82 : k0_chk82 i v1555), ∀ a, (k0_off248 i v1555) a + S1x1x112x224.size a ≤ S8x192x224x224.size a := fun i v1555 k0_hw82 => k0_hw82.2

def k0_off249 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c40_i32_1524 : BitVec 32 := 40#32
  let v1602 : BitVec 32 := Scalar.addi v29 c40_i32_1524
  let c112_i32_1525 : BitVec 32 := 112#32
  let c0_i32_1526 : BitVec 32 := 0#32
  ![v18.toNat, v1602.toNat, 112, 0]
def k0_off250 (i : grid0.Coords) (v1612 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1535 : BitVec 32 := 0#32
  let c0_i32_1536 : BitVec 32 := 0#32
  ![v18.toNat, v1612.toNat, 0, 0]

def k0_off251 (i : grid0.Coords) (v1574 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1539 : BitVec 32 := 0#32
  let c0_i32_1540 : BitVec 32 := 0#32
  ![v18.toNat, v1574.toNat, 0, 0]

def k0_chk83 (i : grid0.Coords) (v1574 : BitVec 32) : Prop :=
  (∀ a, (k0_off244 i v1574) a + S1x1x112x224.size a ≤ S8x192x224x224.size a) ∧
  (∀ a, (k0_off251 i v1574) a + S1x1x112x224.size a ≤ S8x192x224x224.size a)
instance k0_chk83.dec : ∀ (i : grid0.Coords) (v1574 : BitVec 32), Decidable (k0_chk83 i v1574) := fun i v1574 => decidable_of_iff' _ (Iff.of_eq (k0_chk83.eq_1 i v1574))
theorem k0_off244_inb : ∀ (i : grid0.Coords) (v1574 : BitVec 32) (k0_hw83 : k0_chk83 i v1574), ∀ a, (k0_off244 i v1574) a + S1x1x112x224.size a ≤ S8x192x224x224.size a := fun i v1574 k0_hw83 => k0_hw83.1
theorem k0_off251_inb : ∀ (i : grid0.Coords) (v1574 : BitVec 32) (k0_hw83 : k0_chk83 i v1574), ∀ a, (k0_off251 i v1574) a + S1x1x112x224.size a ≤ S8x192x224x224.size a := fun i v1574 k0_hw83 => k0_hw83.2

def k0_off252 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c41_i32 : BitVec 32 := 41#32
  let v1621 : BitVec 32 := Scalar.addi v29 c41_i32
  let c0_i32_1543 : BitVec 32 := 0#32
  let c0_i32_1544 : BitVec 32 := 0#32
  ![v18.toNat, v1621.toNat, 0, 0]
def k0_off253 (i : grid0.Coords) (v1631 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1553 : BitVec 32 := 112#32
  let c0_i32_1554 : BitVec 32 := 0#32
  ![v18.toNat, v1631.toNat, 112, 0]

def k0_off254 (i : grid0.Coords) (v1593 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1557 : BitVec 32 := 112#32
  let c0_i32_1558 : BitVec 32 := 0#32
  ![v18.toNat, v1593.toNat, 112, 0]

def k0_chk84 (i : grid0.Coords) (v1593 : BitVec 32) : Prop :=
  (∀ a, (k0_off247 i v1593) a + S1x1x112x224.size a ≤ S8x192x224x224.size a) ∧
  (∀ a, (k0_off254 i v1593) a + S1x1x112x224.size a ≤ S8x192x224x224.size a)
instance k0_chk84.dec : ∀ (i : grid0.Coords) (v1593 : BitVec 32), Decidable (k0_chk84 i v1593) := fun i v1593 => decidable_of_iff' _ (Iff.of_eq (k0_chk84.eq_1 i v1593))
theorem k0_off247_inb : ∀ (i : grid0.Coords) (v1593 : BitVec 32) (k0_hw84 : k0_chk84 i v1593), ∀ a, (k0_off247 i v1593) a + S1x1x112x224.size a ≤ S8x192x224x224.size a := fun i v1593 k0_hw84 => k0_hw84.1
theorem k0_off254_inb : ∀ (i : grid0.Coords) (v1593 : BitVec 32) (k0_hw84 : k0_chk84 i v1593), ∀ a, (k0_off254 i v1593) a + S1x1x112x224.size a ≤ S8x192x224x224.size a := fun i v1593 k0_hw84 => k0_hw84.2

def k0_off255 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c41_i32_1561 : BitVec 32 := 41#32
  let v1640 : BitVec 32 := Scalar.addi v29 c41_i32_1561
  let c112_i32_1562 : BitVec 32 := 112#32
  let c0_i32_1563 : BitVec 32 := 0#32
  ![v18.toNat, v1640.toNat, 112, 0]
def k0_off256 (i : grid0.Coords) (v1650 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1572 : BitVec 32 := 0#32
  let c0_i32_1573 : BitVec 32 := 0#32
  ![v18.toNat, v1650.toNat, 0, 0]

def k0_off257 (i : grid0.Coords) (v1612 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1576 : BitVec 32 := 0#32
  let c0_i32_1577 : BitVec 32 := 0#32
  ![v18.toNat, v1612.toNat, 0, 0]

def k0_chk85 (i : grid0.Coords) (v1612 : BitVec 32) : Prop :=
  (∀ a, (k0_off250 i v1612) a + S1x1x112x224.size a ≤ S8x192x224x224.size a) ∧
  (∀ a, (k0_off257 i v1612) a + S1x1x112x224.size a ≤ S8x192x224x224.size a)
instance k0_chk85.dec : ∀ (i : grid0.Coords) (v1612 : BitVec 32), Decidable (k0_chk85 i v1612) := fun i v1612 => decidable_of_iff' _ (Iff.of_eq (k0_chk85.eq_1 i v1612))
theorem k0_off250_inb : ∀ (i : grid0.Coords) (v1612 : BitVec 32) (k0_hw85 : k0_chk85 i v1612), ∀ a, (k0_off250 i v1612) a + S1x1x112x224.size a ≤ S8x192x224x224.size a := fun i v1612 k0_hw85 => k0_hw85.1
theorem k0_off257_inb : ∀ (i : grid0.Coords) (v1612 : BitVec 32) (k0_hw85 : k0_chk85 i v1612), ∀ a, (k0_off257 i v1612) a + S1x1x112x224.size a ≤ S8x192x224x224.size a := fun i v1612 k0_hw85 => k0_hw85.2

def k0_off258 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c42_i32 : BitVec 32 := 42#32
  let v1659 : BitVec 32 := Scalar.addi v29 c42_i32
  let c0_i32_1580 : BitVec 32 := 0#32
  let c0_i32_1581 : BitVec 32 := 0#32
  ![v18.toNat, v1659.toNat, 0, 0]
def k0_off259 (i : grid0.Coords) (v1669 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1590 : BitVec 32 := 112#32
  let c0_i32_1591 : BitVec 32 := 0#32
  ![v18.toNat, v1669.toNat, 112, 0]

def k0_off260 (i : grid0.Coords) (v1631 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1594 : BitVec 32 := 112#32
  let c0_i32_1595 : BitVec 32 := 0#32
  ![v18.toNat, v1631.toNat, 112, 0]

def k0_chk86 (i : grid0.Coords) (v1631 : BitVec 32) : Prop :=
  (∀ a, (k0_off253 i v1631) a + S1x1x112x224.size a ≤ S8x192x224x224.size a) ∧
  (∀ a, (k0_off260 i v1631) a + S1x1x112x224.size a ≤ S8x192x224x224.size a)
instance k0_chk86.dec : ∀ (i : grid0.Coords) (v1631 : BitVec 32), Decidable (k0_chk86 i v1631) := fun i v1631 => decidable_of_iff' _ (Iff.of_eq (k0_chk86.eq_1 i v1631))
theorem k0_off253_inb : ∀ (i : grid0.Coords) (v1631 : BitVec 32) (k0_hw86 : k0_chk86 i v1631), ∀ a, (k0_off253 i v1631) a + S1x1x112x224.size a ≤ S8x192x224x224.size a := fun i v1631 k0_hw86 => k0_hw86.1
theorem k0_off260_inb : ∀ (i : grid0.Coords) (v1631 : BitVec 32) (k0_hw86 : k0_chk86 i v1631), ∀ a, (k0_off260 i v1631) a + S1x1x112x224.size a ≤ S8x192x224x224.size a := fun i v1631 k0_hw86 => k0_hw86.2

def k0_off261 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c42_i32_1598 : BitVec 32 := 42#32
  let v1678 : BitVec 32 := Scalar.addi v29 c42_i32_1598
  let c112_i32_1599 : BitVec 32 := 112#32
  let c0_i32_1600 : BitVec 32 := 0#32
  ![v18.toNat, v1678.toNat, 112, 0]
def k0_off262 (i : grid0.Coords) (v1688 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1609 : BitVec 32 := 0#32
  let c0_i32_1610 : BitVec 32 := 0#32
  ![v18.toNat, v1688.toNat, 0, 0]

def k0_off263 (i : grid0.Coords) (v1650 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1613 : BitVec 32 := 0#32
  let c0_i32_1614 : BitVec 32 := 0#32
  ![v18.toNat, v1650.toNat, 0, 0]

def k0_chk87 (i : grid0.Coords) (v1650 : BitVec 32) : Prop :=
  (∀ a, (k0_off256 i v1650) a + S1x1x112x224.size a ≤ S8x192x224x224.size a) ∧
  (∀ a, (k0_off263 i v1650) a + S1x1x112x224.size a ≤ S8x192x224x224.size a)
instance k0_chk87.dec : ∀ (i : grid0.Coords) (v1650 : BitVec 32), Decidable (k0_chk87 i v1650) := fun i v1650 => decidable_of_iff' _ (Iff.of_eq (k0_chk87.eq_1 i v1650))
theorem k0_off256_inb : ∀ (i : grid0.Coords) (v1650 : BitVec 32) (k0_hw87 : k0_chk87 i v1650), ∀ a, (k0_off256 i v1650) a + S1x1x112x224.size a ≤ S8x192x224x224.size a := fun i v1650 k0_hw87 => k0_hw87.1
theorem k0_off263_inb : ∀ (i : grid0.Coords) (v1650 : BitVec 32) (k0_hw87 : k0_chk87 i v1650), ∀ a, (k0_off263 i v1650) a + S1x1x112x224.size a ≤ S8x192x224x224.size a := fun i v1650 k0_hw87 => k0_hw87.2

def k0_off264 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c43_i32 : BitVec 32 := 43#32
  let v1697 : BitVec 32 := Scalar.addi v29 c43_i32
  let c0_i32_1617 : BitVec 32 := 0#32
  let c0_i32_1618 : BitVec 32 := 0#32
  ![v18.toNat, v1697.toNat, 0, 0]
def k0_off265 (i : grid0.Coords) (v1707 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1627 : BitVec 32 := 112#32
  let c0_i32_1628 : BitVec 32 := 0#32
  ![v18.toNat, v1707.toNat, 112, 0]

def k0_off266 (i : grid0.Coords) (v1669 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1631 : BitVec 32 := 112#32
  let c0_i32_1632 : BitVec 32 := 0#32
  ![v18.toNat, v1669.toNat, 112, 0]

def k0_chk88 (i : grid0.Coords) (v1669 : BitVec 32) : Prop :=
  (∀ a, (k0_off259 i v1669) a + S1x1x112x224.size a ≤ S8x192x224x224.size a) ∧
  (∀ a, (k0_off266 i v1669) a + S1x1x112x224.size a ≤ S8x192x224x224.size a)
instance k0_chk88.dec : ∀ (i : grid0.Coords) (v1669 : BitVec 32), Decidable (k0_chk88 i v1669) := fun i v1669 => decidable_of_iff' _ (Iff.of_eq (k0_chk88.eq_1 i v1669))
theorem k0_off259_inb : ∀ (i : grid0.Coords) (v1669 : BitVec 32) (k0_hw88 : k0_chk88 i v1669), ∀ a, (k0_off259 i v1669) a + S1x1x112x224.size a ≤ S8x192x224x224.size a := fun i v1669 k0_hw88 => k0_hw88.1
theorem k0_off266_inb : ∀ (i : grid0.Coords) (v1669 : BitVec 32) (k0_hw88 : k0_chk88 i v1669), ∀ a, (k0_off266 i v1669) a + S1x1x112x224.size a ≤ S8x192x224x224.size a := fun i v1669 k0_hw88 => k0_hw88.2

def k0_off267 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c43_i32_1635 : BitVec 32 := 43#32
  let v1716 : BitVec 32 := Scalar.addi v29 c43_i32_1635
  let c112_i32_1636 : BitVec 32 := 112#32
  let c0_i32_1637 : BitVec 32 := 0#32
  ![v18.toNat, v1716.toNat, 112, 0]
def k0_off268 (i : grid0.Coords) (v1726 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1646 : BitVec 32 := 0#32
  let c0_i32_1647 : BitVec 32 := 0#32
  ![v18.toNat, v1726.toNat, 0, 0]

def k0_off269 (i : grid0.Coords) (v1688 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1650 : BitVec 32 := 0#32
  let c0_i32_1651 : BitVec 32 := 0#32
  ![v18.toNat, v1688.toNat, 0, 0]

def k0_chk89 (i : grid0.Coords) (v1688 : BitVec 32) : Prop :=
  (∀ a, (k0_off262 i v1688) a + S1x1x112x224.size a ≤ S8x192x224x224.size a) ∧
  (∀ a, (k0_off269 i v1688) a + S1x1x112x224.size a ≤ S8x192x224x224.size a)
instance k0_chk89.dec : ∀ (i : grid0.Coords) (v1688 : BitVec 32), Decidable (k0_chk89 i v1688) := fun i v1688 => decidable_of_iff' _ (Iff.of_eq (k0_chk89.eq_1 i v1688))
theorem k0_off262_inb : ∀ (i : grid0.Coords) (v1688 : BitVec 32) (k0_hw89 : k0_chk89 i v1688), ∀ a, (k0_off262 i v1688) a + S1x1x112x224.size a ≤ S8x192x224x224.size a := fun i v1688 k0_hw89 => k0_hw89.1
theorem k0_off269_inb : ∀ (i : grid0.Coords) (v1688 : BitVec 32) (k0_hw89 : k0_chk89 i v1688), ∀ a, (k0_off269 i v1688) a + S1x1x112x224.size a ≤ S8x192x224x224.size a := fun i v1688 k0_hw89 => k0_hw89.2

def k0_off270 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c44_i32 : BitVec 32 := 44#32
  let v1735 : BitVec 32 := Scalar.addi v29 c44_i32
  let c0_i32_1654 : BitVec 32 := 0#32
  let c0_i32_1655 : BitVec 32 := 0#32
  ![v18.toNat, v1735.toNat, 0, 0]
def k0_off271 (i : grid0.Coords) (v1745 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1664 : BitVec 32 := 112#32
  let c0_i32_1665 : BitVec 32 := 0#32
  ![v18.toNat, v1745.toNat, 112, 0]

def k0_off272 (i : grid0.Coords) (v1707 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1668 : BitVec 32 := 112#32
  let c0_i32_1669 : BitVec 32 := 0#32
  ![v18.toNat, v1707.toNat, 112, 0]

def k0_chk90 (i : grid0.Coords) (v1707 : BitVec 32) : Prop :=
  (∀ a, (k0_off265 i v1707) a + S1x1x112x224.size a ≤ S8x192x224x224.size a) ∧
  (∀ a, (k0_off272 i v1707) a + S1x1x112x224.size a ≤ S8x192x224x224.size a)
instance k0_chk90.dec : ∀ (i : grid0.Coords) (v1707 : BitVec 32), Decidable (k0_chk90 i v1707) := fun i v1707 => decidable_of_iff' _ (Iff.of_eq (k0_chk90.eq_1 i v1707))
theorem k0_off265_inb : ∀ (i : grid0.Coords) (v1707 : BitVec 32) (k0_hw90 : k0_chk90 i v1707), ∀ a, (k0_off265 i v1707) a + S1x1x112x224.size a ≤ S8x192x224x224.size a := fun i v1707 k0_hw90 => k0_hw90.1
theorem k0_off272_inb : ∀ (i : grid0.Coords) (v1707 : BitVec 32) (k0_hw90 : k0_chk90 i v1707), ∀ a, (k0_off272 i v1707) a + S1x1x112x224.size a ≤ S8x192x224x224.size a := fun i v1707 k0_hw90 => k0_hw90.2

def k0_off273 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c44_i32_1672 : BitVec 32 := 44#32
  let v1754 : BitVec 32 := Scalar.addi v29 c44_i32_1672
  let c112_i32_1673 : BitVec 32 := 112#32
  let c0_i32_1674 : BitVec 32 := 0#32
  ![v18.toNat, v1754.toNat, 112, 0]
def k0_off274 (i : grid0.Coords) (v1764 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1683 : BitVec 32 := 0#32
  let c0_i32_1684 : BitVec 32 := 0#32
  ![v18.toNat, v1764.toNat, 0, 0]

def k0_off275 (i : grid0.Coords) (v1726 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1687 : BitVec 32 := 0#32
  let c0_i32_1688 : BitVec 32 := 0#32
  ![v18.toNat, v1726.toNat, 0, 0]

def k0_chk91 (i : grid0.Coords) (v1726 : BitVec 32) : Prop :=
  (∀ a, (k0_off268 i v1726) a + S1x1x112x224.size a ≤ S8x192x224x224.size a) ∧
  (∀ a, (k0_off275 i v1726) a + S1x1x112x224.size a ≤ S8x192x224x224.size a)
instance k0_chk91.dec : ∀ (i : grid0.Coords) (v1726 : BitVec 32), Decidable (k0_chk91 i v1726) := fun i v1726 => decidable_of_iff' _ (Iff.of_eq (k0_chk91.eq_1 i v1726))
theorem k0_off268_inb : ∀ (i : grid0.Coords) (v1726 : BitVec 32) (k0_hw91 : k0_chk91 i v1726), ∀ a, (k0_off268 i v1726) a + S1x1x112x224.size a ≤ S8x192x224x224.size a := fun i v1726 k0_hw91 => k0_hw91.1
theorem k0_off275_inb : ∀ (i : grid0.Coords) (v1726 : BitVec 32) (k0_hw91 : k0_chk91 i v1726), ∀ a, (k0_off275 i v1726) a + S1x1x112x224.size a ≤ S8x192x224x224.size a := fun i v1726 k0_hw91 => k0_hw91.2

def k0_off276 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c45_i32 : BitVec 32 := 45#32
  let v1773 : BitVec 32 := Scalar.addi v29 c45_i32
  let c0_i32_1691 : BitVec 32 := 0#32
  let c0_i32_1692 : BitVec 32 := 0#32
  ![v18.toNat, v1773.toNat, 0, 0]
def k0_off277 (i : grid0.Coords) (v1783 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1701 : BitVec 32 := 112#32
  let c0_i32_1702 : BitVec 32 := 0#32
  ![v18.toNat, v1783.toNat, 112, 0]

def k0_off278 (i : grid0.Coords) (v1745 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1705 : BitVec 32 := 112#32
  let c0_i32_1706 : BitVec 32 := 0#32
  ![v18.toNat, v1745.toNat, 112, 0]

def k0_chk92 (i : grid0.Coords) (v1745 : BitVec 32) : Prop :=
  (∀ a, (k0_off271 i v1745) a + S1x1x112x224.size a ≤ S8x192x224x224.size a) ∧
  (∀ a, (k0_off278 i v1745) a + S1x1x112x224.size a ≤ S8x192x224x224.size a)
instance k0_chk92.dec : ∀ (i : grid0.Coords) (v1745 : BitVec 32), Decidable (k0_chk92 i v1745) := fun i v1745 => decidable_of_iff' _ (Iff.of_eq (k0_chk92.eq_1 i v1745))
theorem k0_off271_inb : ∀ (i : grid0.Coords) (v1745 : BitVec 32) (k0_hw92 : k0_chk92 i v1745), ∀ a, (k0_off271 i v1745) a + S1x1x112x224.size a ≤ S8x192x224x224.size a := fun i v1745 k0_hw92 => k0_hw92.1
theorem k0_off278_inb : ∀ (i : grid0.Coords) (v1745 : BitVec 32) (k0_hw92 : k0_chk92 i v1745), ∀ a, (k0_off278 i v1745) a + S1x1x112x224.size a ≤ S8x192x224x224.size a := fun i v1745 k0_hw92 => k0_hw92.2

def k0_off279 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c45_i32_1709 : BitVec 32 := 45#32
  let v1792 : BitVec 32 := Scalar.addi v29 c45_i32_1709
  let c112_i32_1710 : BitVec 32 := 112#32
  let c0_i32_1711 : BitVec 32 := 0#32
  ![v18.toNat, v1792.toNat, 112, 0]
def k0_off280 (i : grid0.Coords) (v1802 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1720 : BitVec 32 := 0#32
  let c0_i32_1721 : BitVec 32 := 0#32
  ![v18.toNat, v1802.toNat, 0, 0]

def k0_off281 (i : grid0.Coords) (v1764 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1724 : BitVec 32 := 0#32
  let c0_i32_1725 : BitVec 32 := 0#32
  ![v18.toNat, v1764.toNat, 0, 0]

def k0_chk93 (i : grid0.Coords) (v1764 : BitVec 32) : Prop :=
  (∀ a, (k0_off274 i v1764) a + S1x1x112x224.size a ≤ S8x192x224x224.size a) ∧
  (∀ a, (k0_off281 i v1764) a + S1x1x112x224.size a ≤ S8x192x224x224.size a)
instance k0_chk93.dec : ∀ (i : grid0.Coords) (v1764 : BitVec 32), Decidable (k0_chk93 i v1764) := fun i v1764 => decidable_of_iff' _ (Iff.of_eq (k0_chk93.eq_1 i v1764))
theorem k0_off274_inb : ∀ (i : grid0.Coords) (v1764 : BitVec 32) (k0_hw93 : k0_chk93 i v1764), ∀ a, (k0_off274 i v1764) a + S1x1x112x224.size a ≤ S8x192x224x224.size a := fun i v1764 k0_hw93 => k0_hw93.1
theorem k0_off281_inb : ∀ (i : grid0.Coords) (v1764 : BitVec 32) (k0_hw93 : k0_chk93 i v1764), ∀ a, (k0_off281 i v1764) a + S1x1x112x224.size a ≤ S8x192x224x224.size a := fun i v1764 k0_hw93 => k0_hw93.2

def k0_off282 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c46_i32 : BitVec 32 := 46#32
  let v1811 : BitVec 32 := Scalar.addi v29 c46_i32
  let c0_i32_1728 : BitVec 32 := 0#32
  let c0_i32_1729 : BitVec 32 := 0#32
  ![v18.toNat, v1811.toNat, 0, 0]
def k0_off283 (i : grid0.Coords) (v1821 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1738 : BitVec 32 := 112#32
  let c0_i32_1739 : BitVec 32 := 0#32
  ![v18.toNat, v1821.toNat, 112, 0]

def k0_chk96 (i : grid0.Coords) (v1821 : BitVec 32) : Prop :=
  (∀ a, (k0_off283 i v1821) a + S1x1x112x224.size a ≤ S8x192x224x224.size a)
instance k0_chk96.dec : ∀ (i : grid0.Coords) (v1821 : BitVec 32), Decidable (k0_chk96 i v1821) := fun i v1821 => decidable_of_iff' _ (Iff.of_eq (k0_chk96.eq_1 i v1821))
theorem k0_off283_inb : ∀ (i : grid0.Coords) (v1821 : BitVec 32) (k0_hw96 : k0_chk96 i v1821), ∀ a, (k0_off283 i v1821) a + S1x1x112x224.size a ≤ S8x192x224x224.size a := fun i v1821 k0_hw96 => k0_hw96

def k0_off284 (i : grid0.Coords) (v1783 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32_1742 : BitVec 32 := 112#32
  let c0_i32_1743 : BitVec 32 := 0#32
  ![v18.toNat, v1783.toNat, 112, 0]

def k0_chk94 (i : grid0.Coords) (v1783 : BitVec 32) : Prop :=
  (∀ a, (k0_off277 i v1783) a + S1x1x112x224.size a ≤ S8x192x224x224.size a) ∧
  (∀ a, (k0_off284 i v1783) a + S1x1x112x224.size a ≤ S8x192x224x224.size a)
instance k0_chk94.dec : ∀ (i : grid0.Coords) (v1783 : BitVec 32), Decidable (k0_chk94 i v1783) := fun i v1783 => decidable_of_iff' _ (Iff.of_eq (k0_chk94.eq_1 i v1783))
theorem k0_off277_inb : ∀ (i : grid0.Coords) (v1783 : BitVec 32) (k0_hw94 : k0_chk94 i v1783), ∀ a, (k0_off277 i v1783) a + S1x1x112x224.size a ≤ S8x192x224x224.size a := fun i v1783 k0_hw94 => k0_hw94.1
theorem k0_off284_inb : ∀ (i : grid0.Coords) (v1783 : BitVec 32) (k0_hw94 : k0_chk94 i v1783), ∀ a, (k0_off284 i v1783) a + S1x1x112x224.size a ≤ S8x192x224x224.size a := fun i v1783 k0_hw94 => k0_hw94.2

def k0_off285 (i : grid0.Coords) (c46_i32_1746 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let v1830 : BitVec 32 := Scalar.addi v29 c46_i32_1746
  let c112_i32_1747 : BitVec 32 := 112#32
  let c0_i32_1748 : BitVec 32 := 0#32
  ![v18.toNat, v1830.toNat, 112, 0]
def k0_off286 (i : grid0.Coords) (v1802 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_1751 : BitVec 32 := 0#32
  let c0_i32_1752 : BitVec 32 := 0#32
  ![v18.toNat, v1802.toNat, 0, 0]

def k0_chk95 (i : grid0.Coords) (v1802 : BitVec 32) : Prop :=
  (∀ a, (k0_off280 i v1802) a + S1x1x112x224.size a ≤ S8x192x224x224.size a) ∧
  (∀ a, (k0_off286 i v1802) a + S1x1x112x224.size a ≤ S8x192x224x224.size a)
instance k0_chk95.dec : ∀ (i : grid0.Coords) (v1802 : BitVec 32), Decidable (k0_chk95 i v1802) := fun i v1802 => decidable_of_iff' _ (Iff.of_eq (k0_chk95.eq_1 i v1802))
theorem k0_off280_inb : ∀ (i : grid0.Coords) (v1802 : BitVec 32) (k0_hw95 : k0_chk95 i v1802), ∀ a, (k0_off280 i v1802) a + S1x1x112x224.size a ≤ S8x192x224x224.size a := fun i v1802 k0_hw95 => k0_hw95.1
theorem k0_off286_inb : ∀ (i : grid0.Coords) (v1802 : BitVec 32) (k0_hw95 : k0_chk95 i v1802), ∀ a, (k0_off286 i v1802) a + S1x1x112x224.size a ≤ S8x192x224x224.size a := fun i v1802 k0_hw95 => k0_hw95.2

def k0_off287 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c48_i32 : BitVec 32 := 48#32
  let v29 : BitVec 32 := Scalar.muli v28 c48_i32
  let c47_i32 : BitVec 32 := 47#32
  let v1839 : BitVec 32 := Scalar.addi v29 c47_i32
  let c0_i32_1755 : BitVec 32 := 0#32
  let c0_i32_1756 : BitVec 32 := 0#32
  ![v18.toNat, v1839.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  squeezes_S1x1x112x224_S112x224 : S1x1x112x224.Squeezes S112x224
  slices_S16_o1_S1 : S16.Slices ![1] S1
  inb_S8x192x224x224_S1x1x112x224_0_0_0_0 : ∀ a, (![0, 0, 0, 0] : Fin 4 → Nat) a + S1x1x112x224.size a ≤ S8x192x224x224.size a
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc0_scratch5 : 0 + S_.numel ≤ 9
  hcc0_scratch6 : 1 + S_.numel ≤ 9
  hcc0_scratch7 : 2 + S_.numel ≤ 9
  hcc0_scratch8 : 3 + S_.numel ≤ 9
  hcc0_scratch9 : 4 + S_.numel ≤ 9
  hcc0_scratch10 : 5 + S_.numel ≤ 9
  hcc0_scratch11 : 6 + S_.numel ≤ 9
  hcc0_scratch12 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 16 ∣ (k0_mult1 i).toNat
  k0_off1_inb : ∀ i : grid0.Coords, ∀ (r : Fin 3), ∀ a, (k0_off1 i (BitVec.ofNat 32 (16 * r.val))) a + S16.size a ≤ S192.size a
  k0_mult2_dvd : ∀ i : grid0.Coords, 16 ∣ (k0_mult2 i).toNat
  k0_mult3_dvd : ∀ i : grid0.Coords, 16 ∣ (k0_mult3 i).toNat
  k0_off6_inb : ∀ i : grid0.Coords, ∀ a, (k0_off6 i) a + S1x1x112x224.size a ≤ S8x192x224x224.size a
  k0_off9_inb : ∀ i : grid0.Coords, ∀ a, (k0_off9 i) a + S1x1x112x224.size a ≤ S8x192x224x224.size a
  k0_off12_inb : ∀ i : grid0.Coords, ∀ a, (k0_off12 i) a + S1x1x112x224.size a ≤ S8x192x224x224.size a
  k0_off15_inb : ∀ i : grid0.Coords, ∀ a, (k0_off15 i) a + S1x1x112x224.size a ≤ S8x192x224x224.size a
  k0_off18_inb : ∀ i : grid0.Coords, ∀ a, (k0_off18 i) a + S1x1x112x224.size a ≤ S8x192x224x224.size a
  k0_off21_inb : ∀ i : grid0.Coords, ∀ a, (k0_off21 i) a + S1x1x112x224.size a ≤ S8x192x224x224.size a
  k0_off24_inb : ∀ i : grid0.Coords, ∀ a, (k0_off24 i) a + S1x1x112x224.size a ≤ S8x192x224x224.size a
  k0_off27_inb : ∀ i : grid0.Coords, ∀ a, (k0_off27 i) a + S1x1x112x224.size a ≤ S8x192x224x224.size a
  k0_off30_inb : ∀ i : grid0.Coords, ∀ a, (k0_off30 i) a + S1x1x112x224.size a ≤ S8x192x224x224.size a
  k0_off33_inb : ∀ i : grid0.Coords, ∀ a, (k0_off33 i) a + S1x1x112x224.size a ≤ S8x192x224x224.size a
  k0_off36_inb : ∀ i : grid0.Coords, ∀ a, (k0_off36 i) a + S1x1x112x224.size a ≤ S8x192x224x224.size a
  k0_off39_inb : ∀ i : grid0.Coords, ∀ a, (k0_off39 i) a + S1x1x112x224.size a ≤ S8x192x224x224.size a
  k0_off42_inb : ∀ i : grid0.Coords, ∀ a, (k0_off42 i) a + S1x1x112x224.size a ≤ S8x192x224x224.size a
  k0_off45_inb : ∀ i : grid0.Coords, ∀ a, (k0_off45 i) a + S1x1x112x224.size a ≤ S8x192x224x224.size a
  k0_off48_inb : ∀ i : grid0.Coords, ∀ a, (k0_off48 i) a + S1x1x112x224.size a ≤ S8x192x224x224.size a
  k0_off51_inb : ∀ i : grid0.Coords, ∀ a, (k0_off51 i) a + S1x1x112x224.size a ≤ S8x192x224x224.size a
  k0_off54_inb : ∀ i : grid0.Coords, ∀ a, (k0_off54 i) a + S1x1x112x224.size a ≤ S8x192x224x224.size a
  k0_off57_inb : ∀ i : grid0.Coords, ∀ a, (k0_off57 i) a + S1x1x112x224.size a ≤ S8x192x224x224.size a
  k0_off60_inb : ∀ i : grid0.Coords, ∀ a, (k0_off60 i) a + S1x1x112x224.size a ≤ S8x192x224x224.size a
  k0_off63_inb : ∀ i : grid0.Coords, ∀ a, (k0_off63 i) a + S1x1x112x224.size a ≤ S8x192x224x224.size a
  k0_off66_inb : ∀ i : grid0.Coords, ∀ a, (k0_off66 i) a + S1x1x112x224.size a ≤ S8x192x224x224.size a
  k0_off69_inb : ∀ i : grid0.Coords, ∀ a, (k0_off69 i) a + S1x1x112x224.size a ≤ S8x192x224x224.size a
  k0_off72_inb : ∀ i : grid0.Coords, ∀ a, (k0_off72 i) a + S1x1x112x224.size a ≤ S8x192x224x224.size a
  k0_off75_inb : ∀ i : grid0.Coords, ∀ a, (k0_off75 i) a + S1x1x112x224.size a ≤ S8x192x224x224.size a
  k0_off78_inb : ∀ i : grid0.Coords, ∀ a, (k0_off78 i) a + S1x1x112x224.size a ≤ S8x192x224x224.size a
  k0_off81_inb : ∀ i : grid0.Coords, ∀ a, (k0_off81 i) a + S1x1x112x224.size a ≤ S8x192x224x224.size a
  k0_off84_inb : ∀ i : grid0.Coords, ∀ a, (k0_off84 i) a + S1x1x112x224.size a ≤ S8x192x224x224.size a
  k0_off87_inb : ∀ i : grid0.Coords, ∀ a, (k0_off87 i) a + S1x1x112x224.size a ≤ S8x192x224x224.size a
  k0_off90_inb : ∀ i : grid0.Coords, ∀ a, (k0_off90 i) a + S1x1x112x224.size a ≤ S8x192x224x224.size a
  k0_off93_inb : ∀ i : grid0.Coords, ∀ a, (k0_off93 i) a + S1x1x112x224.size a ≤ S8x192x224x224.size a
  k0_off96_inb : ∀ i : grid0.Coords, ∀ a, (k0_off96 i) a + S1x1x112x224.size a ≤ S8x192x224x224.size a
  k0_off99_inb : ∀ i : grid0.Coords, ∀ a, (k0_off99 i) a + S1x1x112x224.size a ≤ S8x192x224x224.size a
  k0_off102_inb : ∀ i : grid0.Coords, ∀ a, (k0_off102 i) a + S1x1x112x224.size a ≤ S8x192x224x224.size a
  k0_off105_inb : ∀ i : grid0.Coords, ∀ a, (k0_off105 i) a + S1x1x112x224.size a ≤ S8x192x224x224.size a
  k0_off108_inb : ∀ i : grid0.Coords, ∀ a, (k0_off108 i) a + S1x1x112x224.size a ≤ S8x192x224x224.size a
  k0_off111_inb : ∀ i : grid0.Coords, ∀ a, (k0_off111 i) a + S1x1x112x224.size a ≤ S8x192x224x224.size a
  k0_off114_inb : ∀ i : grid0.Coords, ∀ a, (k0_off114 i) a + S1x1x112x224.size a ≤ S8x192x224x224.size a
  k0_off117_inb : ∀ i : grid0.Coords, ∀ a, (k0_off117 i) a + S1x1x112x224.size a ≤ S8x192x224x224.size a
  k0_off120_inb : ∀ i : grid0.Coords, ∀ a, (k0_off120 i) a + S1x1x112x224.size a ≤ S8x192x224x224.size a
  k0_off123_inb : ∀ i : grid0.Coords, ∀ a, (k0_off123 i) a + S1x1x112x224.size a ≤ S8x192x224x224.size a
  k0_off126_inb : ∀ i : grid0.Coords, ∀ a, (k0_off126 i) a + S1x1x112x224.size a ≤ S8x192x224x224.size a
  k0_off129_inb : ∀ i : grid0.Coords, ∀ a, (k0_off129 i) a + S1x1x112x224.size a ≤ S8x192x224x224.size a
  k0_off132_inb : ∀ i : grid0.Coords, ∀ a, (k0_off132 i) a + S1x1x112x224.size a ≤ S8x192x224x224.size a
  k0_off135_inb : ∀ i : grid0.Coords, ∀ a, (k0_off135 i) a + S1x1x112x224.size a ≤ S8x192x224x224.size a
  k0_off138_inb : ∀ i : grid0.Coords, ∀ a, (k0_off138 i) a + S1x1x112x224.size a ≤ S8x192x224x224.size a
  k0_off141_inb : ∀ i : grid0.Coords, ∀ a, (k0_off141 i) a + S1x1x112x224.size a ≤ S8x192x224x224.size a
  k0_off144_inb : ∀ i : grid0.Coords, ∀ a, (k0_off144 i) a + S1x1x112x224.size a ≤ S8x192x224x224.size a
  k0_off147_inb : ∀ i : grid0.Coords, ∀ a, (k0_off147 i) a + S1x1x112x224.size a ≤ S8x192x224x224.size a
  k0_off150_inb : ∀ i : grid0.Coords, ∀ a, (k0_off150 i) a + S1x1x112x224.size a ≤ S8x192x224x224.size a
  k0_off153_inb : ∀ i : grid0.Coords, ∀ a, (k0_off153 i) a + S1x1x112x224.size a ≤ S8x192x224x224.size a
  k0_off156_inb : ∀ i : grid0.Coords, ∀ a, (k0_off156 i) a + S1x1x112x224.size a ≤ S8x192x224x224.size a
  k0_off159_inb : ∀ i : grid0.Coords, ∀ a, (k0_off159 i) a + S1x1x112x224.size a ≤ S8x192x224x224.size a
  k0_off162_inb : ∀ i : grid0.Coords, ∀ a, (k0_off162 i) a + S1x1x112x224.size a ≤ S8x192x224x224.size a
  k0_off165_inb : ∀ i : grid0.Coords, ∀ a, (k0_off165 i) a + S1x1x112x224.size a ≤ S8x192x224x224.size a
  k0_off168_inb : ∀ i : grid0.Coords, ∀ a, (k0_off168 i) a + S1x1x112x224.size a ≤ S8x192x224x224.size a
  k0_off171_inb : ∀ i : grid0.Coords, ∀ a, (k0_off171 i) a + S1x1x112x224.size a ≤ S8x192x224x224.size a
  k0_off174_inb : ∀ i : grid0.Coords, ∀ a, (k0_off174 i) a + S1x1x112x224.size a ≤ S8x192x224x224.size a
  k0_off177_inb : ∀ i : grid0.Coords, ∀ a, (k0_off177 i) a + S1x1x112x224.size a ≤ S8x192x224x224.size a
  k0_off180_inb : ∀ i : grid0.Coords, ∀ a, (k0_off180 i) a + S1x1x112x224.size a ≤ S8x192x224x224.size a
  k0_off183_inb : ∀ i : grid0.Coords, ∀ a, (k0_off183 i) a + S1x1x112x224.size a ≤ S8x192x224x224.size a
  k0_off186_inb : ∀ i : grid0.Coords, ∀ a, (k0_off186 i) a + S1x1x112x224.size a ≤ S8x192x224x224.size a
  k0_off189_inb : ∀ i : grid0.Coords, ∀ a, (k0_off189 i) a + S1x1x112x224.size a ≤ S8x192x224x224.size a
  k0_off192_inb : ∀ i : grid0.Coords, ∀ a, (k0_off192 i) a + S1x1x112x224.size a ≤ S8x192x224x224.size a
  k0_off195_inb : ∀ i : grid0.Coords, ∀ a, (k0_off195 i) a + S1x1x112x224.size a ≤ S8x192x224x224.size a
  k0_off198_inb : ∀ i : grid0.Coords, ∀ a, (k0_off198 i) a + S1x1x112x224.size a ≤ S8x192x224x224.size a
  k0_off201_inb : ∀ i : grid0.Coords, ∀ a, (k0_off201 i) a + S1x1x112x224.size a ≤ S8x192x224x224.size a
  k0_off204_inb : ∀ i : grid0.Coords, ∀ a, (k0_off204 i) a + S1x1x112x224.size a ≤ S8x192x224x224.size a
  k0_off207_inb : ∀ i : grid0.Coords, ∀ a, (k0_off207 i) a + S1x1x112x224.size a ≤ S8x192x224x224.size a
  k0_off210_inb : ∀ i : grid0.Coords, ∀ a, (k0_off210 i) a + S1x1x112x224.size a ≤ S8x192x224x224.size a
  k0_off213_inb : ∀ i : grid0.Coords, ∀ a, (k0_off213 i) a + S1x1x112x224.size a ≤ S8x192x224x224.size a
  k0_off216_inb : ∀ i : grid0.Coords, ∀ a, (k0_off216 i) a + S1x1x112x224.size a ≤ S8x192x224x224.size a
  k0_off219_inb : ∀ i : grid0.Coords, ∀ a, (k0_off219 i) a + S1x1x112x224.size a ≤ S8x192x224x224.size a
  k0_off222_inb : ∀ i : grid0.Coords, ∀ a, (k0_off222 i) a + S1x1x112x224.size a ≤ S8x192x224x224.size a
  k0_off225_inb : ∀ i : grid0.Coords, ∀ a, (k0_off225 i) a + S1x1x112x224.size a ≤ S8x192x224x224.size a
  k0_off228_inb : ∀ i : grid0.Coords, ∀ a, (k0_off228 i) a + S1x1x112x224.size a ≤ S8x192x224x224.size a
  k0_off231_inb : ∀ i : grid0.Coords, ∀ a, (k0_off231 i) a + S1x1x112x224.size a ≤ S8x192x224x224.size a
  k0_off234_inb : ∀ i : grid0.Coords, ∀ a, (k0_off234 i) a + S1x1x112x224.size a ≤ S8x192x224x224.size a
  k0_off237_inb : ∀ i : grid0.Coords, ∀ a, (k0_off237 i) a + S1x1x112x224.size a ≤ S8x192x224x224.size a
  k0_off240_inb : ∀ i : grid0.Coords, ∀ a, (k0_off240 i) a + S1x1x112x224.size a ≤ S8x192x224x224.size a
  k0_off243_inb : ∀ i : grid0.Coords, ∀ a, (k0_off243 i) a + S1x1x112x224.size a ≤ S8x192x224x224.size a
  k0_off246_inb : ∀ i : grid0.Coords, ∀ a, (k0_off246 i) a + S1x1x112x224.size a ≤ S8x192x224x224.size a
  k0_off249_inb : ∀ i : grid0.Coords, ∀ a, (k0_off249 i) a + S1x1x112x224.size a ≤ S8x192x224x224.size a
  k0_off252_inb : ∀ i : grid0.Coords, ∀ a, (k0_off252 i) a + S1x1x112x224.size a ≤ S8x192x224x224.size a
  k0_off255_inb : ∀ i : grid0.Coords, ∀ a, (k0_off255 i) a + S1x1x112x224.size a ≤ S8x192x224x224.size a
  k0_off258_inb : ∀ i : grid0.Coords, ∀ a, (k0_off258 i) a + S1x1x112x224.size a ≤ S8x192x224x224.size a
  k0_off261_inb : ∀ i : grid0.Coords, ∀ a, (k0_off261 i) a + S1x1x112x224.size a ≤ S8x192x224x224.size a
  k0_off264_inb : ∀ i : grid0.Coords, ∀ a, (k0_off264 i) a + S1x1x112x224.size a ≤ S8x192x224x224.size a
  k0_off267_inb : ∀ i : grid0.Coords, ∀ a, (k0_off267 i) a + S1x1x112x224.size a ≤ S8x192x224x224.size a
  k0_off270_inb : ∀ i : grid0.Coords, ∀ a, (k0_off270 i) a + S1x1x112x224.size a ≤ S8x192x224x224.size a
  k0_off273_inb : ∀ i : grid0.Coords, ∀ a, (k0_off273 i) a + S1x1x112x224.size a ≤ S8x192x224x224.size a
  k0_off276_inb : ∀ i : grid0.Coords, ∀ a, (k0_off276 i) a + S1x1x112x224.size a ≤ S8x192x224x224.size a
  k0_off279_inb : ∀ i : grid0.Coords, ∀ a, (k0_off279 i) a + S1x1x112x224.size a ≤ S8x192x224x224.size a
  k0_off282_inb : ∀ i : grid0.Coords, ∀ a, (k0_off282 i) a + S1x1x112x224.size a ≤ S8x192x224x224.size a
  k0_off285_inb : ∀ i : grid0.Coords, ∀ (r : Fin 2), ∀ a, (k0_off285 i (BitVec.ofNat 32 (46 + r.val))) a + S1x1x112x224.size a ≤ S8x192x224x224.size a
  k0_off287_inb : ∀ i : grid0.Coords, ∀ a, (k0_off287 i) a + S1x1x112x224.size a ≤ S8x192x224x224.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0

class Facts : Prop extends Facts₀ where

variable [Facts]
-- ==== ReferenceIdeal.lean ====
abbrev S8x192x224x224 : Shape := ⟨4, ![8, 192, 224, 224]⟩
abbrev S192 : Shape := ⟨1, ![192]⟩
abbrev S_ : Shape := ⟨0, ![]⟩
abbrev S192x1 : Shape := ⟨2, ![192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S192, .i32⟩
  | .hbm, ⟨2, _⟩ => ⟨S_, .i32⟩
  | .hbm, ⟨3, _⟩ => ⟨S192, .i32⟩
  | .hbm, ⟨4, _⟩ => ⟨S192, .i1⟩
  | .hbm, ⟨5, _⟩ => ⟨S_, .i32⟩
  | .hbm, ⟨6, _⟩ => ⟨S192, .i32⟩
  | .hbm, ⟨7, _⟩ => ⟨S192, .i32⟩
  | .hbm, ⟨8, _⟩ => ⟨S192, .i32⟩
  | .hbm, ⟨9, _⟩ => ⟨S192x1, .i32⟩
  | .hbm, ⟨10, _⟩ => ⟨S1, .i32⟩
  | .hbm, ⟨11, _⟩ => ⟨S_, .i32⟩
  | .hbm, ⟨12, _⟩ => ⟨S192x1, .i32⟩
  | .hbm, ⟨13, _⟩ => ⟨S192x1, .i1⟩
  | .hbm, ⟨14, _⟩ => ⟨S1x1, .i32⟩
  | .hbm, ⟨15, _⟩ => ⟨S192x1, .i32⟩
  | .hbm, ⟨16, _⟩ => ⟨S192x1, .i1⟩
  | .hbm, ⟨17, _⟩ => ⟨S192x1, .i1⟩
  | .hbm, ⟨18, _⟩ => ⟨S_, .i1⟩
  | .hbm, ⟨19, _⟩ => ⟨S192, .i1⟩
  | .hbm, ⟨20, _⟩ => ⟨S8x192x224x224, .f32⟩
  | .hbm, ⟨21, _⟩ => ⟨S8x192x224x224, .i1⟩
  | .hbm, ⟨22, _⟩ => ⟨S_, .f32⟩
  | .hbm, ⟨23, _⟩ => ⟨S8x192x224x224, .f32⟩
  | .hbm, ⟨24, _⟩ => ⟨S8x192x224x224, .f32⟩
  | .hbm, ⟨25, _⟩ => ⟨S_, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩

abbrev nD : Nat := 1
abbrev τ : Topo := Topo.v7x

variable {F : FTy → Type} [FloatOps F]

class Facts₀ : Prop where
  bcast_S_S192 : S_.BroadcastsInDim S192 (![] : Fin 0 → Fin S192.rank)
  bcast_S192_S192x1_0 : S192.BroadcastsInDim S192x1 (![0] : Fin 1 → Fin S192x1.rank)
  bcast_S_S192x1 : S_.BroadcastsInDim S192x1 (![] : Fin 0 → Fin S192x1.rank)
  bcast_S1_S1x1_1 : S1.BroadcastsInDim S1x1 (![1] : Fin 1 → Fin S1x1.rank)
  bcast_S1x1_S192x1_0_1 : S1x1.BroadcastsInDim S192x1 (![0, 1] : Fin 2 → Fin S192x1.rank)
  reducesTo_S192x1_S192_d1 : S192x1.ReducesTo [1] S192
  h_S_ : 0 < S_.numel
  bcast_S192_S8x192x224x224_1 : S192.BroadcastsInDim S8x192x224x224 (![1] : Fin 1 → Fin S8x192x224x224.rank)
  bcast_S_S8x192x224x224 : S_.BroadcastsInDim S8x192x224x224 (![] : Fin 0 → Fin S8x192x224x224.rank)
  gather_S8x192x224x224_S192x1_S8x192x224x224_023_1_n_n_1_1_81224224_wf : GatherDims.WF S8x192x224x224 S192x1 S8x192x224x224 [0, 2, 3] [1] [] [1] [] 1 ![8, 1, 224, 224]

variable [Facts₀]

def gather_S8x192x224x224_S192x1_S8x192x224x224_023_1_n_n_1_1_81224224 : GatherDims S8x192x224x224 S192x1 S8x192x224x224 where
  offsetDims := [0, 2, 3]
  collapsedSliceDims := [1]
  operandBatchingDims := []
  startIndicesBatchingDims := []
  startIndexMap := [1]
  indexVectorDim := 1
  sliceSizes := ![8, 1, 224, 224]
  wf := gather_S8x192x224x224_S192x1_S8x192x224x224_023_1_n_n_1_1_81224224_wf

class Facts : Prop extends Facts₀ where

variable [Facts]
-- ==== Proof.Spec.lean ====
import Idealize.ShloMosaic.Lib.ValueIdx

namespace Cert.Spec

open Idealize.ShloMosaic Idealize.ShloMosaic.ValueIdx

abbrev SX : Shape := ⟨4, ![8, 192, 224, 224]⟩
abbrev SP : Shape := ⟨1, ![192]⟩

/-- out[b, c, h, w] = x[b, perm[c], h, w]; the index word is reduced modulo 192 so that the function is total. -/
def chan (p : SP.Idx → BitVec 32) (c : Fin 192) : Fin 192 :=
  ⟨(p (ix1 c)).toNat % 192, Nat.mod_lt _ (by decide)⟩

def src (p : SP.Idx → BitVec 32) (j : SX.Idx) : SX.Idx :=
  ix4 (n0 := 8) (n1 := 192) (n2 := 224) (n3 := 224) (j 0) (chan p (j 1)) (j 2) (j 3)

def G {α : Type} (x : SX.Idx → α) (p : SP.Idx → BitVec 32) : SX.Idx → α :=
  fun j => x (src p j)

theorem chan_val {p : SP.Idx → BitVec 32} {c : Fin 192} (h : (p (ix1 c)).toNat < 192) :
    (chan p c).val = (p (ix1 c)).toNat := Nat.mod_eq_of_lt h

end Cert.Spec
-- ==== Proof.RefRun.lean ====
import proofs.«215561_g44298292691222_cont_8to1_c_1064_17_alg».proof.Defs
import Idealize.ShloMosaic.Lib.StableHlo.Run
import Idealize.ShloMosaic.Lib.ValueIdx
import Idealize.ShloMosaic.Lib.ReduceAll
import Idealize.ShloMosaic.Lib.StableHlo.Predicate
import proofs.«215561_g44298292691222_cont_8to1_c_1064_17_alg».proof.Proof.Gen.ReferenceIdeal
import proofs.«215561_g44298292691222_cont_8to1_c_1064_17_alg».proof.Proof.Gen.Pre_input_domain
import proofs.«215561_g44298292691222_cont_8to1_c_1064_17_alg».proof.Proof.Spec

noncomputable section

namespace Cert.Proof.Ref

open Idealize.ShloMosaic Idealize.ShloMosaic.TcCoe Idealize.SL.Sem Idealize.ShloMosaic.StableHlo

/-- The precondition, read at an index: every index word is between 0 and 191. -/
theorem perm_lt {F : FTy → Type} [FloatOps F] [Cert.Pre_input_domain.Facts]
    (x : FVec F Cert.Pre_input_domain.S8x192x224x224 .f32) (p : IVec Cert.Pre_input_domain.S192 32)
    (h : Cert.Pre_input_domain.fn (F := F) x p = fun _ => 1#1) : ∀ j, (p j).toNat < 192 := by
  intro j
  dsimp only [Cert.Pre_input_domain.fn] at h
  have h0 := congrFun h (fun a => a.elim0)
  simp only [andi] at h0
  obtain ⟨-, h2⟩ := IntOp.andi_eq_one.1 h0
  have h3 := Host.reduce_andi_all _ _ _ _ _ h2 j
  simp only [andi, cmpi, broadcastInDim, constantI] at h3
  obtain ⟨hge, hle⟩ := IntOp.andi_eq_one.1 h3
  rw [IntOp.cmpi_sge] at hge
  rw [IntOp.cmpi_sle] at hle
  have e0 : (0#32 : BitVec 32).toInt = 0 := by decide
  have e191 : (191#32 : BitVec 32).toInt = 191 := by decide
  rw [e0] at hge
  rw [e191] at hle
  have hlt : 2 * (p j).toNat < 2 ^ 32 := BitVec.toInt_pos_iff.1 hge
  rw [BitVec.toInt_eq_toNat_of_lt hlt] at hle
  omega

open Cert.ReferenceIdeal Cert.ReferenceIdeal.Facts₀

section Run

variable {F : FTy → Type} [FloatOps F] [Cert.ReferenceIdeal.Facts]

abbrev ops : List (HloOp τ sig (Elt F)) :=
  [ TRef.nullary main_call0.c (constantI S_ 32 0#32),
    TRef.unary main_call0.c main_call0.v0 (broadcastInDim S192 ![] bcast_S_S192),
    TRef.binary (.of main_arg1) main_call0.v0 main_call0.v1 (cmpi .slt),
    TRef.nullary main_call0.c_0 (constantI S_ 32 192#32),
    TRef.unary main_call0.c_0 main_call0.v2 (broadcastInDim S192 ![] bcast_S_S192),
    TRef.binary (.of main_arg1) main_call0.v2 main_call0.v3 addi,
    TRef.ternary main_call0.v1 main_call0.v3 (.of main_arg1) main_call0.call0.v0 select,
    TRef.unary main_call0.call0.v0 main_call0.v5 (broadcastInDim S192x1 ![0] bcast_S192_S192x1_0),
    TRef.nullary main_call0.c_1 (constantI S1 32 191#32),
    TRef.nullary main_call0.c_2 (constantI S_ 32 0#32),
    TRef.unary main_call0.c_2 main_call0.v6 (broadcastInDim S192x1 ![] bcast_S_S192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S192x1 ![0, 1] bcast_S1x1_S192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S192x1_S192_d1 h_S_),
    TRef.binary (.of main_arg0) main_call0.v5 main_call0.v13 (fun x i => Host.gather gather_S8x192x224x224_S192x1_S8x192x224x224_023_1_n_n_1_1_81224224 x i),
    TRef.unary main_call0.v12 main_call0.v14 (broadcastInDim S8x192x224x224 ![1] bcast_S192_S8x192x224x224_1),
    TRef.nullary main_call0.cst (constant S_ .f32 0x7FC00000#32),
    TRef.unary main_call0.cst main_call0.v15 (broadcastInDim S8x192x224x224 ![] bcast_S_S8x192x224x224),
    TRef.ternary main_call0.v14 main_call0.v13 main_call0.v15 main_call0.v16 select,
    nullary main_cst (constant S_ .f32 0x00000000#32) ]

set_option maxRecDepth 2048 in

theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..⟩

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Run

open Idealize.ShloMosaic.ValueIdx

section Gather

variable [Cert.ReferenceIdeal.Facts₀]

local notation "gd" => Cert.ReferenceIdeal.gather_S8x192x224x224_S192x1_S8x192x224x224_023_1_n_n_1_1_81224224

theorem gd_sim : (gd).startIndexMap = [1] := rfl
theorem gd_sKept : (gd).sKept = [0, 2, 3] := by
  show Cert.ReferenceIdeal.S8x192x224x224.kept ([1] ++ []) = _
  decide

theorem gather_apply {α : Type} {w : Nat} (x : Cert.ReferenceIdeal.S8x192x224x224.Idx → α)
    (idx : IVec Cert.ReferenceIdeal.S192x1 w) (j : Cert.ReferenceIdeal.S8x192x224x224.Idx) :
    Host.gather gd x idx j
      = x (ix4 (n0 := 8) (n1 := 192) (n2 := 224) (n3 := 224) (j 0)
            ⟨min (idx (ix2 (n0 := 192) (n1 := 1) (j 1) 0)).toInt.toNat 191, by omega⟩ (j 2) (j 3)) := by
  unfold Host.gather
  congr 1
  funext a
  refine Fin.ext ?_
  show (gd).start j idx a + (gd).batchCoord j a + (gd).offCoord j a = _
  rw [GatherDims.batchCoord_eq_zero _ _ _ List.not_mem_nil, Nat.add_zero]
  match a with
  | ⟨0, _⟩ =>
    have h1 : (⟨0, by decide⟩ : Fin 4) ∉ (gd).startIndexMap := by rw [gd_sim]; decide
    have h2 : (⟨0, by decide⟩ : Fin 4) ∈ (gd).sKept := by rw [gd_sKept]; decide
    unfold GatherDims.start GatherDims.offCoord
    rw [dif_neg h1, dif_pos h2, Nat.zero_add]
    rfl
  | ⟨1, _⟩ =>
    have h1 : (⟨1, by decide⟩ : Fin 4) ∈ (gd).startIndexMap := by rw [gd_sim]; decide
    have h2 : (⟨1, by decide⟩ : Fin 4) ∉ (gd).sKept := by rw [gd_sKept]; decide
    unfold GatherDims.start GatherDims.offCoord
    rw [dif_pos h1, dif_neg h2, Nat.add_zero]
    have hsi : (gd).siIdx j ⟨List.idxOf (⟨1, by decide⟩ : Fin 4) (gd).startIndexMap, List.idxOf_lt_length_iff.2 h1⟩
        = ix2 (n0 := 192) (n1 := 1) (j 1) 0 := by
      funext b; refine Fin.ext ?_
      match b with
      | ⟨0, _⟩ => rfl
      | ⟨1, _⟩ => rfl
    rw [hsi]
    rfl
  | ⟨2, _⟩ =>
    have h1 : (⟨2, by decide⟩ : Fin 4) ∉ (gd).startIndexMap := by rw [gd_sim]; decide
    have h2 : (⟨2, by decide⟩ : Fin 4) ∈ (gd).sKept := by rw [gd_sKept]; decide
    unfold GatherDims.start GatherDims.offCoord
    rw [dif_neg h1, dif_pos h2, Nat.zero_add]
    rfl
  | ⟨3, _⟩ =>
    have h1 : (⟨3, by decide⟩ : Fin 4) ∉ (gd).startIndexMap := by rw [gd_sim]; decide
    have h2 : (⟨3, by decide⟩ : Fin 4) ∈ (gd).sKept := by rw [gd_sKept]; decide
    unfold GatherDims.start GatherDims.offCoord
    rw [dif_neg h1, dif_pos h2, Nat.zero_add]
    rfl

end Gather

section Value

variable {F : FTy → Type} [FloatOps F] [Cert.ReferenceIdeal.Facts]

def nidx (p : IVec S192 32) : IVec S192 32 :=
  select (cmpi .slt p (broadcastInDim S192 ![] bcast_S_S192 (constantI S_ 32 0#32)))
    (addi p (broadcastInDim S192 ![] bcast_S_S192 (constantI S_ 32 192#32))) p

def icol (p : IVec S192 32) : IVec S192x1 32 := broadcastInDim S192x1 ![0] bcast_S192_S192x1_0 (nidx p)

def mask (p : IVec S192 32) : IVec S192 1 :=
  Host.reduce IntOp.andi
    (andi (cmpi .sge (icol p) (broadcastInDim S192x1 ![] bcast_S_S192x1 (constantI S_ 32 0#32)))
      (cmpi .sle (icol p) (broadcastInDim S192x1 ![0, 1] bcast_S1x1_S192x1_0_1
        (broadcastInDim S1x1 ![1] bcast_S1_S1x1_1 (constantI S1 32 191#32)))))
    (constantI S_ 1 1#1) reducesTo_S192x1_S192_d1 h_S_

def outv (x : FVec F S8x192x224x224 .f32) (p : IVec S192 32) : FVec F S8x192x224x224 .f32 :=
  select (broadcastInDim S8x192x224x224 ![1] bcast_S192_S8x192x224x224_1 (mask p))
    (Host.gather gather_S8x192x224x224_S192x1_S8x192x224x224_023_1_n_n_1_1_81224224 x (icol p))
    (broadcastInDim S8x192x224x224 ![] bcast_S_S8x192x224x224 (constant S_ .f32 0x7FC00000#32))

theorem toInt_small {w : BitVec 32} (h : w.toNat < 192) : w.toInt = (w.toNat : Int) :=
  BitVec.toInt_eq_toNat_of_lt (by omega)

theorem nidx_apply (p : IVec S192 32) (k : S192.Idx) (h : (p k).toNat < 192) : nidx p k = p k := by
  show Scalar.select (IntOp.cmpi .slt (p k) 0#32) (IntOp.addi (p k) 192#32) (p k) = p k
  have hz : IntOp.cmpi .slt (p k) 0#32 = 0#1 := by
    apply eq_zero_of_ne_one
    rw [IntOp.cmpi_slt, toInt_small h]
    have e0 : (0#32 : BitVec 32).toInt = 0 := by decide
    rw [e0]; omega
  rw [hz, select_zero]

theorem icol_apply (p : IVec S192 32) (i : S192x1.Idx) : icol p i = nidx p (ix1 (n := 192) (i 0)) := by
  simp only [icol, broadcastInDim]
  congr 1
  funext a
  match a with
  | ⟨0, _⟩ =>
    apply Fin.ext
    split
    · next h1 => change (192 : Nat) = 1 at h1; omega
    · rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

theorem mask_one (p : IVec S192 32) (hp : ∀ j, (p j).toNat < 192) (k : S192.Idx) : mask p k = 1#1 := by
  unfold mask
  rw [Host.reduce_eq_foldl]
  refine foldl_andi_one _ _ fun i _ => ?_
  show IntOp.andi (IntOp.cmpi .sge (icol p i) 0#32) (IntOp.cmpi .sle (icol p i) 191#32) = 1#1
  have hk := hp (ix1 (n := 192) (i 0))
  rw [icol_apply, nidx_apply p _ hk]
  refine IntOp.andi_eq_one.2 ⟨?_, ?_⟩
  · rw [IntOp.cmpi_sge, toInt_small hk]
    have e0 : (0#32 : BitVec 32).toInt = 0 := by decide
    rw [e0]; omega
  · rw [IntOp.cmpi_sle, toInt_small hk]
    have e1 : (191#32 : BitVec 32).toInt = 191 := by decide
    rw [e1]; omega

theorem outv_eq (x : FVec F S8x192x224x224 .f32) (p : IVec S192 32) (hp : ∀ j, (p j).toNat < 192) :
    outv x p = Cert.Spec.G x p := by
  funext j
  show Scalar.select (mask p _) (Host.gather gather_S8x192x224x224_S192x1_S8x192x224x224_023_1_n_n_1_1_81224224 x (icol p) j) _ = x (Cert.Spec.src p j)
  rw [mask_one p hp, select_one, gather_apply]
  congr 1
  funext a
  have hk := hp (ix1 (n := 192) (j 1))
  match a with
  | ⟨0, _⟩ => rfl
  | ⟨1, _⟩ =>
    apply Fin.ext
    show min (icol p (ix2 (n0 := 192) (n1 := 1) (j 1) 0)).toInt.toNat 191 = (p (ix1 (j 1))).toNat % 192
    rw [icol_apply, nidx_apply p _ hk, toInt_small hk, Int.toNat_natCast, Nat.mod_eq_of_lt hk]
    omega
  | ⟨2, _⟩ => rfl
  | ⟨3, _⟩ => rfl

end Value

section Final

variable {F : FTy → Type} [FloatOps F] [Cert.ReferenceIdeal.Facts]

attribute [local irreducible] Host.reduce Host.gather in
set_option maxRecDepth 8192 in

theorem out_eq (V : Valuation τ sig (Elt F)) :
    after ops V (main_v0 : DevRef τ sig) = outv (V (main_arg0 : DevRef τ sig)) (V (main_arg1 : DevRef τ sig)) := by
  after_results
  rfl

attribute [local irreducible] Host.reduce Host.gather in
set_option maxRecDepth 8192 in
theorem cst_eq (V : Valuation τ sig (Elt F)) :
    after ops V (main_cst : DevRef τ sig) = constant (F := F) S_ .f32 0x00000000#32 := by
  simp only [after_cons, after_nil]
  rfl

attribute [local irreducible] Host.reduce Host.gather in
set_option maxRecDepth 8192 in
theorem arg0_eq (V : Valuation τ sig (Elt F)) :
    after ops V (main_arg0 : DevRef τ sig) = V (main_arg0 : DevRef τ sig) := by
  simp only [after_cons, after_nil]
  rfl

attribute [local irreducible] Host.reduce Host.gather in
set_option maxRecDepth 8192 in
theorem arg1_eq (V : Valuation τ sig (Elt F)) :
    after ops V (main_arg1 : DevRef τ sig) = V (main_arg1 : DevRef τ sig) := by
  simp only [after_cons, after_nil]
  rfl

end Final

/-- The reference ends with the first result the channel permutation of its arguments, the second the zero scalar, the arguments unchanged. -/
theorem run [Cert.ReferenceIdeal.Facts] [Cert.Pre_input_domain.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread _ Cert.ReferenceIdeal.τ).loc Cert.ReferenceIdeal.main_v0) = Cert.Spec.G (m' ((c.tc : Thread _ Cert.ReferenceIdeal.τ).loc Cert.ReferenceIdeal.main_arg0)) (m' ((c.tc : Thread _ Cert.ReferenceIdeal.τ).loc Cert.ReferenceIdeal.main_arg1))
        ∧ r.2.mem ((c.tc : Thread _ Cert.ReferenceIdeal.τ).loc Cert.ReferenceIdeal.main_cst) = constant (F := Ideal) Cert.ReferenceIdeal.S_ .f32 0x00000000#32
        ∧ r.2.mem ((c.tc : Thread _ Cert.ReferenceIdeal.τ).loc Cert.ReferenceIdeal.main_arg0) = m' ((c.tc : Thread _ Cert.ReferenceIdeal.τ).loc Cert.ReferenceIdeal.main_arg0)
        ∧ r.2.mem ((c.tc : Thread _ Cert.ReferenceIdeal.τ).loc Cert.ReferenceIdeal.main_arg1) = m' ((c.tc : Thread _ Cert.ReferenceIdeal.τ).loc Cert.ReferenceIdeal.main_arg1)) := by
  refine (θ_run _ _ _).mono (fun r h c => ?_) (run_all (F := Ideal) m' g')
  have hp := perm_lt _ _ (hpre c)
  exact ⟨(h c main_v0).trans ((out_eq _).trans (outv_eq _ _ hp)),
    (h c main_cst).trans (cst_eq _),
    (h c main_arg0).trans (arg0_eq _),
    (h c main_arg1).trans (arg1_eq _)⟩

end Cert.Proof.Ref

end
-- ==== Proof.KI.Setup.lean ====
import proofs.«215561_g44298292691222_cont_8to1_c_1064_17_alg».proof.Defs
import proofs.«215561_g44298292691222_cont_8to1_c_1064_17_alg».proof.Proof.Spec
import Idealize.ShloMosaic.Lib.Transfers
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215561_g44298292691222_cont_8to1_c_1064_17_alg».proof.Proof.Gen.KernelIdeal
import proofs.«215561_g44298292691222_cont_8to1_c_1064_17_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The three arrays and the tile's five buffers, each as the whole memref the kernel function is handed. -/
scoped notation "xW" => (Memref.whole Cert.KernelIdeal.main_arg0_scv : Memref Cert.KernelIdeal.sig Kind.scVector Space.hbm Cert.KernelIdeal.S8x192x224x224 EltTy.f32)
scoped notation "pW" => (Memref.whole Cert.KernelIdeal.main_arg1_scv : Memref Cert.KernelIdeal.sig Kind.scVector Space.hbm Cert.KernelIdeal.S192 EltTy.i32)
scoped notation "oW" => (Memref.whole Cert.KernelIdeal.main_v0_scv : Memref Cert.KernelIdeal.sig Kind.scVector Space.hbm Cert.KernelIdeal.S8x192x224x224 EltTy.f32)
scoped notation "s0W" => (Memref.whole Cert.KernelIdeal.cc0_scratch0 : Memref Cert.KernelIdeal.sig Kind.scVector Space.vmem Cert.KernelIdeal.S192 EltTy.i32)
scoped notation "s1W" => (Memref.whole Cert.KernelIdeal.cc0_scratch1 : Memref Cert.KernelIdeal.sig Kind.scVector Space.vmem Cert.KernelIdeal.S112x224 EltTy.f32)
scoped notation "s2W" => (Memref.whole Cert.KernelIdeal.cc0_scratch2 : Memref Cert.KernelIdeal.sig Kind.scVector Space.vmem Cert.KernelIdeal.S112x224 EltTy.f32)
scoped notation "s3W" => (Memref.whole Cert.KernelIdeal.cc0_scratch3 : Memref Cert.KernelIdeal.sig Kind.scVector Space.vmem Cert.KernelIdeal.S112x224 EltTy.f32)
scoped notation "s4W" => (Memref.whole Cert.KernelIdeal.cc0_scratch4 : Memref Cert.KernelIdeal.sig Kind.scVector Space.vmem Cert.KernelIdeal.S112x224 EltTy.f32)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_cst

def coordsV (c : Fin (grid0.bound 0)) (s : Fin (grid0.bound 1)) : grid0.Coords :=
  fun | 0 => c | 1 => s | ⟨_ + 2, h⟩ => absurd h (Nat.not_lt.2 (Nat.le_add_left _ _))

abbrev thrV (d : Dev nD) (L : grid0.Coords) : Thread nD τ := V d ((L 0).castLE hcore0) ((L 1).castLE hsub0)

/-- Tile `s` of core `c` is worker `2 s + c` of 32; worker `w` serves batch element `w / 4` and the 48 channels from `(w % 4) · 48`. -/
def wid (L : grid0.Coords) : ℕ := 2 * (L 1).val + (L 0).val
def bOf (L : grid0.Coords) : ℕ := wid L / 4
def cBase (L : grid0.Coords) : ℕ := wid L % 4 * 48

theorem wid_lt (L : grid0.Coords) : wid L < 32 := by
  have h0 : (L 0).val < 2 := (L 0).isLt
  have h1 : (L 1).val < 16 := (L 1).isLt
  unfold wid; omega
theorem bOf_lt (L : grid0.Coords) : bOf L < 8 := by have := wid_lt L; unfold bOf; omega
theorem cBase_le (L : grid0.Coords) : cBase L ≤ 144 := by unfold cBase; omega

/-- Piece `n = 2 l + h` of a tile is half `h` (112 rows) of the plane of its channel `l`. -/
def sliceOff (L : grid0.Coords) (n : Fin 96) : Fin 4 → ℕ := ![bOf L, cBase L + n.val / 2, 112 * (n.val % 2), 0]

theorem sliceOff_inb (L : grid0.Coords) (n : Fin 96) : ∀ a, sliceOff L n a + S1x1x112x224.size a ≤ S8x192x224x224.size a := by
  have hb := bOf_lt L
  have hc := cBase_le L
  have hn : n.val < 96 := n.isLt
  intro a
  match a with
  | ⟨0, _⟩ => show bOf L + 1 ≤ 8; omega
  | ⟨1, _⟩ => show cBase L + n.val / 2 + 1 ≤ 192; omega
  | ⟨2, _⟩ => show 112 * (n.val % 2) + 112 ≤ 224; omega
  | ⟨3, _⟩ => show 0 + 224 ≤ 224; omega

abbrev sliceRect (L : grid0.Coords) (n : Fin 96) : Rect S8x192x224x224 :=
  Rect.unit (s := S8x192x224x224) (sliceOff L n) S1x1x112x224.size (sliceOff_inb L n)

def slSet (L : grid0.Coords) (n : Fin 96) : Finset S8x192x224x224.Idx := (sliceRect L n).set

/-- Both inputs are only read: each core gets one read share, each tile one share of its core's. -/
abbrev qC (c : Fin 2) : PosShare TreeShare := Transfers.shareTok fullShare 2 c
abbrev qT (c : Fin 2) (i : Fin 16) : PosShare TreeShare := Transfers.shareTok (qC c) 16 i

variable (m : (ℓ : Loc nD τ sig) → Buf (Elt F) ℓ)

abbrev Gm (d : Dev nD) : Buf (Elt F) (oLoc d) := Cert.Spec.G (m (xLoc d)) (m (pLoc d))

/-- A tile is handed its read shares and its 96 pieces at the launch contents, and hands them back at the channel permutation. -/
def goT (d : Dev nD) (c : Fin 2) (i : Fin 16) : sProp 𝕄 :=
  iprop((xLoc d ↦{qT c i} m (xLoc d)) ∗ (pLoc d ↦{qT c i} m (pLoc d))
    ∗ bigSep Finset.univ fun n : Fin 96 => oLoc d ↦[slSet (coordsV c i) n]{fullShare} m (oLoc d))

def tdT (d : Dev nD) (c : Fin 2) (i : Fin 16) : sProp 𝕄 :=
  iprop((xLoc d ↦{qT c i} m (xLoc d)) ∗ (pLoc d ↦{qT c i} m (pLoc d))
    ∗ bigSep Finset.univ fun n : Fin 96 => oLoc d ↦[slSet (coordsV c i) n]{fullShare} Gm m d)

/-- A core is handed, and hands back, the same for all its tiles. -/
def stC (d : Dev nD) (c : Fin 2) : sProp 𝕄 :=
  iprop((xLoc d ↦{qC c} m (xLoc d)) ∗ (pLoc d ↦{qC c} m (pLoc d))
    ∗ bigSep Finset.univ fun i : Fin 16 => bigSep Finset.univ fun n : Fin 96 => oLoc d ↦[slSet (coordsV c i) n]{fullShare} m (oLoc d))
def dnC (d : Dev nD) (c : Fin 2) : sProp 𝕄 :=
  iprop((xLoc d ↦{qC c} m (xLoc d)) ∗ (pLoc d ↦{qC c} m (pLoc d))
    ∗ bigSep Finset.univ fun i : Fin 16 => bigSep Finset.univ fun n : Fin 96 => oLoc d ↦[slSet (coordsV c i) n]{fullShare} Gm m d)

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P stC; infer_instance
  dn q d c := match q with | 0 => by unfold P dnC; infer_instance
  go q d c i := match q with | 0 => by unfold P goT; infer_instance
  td q d c i := match q with | 0 => by unfold P tdT; infer_instance

def PreOK (d : Dev nD) : Prop := ∀ j, (m (pLoc d) j).toNat < 192

end Cert.Proof.KI

end
-- ==== Proof.KI.Value.lean ====
import proofs.«215561_g44298292691222_cont_8to1_c_1064_17_alg».proof.Proof.KI.Setup

noncomputable section

namespace Cert.Proof.KI

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI

/-- The 112 × 224 piece of `M` at `off`: one batch element, one channel, 112 rows, the two unit axes dropped. -/
abbrev pieceOfM (M : Memref sig .scVector .hbm S8x192x224x224 .f32) (off : Fin 4 → ℕ)
    (hin : ∀ a, off a + S1x1x112x224.size a ≤ S8x192x224x224.size a) : Memref sig .scVector .hbm S112x224 .f32 :=
  (M.slice (Rect.unit (s := S8x192x224x224) off S1x1x112x224.size hin) (fun _ => rfl)).squeeze S112x224 squeezes_S1x1x112x224_S112x224

abbrev xPiece (off : Fin 4 → ℕ) (hin : ∀ a, off a + S1x1x112x224.size a ≤ S8x192x224x224.size a) :
    Memref sig .scVector .hbm S112x224 .f32 := pieceOfM xW off hin
abbrev oPiece (off : Fin 4 → ℕ) (hin : ∀ a, off a + S1x1x112x224.size a ≤ S8x192x224x224.size a) :
    Memref sig .scVector .hbm S112x224 .f32 := pieceOfM oW off hin

theorem pc_lt0 {off : Fin 4 → ℕ} (hin : ∀ a, off a + S1x1x112x224.size a ≤ S8x192x224x224.size a) : off 0 < 8 := by
  have := hin 0; change off 0 + 1 ≤ 8 at this; omega
theorem pc_lt1 {off : Fin 4 → ℕ} (hin : ∀ a, off a + S1x1x112x224.size a ≤ S8x192x224x224.size a) : off 1 < 192 := by
  have := hin 1; change off 1 + 1 ≤ 192 at this; omega
theorem pc_lt2 {off : Fin 4 → ℕ} (hin : ∀ a, off a + S1x1x112x224.size a ≤ S8x192x224x224.size a) (y : S112x224.Idx) :
    off 2 + (y 0).val < 224 := by
  have := hin 2; change off 2 + 112 ≤ 224 at this; have : (y 0).val < 112 := (y 0).isLt; omega
theorem pc_lt3 {off : Fin 4 → ℕ} (hin : ∀ a, off a + S1x1x112x224.size a ≤ S8x192x224x224.size a) (y : S112x224.Idx) :
    off 3 + (y 1).val < 224 := by
  have := hin 3; change off 3 + 224 ≤ 224 at this; have : (y 1).val < 224 := (y 1).isLt; omega

/-- Element `y` of the piece at `off` is `(off 0, off 1, off 2 + y 0, off 3 + y 1)` of the whole array. -/
abbrev pieceIdx (off : Fin 4 → ℕ) (hin : ∀ a, off a + S1x1x112x224.size a ≤ S8x192x224x224.size a) (y : S112x224.Idx) :
    S8x192x224x224.Idx :=
  ix4 (n0 := 8) (n1 := 192) (n2 := 224) (n3 := 224) ⟨off 0, pc_lt0 hin⟩ ⟨off 1, pc_lt1 hin⟩
    ⟨off 2 + (y 0).val, pc_lt2 hin y⟩ ⟨off 3 + (y 1).val, pc_lt3 hin y⟩

/-- Dropping the two unit axes keeps the row-major order. -/
theorem unsqueeze_eq (h : S112x224.numel = S1x1x112x224.numel) (y : S112x224.Idx) :
    Shape.reshapeEquiv h y = ix4 (n0 := 1) (n1 := 1) (n2 := 112) (n3 := 224) ⟨0, Nat.one_pos⟩ ⟨0, Nat.one_pos⟩ (y 0) (y 1) :=
  Shape.reshapeEquiv_eq_of_rowMajor h (by
    rw [Shape.rowMajor_val_four, Shape.rowMajor_val_two]
    show ((0 * 1 + 0) * 112 + (y 0).val) * 224 + (y 1).val = (y 0).val * 224 + (y 1).val
    omega)

theorem emb_pieceOfM (M : Memref sig .scVector .hbm S8x192x224x224 .f32) (off : Fin 4 → ℕ)
    (hin : ∀ a, off a + S1x1x112x224.size a ≤ S8x192x224x224.size a) (y : S112x224.Idx) :
    (pieceOfM M off hin).view.emb y = M.view.emb (pieceIdx off hin y) := by
  show M.view.emb ((Rect.unit (s := S8x192x224x224) off S1x1x112x224.size hin).emb
    (Shape.reshapeEquiv squeezes_S1x1x112x224_S112x224.numel_eq y)) = _
  rw [unsqueeze_eq]
  congr 1
  funext a
  refine Fin.ext ?_
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

theorem emb_piece_x (off : Fin 4 → ℕ) (hin : ∀ a, off a + S1x1x112x224.size a ≤ S8x192x224x224.size a) (y : S112x224.Idx) :
    (xPiece off hin).view.emb y = pieceIdx off hin y :=
  emb_pieceOfM xW off hin y
theorem emb_piece_o (off : Fin 4 → ℕ) (hin : ∀ a, off a + S1x1x112x224.size a ≤ S8x192x224x224.size a) (y : S112x224.Idx) :
    (oPiece off hin).view.emb y = pieceIdx off hin y :=
  emb_pieceOfM oW off hin y

theorem set_piece_o (off : Fin 4 → ℕ) (hin : ∀ a, off a + S1x1x112x224.size a ≤ S8x192x224x224.size a) :
    (oPiece off hin).view.set = (Rect.unit (s := S8x192x224x224) off S1x1x112x224.size hin).set :=
  (View.set_reshape ..).trans (View.set_slice_whole main_v0_scv _)
theorem set_piece_slice (L : grid0.Coords) (n : Fin 96) (off : Fin 4 → ℕ)
    (hin : ∀ a, off a + S1x1x112x224.size a ≤ S8x192x224x224.size a) (h : off = sliceOff L n) :
    (oPiece off hin).view.set = slSet L n := by
  subst h
  exact set_piece_o _ hin

theorem chan_lt (L : grid0.Coords) (n : Fin 96) : cBase L + n.val / 2 < 192 := by
  have := cBase_le L; have : n.val < 96 := n.isLt; omega

/-- Piece `n` and its source differ only in the channel, which is the one the index word names: element by element the source holds the channel permutation's value. -/
theorem piece_value (L : grid0.Coords) (n : Fin 96) {α : Type} (fx : Cert.Spec.SX.Idx → α) (p : Cert.Spec.SP.Idx → BitVec 32)
    (w : BitVec 32) (hw : w = p (ix1 ⟨cBase L + n.val / 2, chan_lt L n⟩)) (hlt : w.toNat < 192)
    (offS offD : Fin 4 → ℕ) (hS : offS = ![bOf L, w.toNat, 112 * (n.val % 2), 0]) (hD : offD = sliceOff L n)
    (hinS : ∀ a, offS a + S1x1x112x224.size a ≤ S8x192x224x224.size a)
    (hinD : ∀ a, offD a + S1x1x112x224.size a ≤ S8x192x224x224.size a) (y : S112x224.Idx) :
    fx ((xPiece offS hinS).view.emb y) = Cert.Spec.G fx p ((oPiece offD hinD).view.emb y) := by
  subst hS hD
  rw [emb_piece_x, emb_piece_o]
  unfold Cert.Spec.G Cert.Spec.src
  congr 1
  funext a
  refine Fin.ext ?_
  match a with
  | ⟨0, _⟩ => rfl
  | ⟨1, _⟩ =>
    show w.toNat = (p (ix1 ⟨cBase L + n.val / 2, chan_lt L n⟩)).toNat % 192
    rw [← hw, Nat.mod_eq_of_lt hlt]
  | ⟨2, _⟩ => rfl
  | ⟨3, _⟩ => rfl

end Cert.Proof.KI

end
-- ==== Proof.KI.Checks.lean ====
import proofs.«215561_g44298292691222_cont_8to1_c_1064_17_alg».proof.Proof.KI.Setup

namespace Cert.Proof.KI

open Cert.KernelIdeal Cert.KernelIdeal.Gen

open Idealize.ShloMosaic

/-- A half-plane at batch element `b < 8`, channel `v`, rows from `H` (with `H + 112 ≤ 224`) lies inside the array exactly when the
    channel does. -/
theorem inb_iff {off : Fin 4 → ℕ} {b v H : ℕ} (h : off = ![b, v, H, 0]) (hb : b < 8) (hH : H + 112 ≤ 224) :
    (∀ a, off a + S1x1x112x224.size a ≤ S8x192x224x224.size a) ↔ v < 192 := by
  subst h
  constructor
  · intro h
    have h1 := h 1
    change v + 1 ≤ 192 at h1
    omega
  · intro hv a
    match a with
    | ⟨0, _⟩ => show b + 1 ≤ 8; omega
    | ⟨1, _⟩ => show v + 1 ≤ 192; omega
    | ⟨2, _⟩ => show H + 112 ≤ 224; omega
    | ⟨3, _⟩ => show 0 + 224 ≤ 224; omega

theorem inb_iff₂ {off off' : Fin 4 → ℕ} {b v H : ℕ} (h : off = ![b, v, H, 0]) (h' : off' = ![b, v, H, 0]) (hb : b < 8) (hH : H + 112 ≤ 224) :
    ((∀ a, off a + S1x1x112x224.size a ≤ S8x192x224x224.size a) ∧ (∀ a, off' a + S1x1x112x224.size a ≤ S8x192x224x224.size a)) ↔ v < 192 := by
  rw [inb_iff h hb hH, inb_iff h' hb hH, and_self]

end Cert.Proof.KI
-- ==== Proof.KI.Offsets.lean ====
import proofs.«215561_g44298292691222_cont_8to1_c_1064_17_alg».proof.Proof.KI.Checks

noncomputable section

namespace Cert.Proof.KI

open Cert.KernelIdeal Cert.KernelIdeal.Gen
open Idealize.ShloMosaic

theorem bword_eq : ∀ L : grid0.Coords, k0_off2 L 0#32 ⟨0, by decide⟩ = bOf L := by decide +kernel

section
variable (L : grid0.Coords) (w : BitVec 32)

/-- A copy out of the input starts at (batch element, the index word, first row of the half, 0). The printed offset functions of one
    half differ only in the names of their bound variables, so the two stated here serve for all of them. -/
theorem src0 : k0_off2 L w = ![bOf L, w.toNat, 0, 0] := by
  funext a; match a with | ⟨0, _⟩ => exact bword_eq L | ⟨1, _⟩ => rfl | ⟨2, _⟩ => rfl | ⟨3, _⟩ => rfl
theorem src112 : k0_off3 L w = ![bOf L, w.toNat, 112, 0] := by
  funext a; match a with | ⟨0, _⟩ => exact bword_eq L | ⟨1, _⟩ => rfl | ⟨2, _⟩ => rfl | ⟨3, _⟩ => rfl

/-- Each printed predicate on an index word says that the word is below 192; again one statement per half serves for all. -/
theorem chk_1 : k0_chk1 L w ↔ w.toNat < 192 := inb_iff₂ (src0 L w) (src0 L w) (bOf_lt L) (by decide)
theorem chk_2 : k0_chk2 L w ↔ w.toNat < 192 := inb_iff₂ (src112 L w) (src112 L w) (bOf_lt L) (by decide)
theorem chk_3 : k0_chk3 L w ↔ w.toNat < 192 := chk_1 L w
theorem chk_4 : k0_chk4 L w ↔ w.toNat < 192 := chk_2 L w
theorem chk_5 : k0_chk5 L w ↔ w.toNat < 192 := chk_1 L w
theorem chk_6 : k0_chk6 L w ↔ w.toNat < 192 := chk_2 L w
theorem chk_7 : k0_chk7 L w ↔ w.toNat < 192 := chk_1 L w
theorem chk_8 : k0_chk8 L w ↔ w.toNat < 192 := chk_2 L w
theorem chk_9 : k0_chk9 L w ↔ w.toNat < 192 := chk_1 L w
theorem chk_10 : k0_chk10 L w ↔ w.toNat < 192 := chk_2 L w
theorem chk_11 : k0_chk11 L w ↔ w.toNat < 192 := chk_1 L w
theorem chk_12 : k0_chk12 L w ↔ w.toNat < 192 := chk_2 L w
theorem chk_13 : k0_chk13 L w ↔ w.toNat < 192 := chk_1 L w
theorem chk_14 : k0_chk14 L w ↔ w.toNat < 192 := chk_2 L w
theorem chk_15 : k0_chk15 L w ↔ w.toNat < 192 := chk_1 L w
theorem chk_16 : k0_chk16 L w ↔ w.toNat < 192 := chk_2 L w
theorem chk_17 : k0_chk17 L w ↔ w.toNat < 192 := chk_1 L w
theorem chk_18 : k0_chk18 L w ↔ w.toNat < 192 := chk_2 L w
theorem chk_19 : k0_chk19 L w ↔ w.toNat < 192 := chk_1 L w
theorem chk_20 : k0_chk20 L w ↔ w.toNat < 192 := chk_2 L w
theorem chk_21 : k0_chk21 L w ↔ w.toNat < 192 := chk_1 L w
theorem chk_22 : k0_chk22 L w ↔ w.toNat < 192 := chk_2 L w
theorem chk_23 : k0_chk23 L w ↔ w.toNat < 192 := chk_1 L w
theorem chk_24 : k0_chk24 L w ↔ w.toNat < 192 := chk_2 L w
theorem chk_25 : k0_chk25 L w ↔ w.toNat < 192 := chk_1 L w
theorem chk_26 : k0_chk26 L w ↔ w.toNat < 192 := chk_2 L w
theorem chk_27 : k0_chk27 L w ↔ w.toNat < 192 := chk_1 L w
theorem chk_28 : k0_chk28 L w ↔ w.toNat < 192 := chk_2 L w
theorem chk_29 : k0_chk29 L w ↔ w.toNat < 192 := chk_1 L w
theorem chk_30 : k0_chk30 L w ↔ w.toNat < 192 := chk_2 L w
theorem chk_31 : k0_chk31 L w ↔ w.toNat < 192 := chk_1 L w
theorem chk_32 : k0_chk32 L w ↔ w.toNat < 192 := chk_2 L w
theorem chk_33 : k0_chk33 L w ↔ w.toNat < 192 := chk_1 L w
theorem chk_34 : k0_chk34 L w ↔ w.toNat < 192 := chk_2 L w
theorem chk_35 : k0_chk35 L w ↔ w.toNat < 192 := chk_1 L w
theorem chk_36 : k0_chk36 L w ↔ w.toNat < 192 := chk_2 L w
theorem chk_37 : k0_chk37 L w ↔ w.toNat < 192 := chk_1 L w
theorem chk_38 : k0_chk38 L w ↔ w.toNat < 192 := chk_2 L w
theorem chk_39 : k0_chk39 L w ↔ w.toNat < 192 := chk_1 L w
theorem chk_40 : k0_chk40 L w ↔ w.toNat < 192 := chk_2 L w
theorem chk_41 : k0_chk41 L w ↔ w.toNat < 192 := chk_1 L w
theorem chk_42 : k0_chk42 L w ↔ w.toNat < 192 := chk_2 L w
theorem chk_43 : k0_chk43 L w ↔ w.toNat < 192 := chk_1 L w
theorem chk_44 : k0_chk44 L w ↔ w.toNat < 192 := chk_2 L w
theorem chk_45 : k0_chk45 L w ↔ w.toNat < 192 := chk_1 L w
theorem chk_46 : k0_chk46 L w ↔ w.toNat < 192 := chk_2 L w
theorem chk_47 : k0_chk47 L w ↔ w.toNat < 192 := chk_1 L w
theorem chk_48 : k0_chk48 L w ↔ w.toNat < 192 := chk_2 L w
theorem chk_49 : k0_chk49 L w ↔ w.toNat < 192 := chk_1 L w
theorem chk_50 : k0_chk50 L w ↔ w.toNat < 192 := chk_2 L w
theorem chk_51 : k0_chk51 L w ↔ w.toNat < 192 := chk_1 L w
theorem chk_52 : k0_chk52 L w ↔ w.toNat < 192 := chk_2 L w
theorem chk_53 : k0_chk53 L w ↔ w.toNat < 192 := chk_1 L w
theorem chk_54 : k0_chk54 L w ↔ w.toNat < 192 := chk_2 L w
theorem chk_55 : k0_chk55 L w ↔ w.toNat < 192 := chk_1 L w
theorem chk_56 : k0_chk56 L w ↔ w.toNat < 192 := chk_2 L w
theorem chk_57 : k0_chk57 L w ↔ w.toNat < 192 := chk_1 L w
theorem chk_58 : k0_chk58 L w ↔ w.toNat < 192 := chk_2 L w
theorem chk_59 : k0_chk59 L w ↔ w.toNat < 192 := chk_1 L w
theorem chk_60 : k0_chk60 L w ↔ w.toNat < 192 := chk_2 L w
theorem chk_61 : k0_chk61 L w ↔ w.toNat < 192 := chk_1 L w
theorem chk_62 : k0_chk62 L w ↔ w.toNat < 192 := chk_2 L w
theorem chk_63 : k0_chk63 L w ↔ w.toNat < 192 := chk_1 L w
theorem chk_64 : k0_chk64 L w ↔ w.toNat < 192 := chk_2 L w
theorem chk_65 : k0_chk65 L w ↔ w.toNat < 192 := chk_1 L w
theorem chk_66 : k0_chk66 L w ↔ w.toNat < 192 := chk_2 L w
theorem chk_67 : k0_chk67 L w ↔ w.toNat < 192 := chk_1 L w
theorem chk_68 : k0_chk68 L w ↔ w.toNat < 192 := chk_2 L w
theorem chk_69 : k0_chk69 L w ↔ w.toNat < 192 := chk_1 L w
theorem chk_70 : k0_chk70 L w ↔ w.toNat < 192 := chk_2 L w
theorem chk_71 : k0_chk71 L w ↔ w.toNat < 192 := chk_1 L w
theorem chk_72 : k0_chk72 L w ↔ w.toNat < 192 := chk_2 L w
theorem chk_73 : k0_chk73 L w ↔ w.toNat < 192 := chk_1 L w
theorem chk_74 : k0_chk74 L w ↔ w.toNat < 192 := chk_2 L w
theorem chk_75 : k0_chk75 L w ↔ w.toNat < 192 := chk_1 L w
theorem chk_76 : k0_chk76 L w ↔ w.toNat < 192 := chk_2 L w
theorem chk_77 : k0_chk77 L w ↔ w.toNat < 192 := chk_1 L w
theorem chk_78 : k0_chk78 L w ↔ w.toNat < 192 := chk_2 L w
theorem chk_79 : k0_chk79 L w ↔ w.toNat < 192 := chk_1 L w
theorem chk_80 : k0_chk80 L w ↔ w.toNat < 192 := chk_2 L w
theorem chk_81 : k0_chk81 L w ↔ w.toNat < 192 := chk_1 L w
theorem chk_82 : k0_chk82 L w ↔ w.toNat < 192 := chk_2 L w
theorem chk_83 : k0_chk83 L w ↔ w.toNat < 192 := chk_1 L w
theorem chk_84 : k0_chk84 L w ↔ w.toNat < 192 := chk_2 L w
theorem chk_85 : k0_chk85 L w ↔ w.toNat < 192 := chk_1 L w
theorem chk_86 : k0_chk86 L w ↔ w.toNat < 192 := chk_2 L w
theorem chk_87 : k0_chk87 L w ↔ w.toNat < 192 := chk_1 L w
theorem chk_88 : k0_chk88 L w ↔ w.toNat < 192 := chk_2 L w
theorem chk_89 : k0_chk89 L w ↔ w.toNat < 192 := chk_1 L w
theorem chk_90 : k0_chk90 L w ↔ w.toNat < 192 := chk_2 L w
theorem chk_91 : k0_chk91 L w ↔ w.toNat < 192 := chk_1 L w
theorem chk_92 : k0_chk92 L w ↔ w.toNat < 192 := chk_2 L w
theorem chk_93 : k0_chk93 L w ↔ w.toNat < 192 := chk_1 L w
theorem chk_94 : k0_chk94 L w ↔ w.toNat < 192 := chk_2 L w
theorem chk_95 : k0_chk95 L w ↔ w.toNat < 192 := chk_1 L w
theorem chk_96 : k0_chk96 L w ↔ w.toNat < 192 := inb_iff (src112 L w) (bOf_lt L) (by decide)

end

macro "chk_norm" : tactic => `(tactic| simp only [chk_1, chk_2, chk_3, chk_4, chk_5, chk_6, chk_7, chk_8, chk_9, chk_10, chk_11, chk_12, chk_13, chk_14, chk_15, chk_16, chk_17, chk_18, chk_19, chk_20, chk_21, chk_22, chk_23, chk_24, chk_25, chk_26, chk_27, chk_28, chk_29, chk_30, chk_31, chk_32, chk_33, chk_34, chk_35, chk_36, chk_37, chk_38, chk_39, chk_40, chk_41, chk_42, chk_43, chk_44, chk_45, chk_46, chk_47, chk_48, chk_49, chk_50, chk_51, chk_52, chk_53, chk_54, chk_55, chk_56, chk_57, chk_58, chk_59, chk_60, chk_61, chk_62, chk_63, chk_64, chk_65, chk_66, chk_67, chk_68, chk_69, chk_70, chk_71, chk_72, chk_73, chk_74, chk_75, chk_76, chk_77, chk_78, chk_79, chk_80, chk_81, chk_82, chk_83, chk_84, chk_85, chk_86, chk_87, chk_88, chk_89, chk_90, chk_91, chk_92, chk_93, chk_94, chk_95, chk_96])

/-- Piece `n` of every tile is copied to the place `sliceOff` gives it: decided over the 32 tiles. -/
abbrev DstAt (f : grid0.Coords → Fin 4 → ℕ) (n : Fin 96) : Prop := ∀ L, f L = sliceOff L n

theorem dstOff_0 : DstAt k0_off6 0 := by decide +kernel
theorem dstOff_1 : DstAt k0_off9 1 := by decide +kernel
theorem dstOff_2 : DstAt k0_off12 2 := by decide +kernel
theorem dstOff_3 : DstAt k0_off15 3 := by decide +kernel
theorem dstOff_4 : DstAt k0_off18 4 := by decide +kernel
theorem dstOff_5 : DstAt k0_off21 5 := by decide +kernel
theorem dstOff_6 : DstAt k0_off24 6 := by decide +kernel
theorem dstOff_7 : DstAt k0_off27 7 := by decide +kernel
theorem dstOff_8 : DstAt k0_off30 8 := by decide +kernel
theorem dstOff_9 : DstAt k0_off33 9 := by decide +kernel
theorem dstOff_10 : DstAt k0_off36 10 := by decide +kernel
theorem dstOff_11 : DstAt k0_off39 11 := by decide +kernel
theorem dstOff_12 : DstAt k0_off42 12 := by decide +kernel
theorem dstOff_13 : DstAt k0_off45 13 := by decide +kernel
theorem dstOff_14 : DstAt k0_off48 14 := by decide +kernel
theorem dstOff_15 : DstAt k0_off51 15 := by decide +kernel
theorem dstOff_16 : DstAt k0_off54 16 := by decide +kernel
theorem dstOff_17 : DstAt k0_off57 17 := by decide +kernel
theorem dstOff_18 : DstAt k0_off60 18 := by decide +kernel
theorem dstOff_19 : DstAt k0_off63 19 := by decide +kernel
theorem dstOff_20 : DstAt k0_off66 20 := by decide +kernel
theorem dstOff_21 : DstAt k0_off69 21 := by decide +kernel
theorem dstOff_22 : DstAt k0_off72 22 := by decide +kernel
theorem dstOff_23 : DstAt k0_off75 23 := by decide +kernel
theorem dstOff_24 : DstAt k0_off78 24 := by decide +kernel
theorem dstOff_25 : DstAt k0_off81 25 := by decide +kernel
theorem dstOff_26 : DstAt k0_off84 26 := by decide +kernel
theorem dstOff_27 : DstAt k0_off87 27 := by decide +kernel
theorem dstOff_28 : DstAt k0_off90 28 := by decide +kernel
theorem dstOff_29 : DstAt k0_off93 29 := by decide +kernel
theorem dstOff_30 : DstAt k0_off96 30 := by decide +kernel
theorem dstOff_31 : DstAt k0_off99 31 := by decide +kernel
theorem dstOff_32 : DstAt k0_off102 32 := by decide +kernel
theorem dstOff_33 : DstAt k0_off105 33 := by decide +kernel
theorem dstOff_34 : DstAt k0_off108 34 := by decide +kernel
theorem dstOff_35 : DstAt k0_off111 35 := by decide +kernel
theorem dstOff_36 : DstAt k0_off114 36 := by decide +kernel
theorem dstOff_37 : DstAt k0_off117 37 := by decide +kernel
theorem dstOff_38 : DstAt k0_off120 38 := by decide +kernel
theorem dstOff_39 : DstAt k0_off123 39 := by decide +kernel
theorem dstOff_40 : DstAt k0_off126 40 := by decide +kernel
theorem dstOff_41 : DstAt k0_off129 41 := by decide +kernel
theorem dstOff_42 : DstAt k0_off132 42 := by decide +kernel
theorem dstOff_43 : DstAt k0_off135 43 := by decide +kernel
theorem dstOff_44 : DstAt k0_off138 44 := by decide +kernel
theorem dstOff_45 : DstAt k0_off141 45 := by decide +kernel
theorem dstOff_46 : DstAt k0_off144 46 := by decide +kernel
theorem dstOff_47 : DstAt k0_off147 47 := by decide +kernel
theorem dstOff_48 : DstAt k0_off150 48 := by decide +kernel
theorem dstOff_49 : DstAt k0_off153 49 := by decide +kernel
theorem dstOff_50 : DstAt k0_off156 50 := by decide +kernel
theorem dstOff_51 : DstAt k0_off159 51 := by decide +kernel
theorem dstOff_52 : DstAt k0_off162 52 := by decide +kernel
theorem dstOff_53 : DstAt k0_off165 53 := by decide +kernel
theorem dstOff_54 : DstAt k0_off168 54 := by decide +kernel
theorem dstOff_55 : DstAt k0_off171 55 := by decide +kernel
theorem dstOff_56 : DstAt k0_off174 56 := by decide +kernel
theorem dstOff_57 : DstAt k0_off177 57 := by decide +kernel
theorem dstOff_58 : DstAt k0_off180 58 := by decide +kernel
theorem dstOff_59 : DstAt k0_off183 59 := by decide +kernel
theorem dstOff_60 : DstAt k0_off186 60 := by decide +kernel
theorem dstOff_61 : DstAt k0_off189 61 := by decide +kernel
theorem dstOff_62 : DstAt k0_off192 62 := by decide +kernel
theorem dstOff_63 : DstAt k0_off195 63 := by decide +kernel
theorem dstOff_64 : DstAt k0_off198 64 := by decide +kernel
theorem dstOff_65 : DstAt k0_off201 65 := by decide +kernel
theorem dstOff_66 : DstAt k0_off204 66 := by decide +kernel
theorem dstOff_67 : DstAt k0_off207 67 := by decide +kernel
theorem dstOff_68 : DstAt k0_off210 68 := by decide +kernel
theorem dstOff_69 : DstAt k0_off213 69 := by decide +kernel
theorem dstOff_70 : DstAt k0_off216 70 := by decide +kernel
theorem dstOff_71 : DstAt k0_off219 71 := by decide +kernel
theorem dstOff_72 : DstAt k0_off222 72 := by decide +kernel
theorem dstOff_73 : DstAt k0_off225 73 := by decide +kernel
theorem dstOff_74 : DstAt k0_off228 74 := by decide +kernel
theorem dstOff_75 : DstAt k0_off231 75 := by decide +kernel
theorem dstOff_76 : DstAt k0_off234 76 := by decide +kernel
theorem dstOff_77 : DstAt k0_off237 77 := by decide +kernel
theorem dstOff_78 : DstAt k0_off240 78 := by decide +kernel
theorem dstOff_79 : DstAt k0_off243 79 := by decide +kernel
theorem dstOff_80 : DstAt k0_off246 80 := by decide +kernel
theorem dstOff_81 : DstAt k0_off249 81 := by decide +kernel
theorem dstOff_82 : DstAt k0_off252 82 := by decide +kernel
theorem dstOff_83 : DstAt k0_off255 83 := by decide +kernel
theorem dstOff_84 : DstAt k0_off258 84 := by decide +kernel
theorem dstOff_85 : DstAt k0_off261 85 := by decide +kernel
theorem dstOff_86 : DstAt k0_off264 86 := by decide +kernel
theorem dstOff_87 : DstAt k0_off267 87 := by decide +kernel
theorem dstOff_88 : DstAt k0_off270 88 := by decide +kernel
theorem dstOff_89 : DstAt k0_off273 89 := by decide +kernel
theorem dstOff_90 : DstAt k0_off276 90 := by decide +kernel
theorem dstOff_91 : DstAt k0_off279 91 := by decide +kernel
theorem dstOff_92 : DstAt k0_off282 92 := by decide +kernel
theorem dstOff_93 : DstAt (fun L => k0_off285 L 46#32) 93 := by decide +kernel
theorem dstOff_94 : DstAt k0_off287 94 := by decide +kernel
theorem dstOff_95 : DstAt (fun L => k0_off285 L 47#32) 95 := by decide +kernel

end Cert.Proof.KI

end
-- ==== Proof.LibSepFin.lean ====
import Idealize.SL.ProofMode.BigOp
import Mathlib.Data.Fintype.Fin

namespace Cert.Lib

open Idealize.SL Idealize.SL.RA Idealize.SL.BI
open scoped Idealize.SL.BI
open Idealize.SL.BI.BIBase Idealize.SL.BI.Laws Idealize.SL.ProofMode

universe u

variable {M : Type u} [URA M]

/-- The right-nested separating conjunction of a family over `Fin n`, in order; the iterated one over all of `Fin n` is this one. -/
def sepFin : (n : ℕ) → (Fin n → sProp M) → sProp M
  | 0, _ => iprop(emp)
  | n + 1, Φ => iprop(Φ 0 ∗ sepFin n (fun i => Φ i.succ))

theorem bigSep_univ_fin : ∀ (n : ℕ) (Φ : Fin n → sProp M), bigSep Finset.univ Φ = sepFin n Φ
  | 0, Φ => by
    rw [Finset.univ_eq_empty]; rfl
  | n + 1, Φ => by
    rw [Fin.univ_succ, Finset.cons_eq_insert, bigSep_insert (by simp), bigSep_map, bigSep_univ_fin n]
    rfl

end Cert.Lib
-- ==== Proof.KI.Pieces.lean ====
import proofs.«215561_g44298292691222_cont_8to1_c_1064_17_alg».proof.Proof.KI.Value
import proofs.«215561_g44298292691222_cont_8to1_c_1064_17_alg».proof.Proof.KI.Offsets
import proofs.«215561_g44298292691222_cont_8to1_c_1064_17_alg».proof.Proof.LibSepFin

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (g : Buf (Elt F) ((thrV d L).loc main_v0_scv))

/-- The piece of the output at `off`, held whole at the contents `g`. -/
abbrev held (off : Fin 4 → ℕ) (hin : ∀ a, off a + S1x1x112x224.size a ≤ S8x192x224x224.size a) : sProp 𝕄 :=
  View.loc (thrV d L) (oPiece off hin).view ↦[(oPiece off hin).view.set]{fullShare} g

/-- The tile's 96 pieces, each held at the offsets the program computes for it. -/
def heldPieces : sProp 𝕄 :=
  iprop(held d L g (k0_off6 L) (k0_off6_inb L)
    ∗ held d L g (k0_off9 L) (k0_off9_inb L)
    ∗ held d L g (k0_off12 L) (k0_off12_inb L)
    ∗ held d L g (k0_off15 L) (k0_off15_inb L)
    ∗ held d L g (k0_off18 L) (k0_off18_inb L)
    ∗ held d L g (k0_off21 L) (k0_off21_inb L)
    ∗ held d L g (k0_off24 L) (k0_off24_inb L)
    ∗ held d L g (k0_off27 L) (k0_off27_inb L)
    ∗ held d L g (k0_off30 L) (k0_off30_inb L)
    ∗ held d L g (k0_off33 L) (k0_off33_inb L)
    ∗ held d L g (k0_off36 L) (k0_off36_inb L)
    ∗ held d L g (k0_off39 L) (k0_off39_inb L)
    ∗ held d L g (k0_off42 L) (k0_off42_inb L)
    ∗ held d L g (k0_off45 L) (k0_off45_inb L)
    ∗ held d L g (k0_off48 L) (k0_off48_inb L)
    ∗ held d L g (k0_off51 L) (k0_off51_inb L)
    ∗ held d L g (k0_off54 L) (k0_off54_inb L)
    ∗ held d L g (k0_off57 L) (k0_off57_inb L)
    ∗ held d L g (k0_off60 L) (k0_off60_inb L)
    ∗ held d L g (k0_off63 L) (k0_off63_inb L)
    ∗ held d L g (k0_off66 L) (k0_off66_inb L)
    ∗ held d L g (k0_off69 L) (k0_off69_inb L)
    ∗ held d L g (k0_off72 L) (k0_off72_inb L)
    ∗ held d L g (k0_off75 L) (k0_off75_inb L)
    ∗ held d L g (k0_off78 L) (k0_off78_inb L)
    ∗ held d L g (k0_off81 L) (k0_off81_inb L)
    ∗ held d L g (k0_off84 L) (k0_off84_inb L)
    ∗ held d L g (k0_off87 L) (k0_off87_inb L)
    ∗ held d L g (k0_off90 L) (k0_off90_inb L)
    ∗ held d L g (k0_off93 L) (k0_off93_inb L)
    ∗ held d L g (k0_off96 L) (k0_off96_inb L)
    ∗ held d L g (k0_off99 L) (k0_off99_inb L)
    ∗ held d L g (k0_off102 L) (k0_off102_inb L)
    ∗ held d L g (k0_off105 L) (k0_off105_inb L)
    ∗ held d L g (k0_off108 L) (k0_off108_inb L)
    ∗ held d L g (k0_off111 L) (k0_off111_inb L)
    ∗ held d L g (k0_off114 L) (k0_off114_inb L)
    ∗ held d L g (k0_off117 L) (k0_off117_inb L)
    ∗ held d L g (k0_off120 L) (k0_off120_inb L)
    ∗ held d L g (k0_off123 L) (k0_off123_inb L)
    ∗ held d L g (k0_off126 L) (k0_off126_inb L)
    ∗ held d L g (k0_off129 L) (k0_off129_inb L)
    ∗ held d L g (k0_off132 L) (k0_off132_inb L)
    ∗ held d L g (k0_off135 L) (k0_off135_inb L)
    ∗ held d L g (k0_off138 L) (k0_off138_inb L)
    ∗ held d L g (k0_off141 L) (k0_off141_inb L)
    ∗ held d L g (k0_off144 L) (k0_off144_inb L)
    ∗ held d L g (k0_off147 L) (k0_off147_inb L)
    ∗ held d L g (k0_off150 L) (k0_off150_inb L)
    ∗ held d L g (k0_off153 L) (k0_off153_inb L)
    ∗ held d L g (k0_off156 L) (k0_off156_inb L)
    ∗ held d L g (k0_off159 L) (k0_off159_inb L)
    ∗ held d L g (k0_off162 L) (k0_off162_inb L)
    ∗ held d L g (k0_off165 L) (k0_off165_inb L)
    ∗ held d L g (k0_off168 L) (k0_off168_inb L)
    ∗ held d L g (k0_off171 L) (k0_off171_inb L)
    ∗ held d L g (k0_off174 L) (k0_off174_inb L)
    ∗ held d L g (k0_off177 L) (k0_off177_inb L)
    ∗ held d L g (k0_off180 L) (k0_off180_inb L)
    ∗ held d L g (k0_off183 L) (k0_off183_inb L)
    ∗ held d L g (k0_off186 L) (k0_off186_inb L)
    ∗ held d L g (k0_off189 L) (k0_off189_inb L)
    ∗ held d L g (k0_off192 L) (k0_off192_inb L)
    ∗ held d L g (k0_off195 L) (k0_off195_inb L)
    ∗ held d L g (k0_off198 L) (k0_off198_inb L)
    ∗ held d L g (k0_off201 L) (k0_off201_inb L)
    ∗ held d L g (k0_off204 L) (k0_off204_inb L)
    ∗ held d L g (k0_off207 L) (k0_off207_inb L)
    ∗ held d L g (k0_off210 L) (k0_off210_inb L)
    ∗ held d L g (k0_off213 L) (k0_off213_inb L)
    ∗ held d L g (k0_off216 L) (k0_off216_inb L)
    ∗ held d L g (k0_off219 L) (k0_off219_inb L)
    ∗ held d L g (k0_off222 L) (k0_off222_inb L)
    ∗ held d L g (k0_off225 L) (k0_off225_inb L)
    ∗ held d L g (k0_off228 L) (k0_off228_inb L)
    ∗ held d L g (k0_off231 L) (k0_off231_inb L)
    ∗ held d L g (k0_off234 L) (k0_off234_inb L)
    ∗ held d L g (k0_off237 L) (k0_off237_inb L)
    ∗ held d L g (k0_off240 L) (k0_off240_inb L)
    ∗ held d L g (k0_off243 L) (k0_off243_inb L)
    ∗ held d L g (k0_off246 L) (k0_off246_inb L)
    ∗ held d L g (k0_off249 L) (k0_off249_inb L)
    ∗ held d L g (k0_off252 L) (k0_off252_inb L)
    ∗ held d L g (k0_off255 L) (k0_off255_inb L)
    ∗ held d L g (k0_off258 L) (k0_off258_inb L)
    ∗ held d L g (k0_off261 L) (k0_off261_inb L)
    ∗ held d L g (k0_off264 L) (k0_off264_inb L)
    ∗ held d L g (k0_off267 L) (k0_off267_inb L)
    ∗ held d L g (k0_off270 L) (k0_off270_inb L)
    ∗ held d L g (k0_off273 L) (k0_off273_inb L)
    ∗ held d L g (k0_off276 L) (k0_off276_inb L)
    ∗ held d L g (k0_off279 L) (k0_off279_inb L)
    ∗ held d L g (k0_off282 L) (k0_off282_inb L)
    ∗ held d L g (k0_off285 L 46#32) (k0_off285_inb L 0)
    ∗ held d L g (k0_off287 L) (k0_off287_inb L)
    ∗ held d L g (k0_off285 L 47#32) (k0_off285_inb L 1)
    ∗ emp)

/-- A held piece is piece `n` of the output array. -/
theorem held_eq {n : Fin 96} {off : Fin 4 → ℕ} {hin : ∀ a, off a + S1x1x112x224.size a ≤ S8x192x224x224.size a} (h : off = sliceOff L n) :
    (held d L g off hin : sProp 𝕄) = (oLoc d ↦[slSet L n]{fullShare} g) := by
  unfold held
  rw [set_piece_slice L n off hin h]

theorem sep_congr' {a a' b b' : sProp 𝕄} (h : a = a') (h' : b = b') : (iprop(a ∗ b) : sProp 𝕄) = iprop(a' ∗ b') := by subst h; subst h'; rfl

set_option maxRecDepth 4096 in
theorem heldPieces_eq : (heldPieces d L g : sProp 𝕄) = bigSep Finset.univ fun n : Fin 96 => oLoc d ↦[slSet L n]{fullShare} g := by
  rw [Cert.Lib.bigSep_univ_fin]
  unfold heldPieces
  exact sep_congr' (held_eq d L g (dstOff_0 L)) (sep_congr' (held_eq d L g (dstOff_1 L)) (sep_congr' (held_eq d L g (dstOff_2 L)) (sep_congr' (held_eq d L g (dstOff_3 L)) (sep_congr' (held_eq d L g (dstOff_4 L)) (sep_congr' (held_eq d L g (dstOff_5 L)) (sep_congr' (held_eq d L g (dstOff_6 L)) (sep_congr' (held_eq d L g (dstOff_7 L)) (sep_congr' (held_eq d L g (dstOff_8 L)) (sep_congr' (held_eq d L g (dstOff_9 L)) (sep_congr' (held_eq d L g (dstOff_10 L)) (sep_congr' (held_eq d L g (dstOff_11 L)) (sep_congr' (held_eq d L g (dstOff_12 L)) (sep_congr' (held_eq d L g (dstOff_13 L)) (sep_congr' (held_eq d L g (dstOff_14 L)) (sep_congr' (held_eq d L g (dstOff_15 L)) (sep_congr' (held_eq d L g (dstOff_16 L)) (sep_congr' (held_eq d L g (dstOff_17 L)) (sep_congr' (held_eq d L g (dstOff_18 L)) (sep_congr' (held_eq d L g (dstOff_19 L)) (sep_congr' (held_eq d L g (dstOff_20 L)) (sep_congr' (held_eq d L g (dstOff_21 L)) (sep_congr' (held_eq d L g (dstOff_22 L)) (sep_congr' (held_eq d L g (dstOff_23 L)) (sep_congr' (held_eq d L g (dstOff_24 L)) (sep_congr' (held_eq d L g (dstOff_25 L)) (sep_congr' (held_eq d L g (dstOff_26 L)) (sep_congr' (held_eq d L g (dstOff_27 L)) (sep_congr' (held_eq d L g (dstOff_28 L)) (sep_congr' (held_eq d L g (dstOff_29 L)) (sep_congr' (held_eq d L g (dstOff_30 L)) (sep_congr' (held_eq d L g (dstOff_31 L)) (sep_congr' (held_eq d L g (dstOff_32 L)) (sep_congr' (held_eq d L g (dstOff_33 L)) (sep_congr' (held_eq d L g (dstOff_34 L)) (sep_congr' (held_eq d L g (dstOff_35 L)) (sep_congr' (held_eq d L g (dstOff_36 L)) (sep_congr' (held_eq d L g (dstOff_37 L)) (sep_congr' (held_eq d L g (dstOff_38 L)) (sep_congr' (held_eq d L g (dstOff_39 L)) (sep_congr' (held_eq d L g (dstOff_40 L)) (sep_congr' (held_eq d L g (dstOff_41 L)) (sep_congr' (held_eq d L g (dstOff_42 L)) (sep_congr' (held_eq d L g (dstOff_43 L)) (sep_congr' (held_eq d L g (dstOff_44 L)) (sep_congr' (held_eq d L g (dstOff_45 L)) (sep_congr' (held_eq d L g (dstOff_46 L)) (sep_congr' (held_eq d L g (dstOff_47 L)) (sep_congr' (held_eq d L g (dstOff_48 L)) (sep_congr' (held_eq d L g (dstOff_49 L)) (sep_congr' (held_eq d L g (dstOff_50 L)) (sep_congr' (held_eq d L g (dstOff_51 L)) (sep_congr' (held_eq d L g (dstOff_52 L)) (sep_congr' (held_eq d L g (dstOff_53 L)) (sep_congr' (held_eq d L g (dstOff_54 L)) (sep_congr' (held_eq d L g (dstOff_55 L)) (sep_congr' (held_eq d L g (dstOff_56 L)) (sep_congr' (held_eq d L g (dstOff_57 L)) (sep_congr' (held_eq d L g (dstOff_58 L)) (sep_congr' (held_eq d L g (dstOff_59 L)) (sep_congr' (held_eq d L g (dstOff_60 L)) (sep_congr' (held_eq d L g (dstOff_61 L)) (sep_congr' (held_eq d L g (dstOff_62 L)) (sep_congr' (held_eq d L g (dstOff_63 L)) (sep_congr' (held_eq d L g (dstOff_64 L)) (sep_congr' (held_eq d L g (dstOff_65 L)) (sep_congr' (held_eq d L g (dstOff_66 L)) (sep_congr' (held_eq d L g (dstOff_67 L)) (sep_congr' (held_eq d L g (dstOff_68 L)) (sep_congr' (held_eq d L g (dstOff_69 L)) (sep_congr' (held_eq d L g (dstOff_70 L)) (sep_congr' (held_eq d L g (dstOff_71 L)) (sep_congr' (held_eq d L g (dstOff_72 L)) (sep_congr' (held_eq d L g (dstOff_73 L)) (sep_congr' (held_eq d L g (dstOff_74 L)) (sep_congr' (held_eq d L g (dstOff_75 L)) (sep_congr' (held_eq d L g (dstOff_76 L)) (sep_congr' (held_eq d L g (dstOff_77 L)) (sep_congr' (held_eq d L g (dstOff_78 L)) (sep_congr' (held_eq d L g (dstOff_79 L)) (sep_congr' (held_eq d L g (dstOff_80 L)) (sep_congr' (held_eq d L g (dstOff_81 L)) (sep_congr' (held_eq d L g (dstOff_82 L)) (sep_congr' (held_eq d L g (dstOff_83 L)) (sep_congr' (held_eq d L g (dstOff_84 L)) (sep_congr' (held_eq d L g (dstOff_85 L)) (sep_congr' (held_eq d L g (dstOff_86 L)) (sep_congr' (held_eq d L g (dstOff_87 L)) (sep_congr' (held_eq d L g (dstOff_88 L)) (sep_congr' (held_eq d L g (dstOff_89 L)) (sep_congr' (held_eq d L g (dstOff_90 L)) (sep_congr' (held_eq d L g (dstOff_91 L)) (sep_congr' (held_eq d L g (dstOff_92 L)) (sep_congr' (held_eq d L g (dstOff_93 L)) (sep_congr' (held_eq d L g (dstOff_94 L)) (sep_congr' (held_eq d L g (dstOff_95 L)) (rfl))))))))))))))))))))))))))))))))))))))))))))))))))))))))))))))))))))))))))))))))))))))))))))))))

end Cert.Proof.KI

end
-- ==== Proof.KI.Words.lean ====
import proofs.«215561_g44298292691222_cont_8to1_c_1064_17_alg».proof.Proof.KI.Setup
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (d : Dev nD) (L : grid0.Coords)

/-- After the whole copy the scratch holds the index array, so every word read out of it is below 192 when all index words are. -/
theorem any_lt (fp : Buf (Elt F) ((thrV d L).loc main_arg1_scv)) (hfp : ∀ j, (fp j).toNat < 192)
    (f0 : Buf (Elt F) ((thrV d L).loc cc0_scratch0)) (r : LoadRect S192) (hc : r.shape.ShapeCasts S16) (j : S16.Idx) :
    (shapeCast S16 (View.readAt (Elt F) (s0W).view r
        (View.write (Elt F) (s0W).view f0 (ReadAs.same.apply (View.read (Elt F) (pW).view fp)) Finset.univ)) hc j).toNat < 192 := by
  unfold shapeCast
  rw [View.readAt_apply, View.read_write_univ, ReadAs.apply_same, View.read_apply, cast_eq]
  exact hfp _

/-- The three loads start at the tile's first channel and 16 and 32 words further: decided over the 32 tiles. -/
theorem off1 : ∀ (L : grid0.Coords) (j : Fin 3) (a : Fin 1),
    k0_off1 L (BitVec.ofNat 32 (16 * j.val)) a = (![cBase L + 16 * j.val] : Fin 1 → ℕ) a := by decide +kernel
theorem off1_0 : k0_off1 L 0#32 = ![cBase L + 0] := funext (off1 L 0)
theorem off1_16 : k0_off1 L 16#32 = ![cBase L + 16] := funext (off1 L 1)
theorem off1_32 : k0_off1 L 32#32 = ![cBase L + 32] := funext (off1 L 2)

theorem word_lt (K : ℕ) (hK16 : K + 16 ≤ 48) (j : S16.Idx) : cBase L + K + (j 0).val < 192 := by
  have h1 := cBase_le L
  have h2 : (j 0).val < 16 := (j 0).isLt
  omega

/-- Lane `j` of the vector loaded `K` words past the tile's first channel is the index word of channel `cBase L + K + j`. -/
theorem vec_eq (fp : Buf (Elt F) ((thrV d L).loc main_arg1_scv)) (f0 : Buf (Elt F) ((thrV d L).loc cc0_scratch0))
    (k : BitVec 32) (K : ℕ) (hK : k0_off1 L k = ![cBase L + K]) (hK16 : K + 16 ≤ 48)
    (hin : ∀ a, k0_off1 L k a + S16.size a ≤ S192.size a) (hc : S16.ShapeCasts S16) (j : S16.Idx) :
    shapeCast S16 (View.readAt (Elt F) (s0W).view (Rect.unit (s := S192) (k0_off1 L k) S16.size hin).toLoadRect
        (View.write (Elt F) (s0W).view f0 (ReadAs.same.apply (View.read (Elt F) (pW).view fp)) Finset.univ)) hc j
      = fp (ix1 ⟨cBase L + K + (j 0).val, word_lt L K hK16 j⟩) := by
  unfold shapeCast
  rw [Shape.reshapeEquiv_self, View.readAt_apply, View.read_write_univ, ReadAs.apply_same, View.read_apply, cast_eq]
  congr 1
  funext a
  match a with
  | ⟨0, _⟩ =>
    apply Fin.ext
    show k0_off1 L k 0 + 1 * (j 0).val = cBase L + K + (j 0).val
    rw [hK, Nat.one_mul]
    rfl

theorem lane_lt {t : ℕ} (hs : S16.Slices ![t] S1) : t < 16 := by
  obtain ⟨h, h2⟩ := hs
  have h3 := h2 0
  change t + 1 ≤ 16 at h3
  omega

/-- Extracting lane `t` reads the vector at `t`. -/
theorem lane_eq (W : IVec S16 32) (t : ℕ) (hs : S16.Slices ![t] S1) (hp : ∀ a, (![0] : Fin 1 → ℕ) a < S1.size a) :
    extractAt ![0] (extractStridedSlice S1 ![t] W hs) hp = W (ix1 ⟨t, lane_lt hs⟩) := by
  unfold extractAt extractStridedSlice
  congr 1
  funext a
  match a with
  | ⟨0, _⟩ => exact Fin.ext (Nat.add_zero t)

/-- The index word the program extracts: lane `t` of the vector loaded at `k`. -/
abbrev word (fp : Buf (Elt F) ((thrV d L).loc main_arg1_scv)) (f0 : Buf (Elt F) ((thrV d L).loc cc0_scratch0)) (k : BitVec 32)
    (hin : ∀ a, k0_off1 L k a + S16.size a ≤ S192.size a) (hc : S16.ShapeCasts S16) (t : ℕ) (hs : S16.Slices ![t] S1)
    (hp : ∀ a, (![0] : Fin 1 → ℕ) a < S1.size a) : BitVec 32 :=
  extractAt ![0] (extractStridedSlice S1 ![t] (shapeCast S16 (View.readAt (Elt F) (s0W).view
    (Rect.unit (s := S192) (k0_off1 L k) S16.size hin).toLoadRect
    (View.write (Elt F) (s0W).view f0 (ReadAs.same.apply (View.read (Elt F) (pW).view fp)) Finset.univ)) hc) hs) hp

/-- It is the index word of channel `cBase L + K + t`. -/
theorem word_eq (fp : Buf (Elt F) ((thrV d L).loc main_arg1_scv)) (f0 : Buf (Elt F) ((thrV d L).loc cc0_scratch0)) {k : BitVec 32} {K : ℕ}
    (hK : k0_off1 L k = ![cBase L + K]) (hK16 : K + 16 ≤ 48) (hin : ∀ a, k0_off1 L k a + S16.size a ≤ S192.size a)
    (hc : S16.ShapeCasts S16) {t : ℕ} (hs : S16.Slices ![t] S1) (hp : ∀ a, (![0] : Fin 1 → ℕ) a < S1.size a)
    {c : ℕ} (e : K + t = c) (hc' : cBase L + c < 192) :
    word d L fp f0 k hin hc t hs hp = fp (ix1 ⟨cBase L + c, hc'⟩) :=
  (lane_eq _ t hs hp).trans ((vec_eq d L fp f0 k K hK hK16 hin hc _).trans
    (congrArg fp (congrArg ix1 (Fin.ext (by show cBase L + K + t = cBase L + c; omega)))))

end Cert.Proof.KI

end
-- ==== Proof.KI.Final.lean ====
import proofs.«215561_g44298292691222_cont_8to1_c_1064_17_alg».proof.Proof.KI.Value
import Idealize.ShloMosaic.Lib.Writes

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- A piece written whole with what a buffer reads after the source piece was written into it whole holds the channel permutation. -/
theorem piece_final (n : Fin 96) (fx : Buf (Elt F) ((thrV d L).loc main_arg0_scv)) (fp : Buf (Elt F) ((thrV d L).loc main_arg1_scv))
    (fo : Buf (Elt F) ((thrV d L).loc main_v0_scv))
    (vS : View sig .scVector .vmem S112x224 .f32) (fk : vS.ty.Contents (Elt F))
    (w : BitVec 32) (hw : w = fp (ix1 ⟨cBase L + n.val / 2, chan_lt L n⟩)) (hlt : w.toNat < 192)
    (offS offD : Fin 4 → ℕ) (hS : offS = ![bOf L, w.toNat, 112 * (n.val % 2), 0]) (hD : offD = sliceOff L n)
    (hinS : ∀ a, offS a + S1x1x112x224.size a ≤ S8x192x224x224.size a)
    (hinD : ∀ a, offD a + S1x1x112x224.size a ≤ S8x192x224x224.size a) :
    ((View.loc (thrV d L) (oPiece offD hinD).view ↦[(oPiece offD hinD).view.set]{fullShare}
        (oPiece offD hinD).view.writes (Elt F) fo [⟨Rect.whole S112x224, ReadAs.same.apply (View.read (Elt F) vS
          (View.write (Elt F) vS fk (ReadAs.same.apply (View.read (Elt F) (xPiece offS hinS).view fx)) Finset.univ))⟩]) : sProp 𝕄)
      = (View.loc (thrV d L) (oPiece offD hinD).view ↦[(oPiece offD hinD).view.set]{fullShare}
          (Cert.Spec.G fx fp : Buf (Elt F) ((thrV d L).loc main_v0_scv))) := by
  refine pointsTo_congr fun i hi => ?_
  obtain ⟨y, -, rfl⟩ := Finset.mem_map.mp hi
  have he : (oPiece offD hinD).view.emb y = ((oPiece offD hinD).view.slice (Rect.whole S112x224)).emb y := by
    show _ = (oPiece offD hinD).view.emb ((Rect.whole S112x224).emb y)
    rw [Rect.emb_whole_apply]
  rw [View.writes_singleton]
  conv_lhs => rw [he, View.write_emb_of_mem _ _ (Finset.mem_univ _)]
  rw [ReadAs.apply_same, View.read_write_univ, ReadAs.apply_same]
  exact piece_value L n fx fp w hw hlt offS offD hS hD hinS hinD y

end Cert.Proof.KI

end
-- ==== Proof.KI.Finals.lean ====
import proofs.«215561_g44298292691222_cont_8to1_c_1064_17_alg».proof.Proof.KI.Setup

namespace Cert.Proof.KI

open Idealize.SL.ProofMode

set_option hygiene false in
/-- The pieces in order: piece n is `piece_done` (applied to the run's contents as `pd`) at its lane and load, its printed source offsets and its place in the output. -/
macro "close_pieces" : tactic => `(tactic| (
  isplitl [Ho0]
  · iapply (pd 0 0 0 rfl (off1_0 L) (by decide) (k0_off2 L) (src0 L) (dstOff_0 L)); iexact Ho0
  isplitl [Ho1]
  · iapply (pd 1 0 0 rfl (off1_0 L) (by decide) (k0_off3 L) (src112 L) (dstOff_1 L)); iexact Ho1
  isplitl [Ho2]
  · iapply (pd 2 0 1 rfl (off1_0 L) (by decide) (k0_off4 L) (src0 L) (dstOff_2 L)); iexact Ho2
  isplitl [Ho3]
  · iapply (pd 3 0 1 rfl (off1_0 L) (by decide) (k0_off7 L) (src112 L) (dstOff_3 L)); iexact Ho3
  isplitl [Ho4]
  · iapply (pd 4 0 2 rfl (off1_0 L) (by decide) (k0_off10 L) (src0 L) (dstOff_4 L)); iexact Ho4
  isplitl [Ho5]
  · iapply (pd 5 0 2 rfl (off1_0 L) (by decide) (k0_off13 L) (src112 L) (dstOff_5 L)); iexact Ho5
  isplitl [Ho6]
  · iapply (pd 6 0 3 rfl (off1_0 L) (by decide) (k0_off16 L) (src0 L) (dstOff_6 L)); iexact Ho6
  isplitl [Ho7]
  · iapply (pd 7 0 3 rfl (off1_0 L) (by decide) (k0_off19 L) (src112 L) (dstOff_7 L)); iexact Ho7
  isplitl [Ho8]
  · iapply (pd 8 0 4 rfl (off1_0 L) (by decide) (k0_off22 L) (src0 L) (dstOff_8 L)); iexact Ho8
  isplitl [Ho9]
  · iapply (pd 9 0 4 rfl (off1_0 L) (by decide) (k0_off25 L) (src112 L) (dstOff_9 L)); iexact Ho9
  isplitl [Ho10]
  · iapply (pd 10 0 5 rfl (off1_0 L) (by decide) (k0_off28 L) (src0 L) (dstOff_10 L)); iexact Ho10
  isplitl [Ho11]
  · iapply (pd 11 0 5 rfl (off1_0 L) (by decide) (k0_off31 L) (src112 L) (dstOff_11 L)); iexact Ho11
  isplitl [Ho12]
  · iapply (pd 12 0 6 rfl (off1_0 L) (by decide) (k0_off34 L) (src0 L) (dstOff_12 L)); iexact Ho12
  isplitl [Ho13]
  · iapply (pd 13 0 6 rfl (off1_0 L) (by decide) (k0_off37 L) (src112 L) (dstOff_13 L)); iexact Ho13
  isplitl [Ho14]
  · iapply (pd 14 0 7 rfl (off1_0 L) (by decide) (k0_off40 L) (src0 L) (dstOff_14 L)); iexact Ho14
  isplitl [Ho15]
  · iapply (pd 15 0 7 rfl (off1_0 L) (by decide) (k0_off43 L) (src112 L) (dstOff_15 L)); iexact Ho15
  isplitl [Ho16]
  · iapply (pd 16 0 8 rfl (off1_0 L) (by decide) (k0_off46 L) (src0 L) (dstOff_16 L)); iexact Ho16
  isplitl [Ho17]
  · iapply (pd 17 0 8 rfl (off1_0 L) (by decide) (k0_off49 L) (src112 L) (dstOff_17 L)); iexact Ho17
  isplitl [Ho18]
  · iapply (pd 18 0 9 rfl (off1_0 L) (by decide) (k0_off52 L) (src0 L) (dstOff_18 L)); iexact Ho18
  isplitl [Ho19]
  · iapply (pd 19 0 9 rfl (off1_0 L) (by decide) (k0_off55 L) (src112 L) (dstOff_19 L)); iexact Ho19
  isplitl [Ho20]
  · iapply (pd 20 0 10 rfl (off1_0 L) (by decide) (k0_off58 L) (src0 L) (dstOff_20 L)); iexact Ho20
  isplitl [Ho21]
  · iapply (pd 21 0 10 rfl (off1_0 L) (by decide) (k0_off61 L) (src112 L) (dstOff_21 L)); iexact Ho21
  isplitl [Ho22]
  · iapply (pd 22 0 11 rfl (off1_0 L) (by decide) (k0_off64 L) (src0 L) (dstOff_22 L)); iexact Ho22
  isplitl [Ho23]
  · iapply (pd 23 0 11 rfl (off1_0 L) (by decide) (k0_off67 L) (src112 L) (dstOff_23 L)); iexact Ho23
  isplitl [Ho24]
  · iapply (pd 24 0 12 rfl (off1_0 L) (by decide) (k0_off70 L) (src0 L) (dstOff_24 L)); iexact Ho24
  isplitl [Ho25]
  · iapply (pd 25 0 12 rfl (off1_0 L) (by decide) (k0_off73 L) (src112 L) (dstOff_25 L)); iexact Ho25
  isplitl [Ho26]
  · iapply (pd 26 0 13 rfl (off1_0 L) (by decide) (k0_off76 L) (src0 L) (dstOff_26 L)); iexact Ho26
  isplitl [Ho27]
  · iapply (pd 27 0 13 rfl (off1_0 L) (by decide) (k0_off79 L) (src112 L) (dstOff_27 L)); iexact Ho27
  isplitl [Ho28]
  · iapply (pd 28 0 14 rfl (off1_0 L) (by decide) (k0_off82 L) (src0 L) (dstOff_28 L)); iexact Ho28
  isplitl [Ho29]
  · iapply (pd 29 0 14 rfl (off1_0 L) (by decide) (k0_off85 L) (src112 L) (dstOff_29 L)); iexact Ho29
  isplitl [Ho30]
  · iapply (pd 30 0 15 rfl (off1_0 L) (by decide) (k0_off88 L) (src0 L) (dstOff_30 L)); iexact Ho30
  isplitl [Ho31]
  · iapply (pd 31 0 15 rfl (off1_0 L) (by decide) (k0_off91 L) (src112 L) (dstOff_31 L)); iexact Ho31
  isplitl [Ho32]
  · iapply (pd 32 16 0 rfl (off1_16 L) (by decide) (k0_off94 L) (src0 L) (dstOff_32 L)); iexact Ho32
  isplitl [Ho33]
  · iapply (pd 33 16 0 rfl (off1_16 L) (by decide) (k0_off97 L) (src112 L) (dstOff_33 L)); iexact Ho33
  isplitl [Ho34]
  · iapply (pd 34 16 1 rfl (off1_16 L) (by decide) (k0_off100 L) (src0 L) (dstOff_34 L)); iexact Ho34
  isplitl [Ho35]
  · iapply (pd 35 16 1 rfl (off1_16 L) (by decide) (k0_off103 L) (src112 L) (dstOff_35 L)); iexact Ho35
  isplitl [Ho36]
  · iapply (pd 36 16 2 rfl (off1_16 L) (by decide) (k0_off106 L) (src0 L) (dstOff_36 L)); iexact Ho36
  isplitl [Ho37]
  · iapply (pd 37 16 2 rfl (off1_16 L) (by decide) (k0_off109 L) (src112 L) (dstOff_37 L)); iexact Ho37
  isplitl [Ho38]
  · iapply (pd 38 16 3 rfl (off1_16 L) (by decide) (k0_off112 L) (src0 L) (dstOff_38 L)); iexact Ho38
  isplitl [Ho39]
  · iapply (pd 39 16 3 rfl (off1_16 L) (by decide) (k0_off115 L) (src112 L) (dstOff_39 L)); iexact Ho39
  isplitl [Ho40]
  · iapply (pd 40 16 4 rfl (off1_16 L) (by decide) (k0_off118 L) (src0 L) (dstOff_40 L)); iexact Ho40
  isplitl [Ho41]
  · iapply (pd 41 16 4 rfl (off1_16 L) (by decide) (k0_off121 L) (src112 L) (dstOff_41 L)); iexact Ho41
  isplitl [Ho42]
  · iapply (pd 42 16 5 rfl (off1_16 L) (by decide) (k0_off124 L) (src0 L) (dstOff_42 L)); iexact Ho42
  isplitl [Ho43]
  · iapply (pd 43 16 5 rfl (off1_16 L) (by decide) (k0_off127 L) (src112 L) (dstOff_43 L)); iexact Ho43
  isplitl [Ho44]
  · iapply (pd 44 16 6 rfl (off1_16 L) (by decide) (k0_off130 L) (src0 L) (dstOff_44 L)); iexact Ho44
  isplitl [Ho45]
  · iapply (pd 45 16 6 rfl (off1_16 L) (by decide) (k0_off133 L) (src112 L) (dstOff_45 L)); iexact Ho45
  isplitl [Ho46]
  · iapply (pd 46 16 7 rfl (off1_16 L) (by decide) (k0_off136 L) (src0 L) (dstOff_46 L)); iexact Ho46
  isplitl [Ho47]
  · iapply (pd 47 16 7 rfl (off1_16 L) (by decide) (k0_off139 L) (src112 L) (dstOff_47 L)); iexact Ho47
  isplitl [Ho48]
  · iapply (pd 48 16 8 rfl (off1_16 L) (by decide) (k0_off142 L) (src0 L) (dstOff_48 L)); iexact Ho48
  isplitl [Ho49]
  · iapply (pd 49 16 8 rfl (off1_16 L) (by decide) (k0_off145 L) (src112 L) (dstOff_49 L)); iexact Ho49
  isplitl [Ho50]
  · iapply (pd 50 16 9 rfl (off1_16 L) (by decide) (k0_off148 L) (src0 L) (dstOff_50 L)); iexact Ho50
  isplitl [Ho51]
  · iapply (pd 51 16 9 rfl (off1_16 L) (by decide) (k0_off151 L) (src112 L) (dstOff_51 L)); iexact Ho51
  isplitl [Ho52]
  · iapply (pd 52 16 10 rfl (off1_16 L) (by decide) (k0_off154 L) (src0 L) (dstOff_52 L)); iexact Ho52
  isplitl [Ho53]
  · iapply (pd 53 16 10 rfl (off1_16 L) (by decide) (k0_off157 L) (src112 L) (dstOff_53 L)); iexact Ho53
  isplitl [Ho54]
  · iapply (pd 54 16 11 rfl (off1_16 L) (by decide) (k0_off160 L) (src0 L) (dstOff_54 L)); iexact Ho54
  isplitl [Ho55]
  · iapply (pd 55 16 11 rfl (off1_16 L) (by decide) (k0_off163 L) (src112 L) (dstOff_55 L)); iexact Ho55
  isplitl [Ho56]
  · iapply (pd 56 16 12 rfl (off1_16 L) (by decide) (k0_off166 L) (src0 L) (dstOff_56 L)); iexact Ho56
  isplitl [Ho57]
  · iapply (pd 57 16 12 rfl (off1_16 L) (by decide) (k0_off169 L) (src112 L) (dstOff_57 L)); iexact Ho57
  isplitl [Ho58]
  · iapply (pd 58 16 13 rfl (off1_16 L) (by decide) (k0_off172 L) (src0 L) (dstOff_58 L)); iexact Ho58
  isplitl [Ho59]
  · iapply (pd 59 16 13 rfl (off1_16 L) (by decide) (k0_off175 L) (src112 L) (dstOff_59 L)); iexact Ho59
  isplitl [Ho60]
  · iapply (pd 60 16 14 rfl (off1_16 L) (by decide) (k0_off178 L) (src0 L) (dstOff_60 L)); iexact Ho60
  isplitl [Ho61]
  · iapply (pd 61 16 14 rfl (off1_16 L) (by decide) (k0_off181 L) (src112 L) (dstOff_61 L)); iexact Ho61
  isplitl [Ho62]
  · iapply (pd 62 16 15 rfl (off1_16 L) (by decide) (k0_off184 L) (src0 L) (dstOff_62 L)); iexact Ho62
  isplitl [Ho63]
  · iapply (pd 63 16 15 rfl (off1_16 L) (by decide) (k0_off187 L) (src112 L) (dstOff_63 L)); iexact Ho63
  isplitl [Ho64]
  · iapply (pd 64 32 0 rfl (off1_32 L) (by decide) (k0_off190 L) (src0 L) (dstOff_64 L)); iexact Ho64
  isplitl [Ho65]
  · iapply (pd 65 32 0 rfl (off1_32 L) (by decide) (k0_off193 L) (src112 L) (dstOff_65 L)); iexact Ho65
  isplitl [Ho66]
  · iapply (pd 66 32 1 rfl (off1_32 L) (by decide) (k0_off196 L) (src0 L) (dstOff_66 L)); iexact Ho66
  isplitl [Ho67]
  · iapply (pd 67 32 1 rfl (off1_32 L) (by decide) (k0_off199 L) (src112 L) (dstOff_67 L)); iexact Ho67
  isplitl [Ho68]
  · iapply (pd 68 32 2 rfl (off1_32 L) (by decide) (k0_off202 L) (src0 L) (dstOff_68 L)); iexact Ho68
  isplitl [Ho69]
  · iapply (pd 69 32 2 rfl (off1_32 L) (by decide) (k0_off205 L) (src112 L) (dstOff_69 L)); iexact Ho69
  isplitl [Ho70]
  · iapply (pd 70 32 3 rfl (off1_32 L) (by decide) (k0_off208 L) (src0 L) (dstOff_70 L)); iexact Ho70
  isplitl [Ho71]
  · iapply (pd 71 32 3 rfl (off1_32 L) (by decide) (k0_off211 L) (src112 L) (dstOff_71 L)); iexact Ho71
  isplitl [Ho72]
  · iapply (pd 72 32 4 rfl (off1_32 L) (by decide) (k0_off214 L) (src0 L) (dstOff_72 L)); iexact Ho72
  isplitl [Ho73]
  · iapply (pd 73 32 4 rfl (off1_32 L) (by decide) (k0_off217 L) (src112 L) (dstOff_73 L)); iexact Ho73
  isplitl [Ho74]
  · iapply (pd 74 32 5 rfl (off1_32 L) (by decide) (k0_off220 L) (src0 L) (dstOff_74 L)); iexact Ho74
  isplitl [Ho75]
  · iapply (pd 75 32 5 rfl (off1_32 L) (by decide) (k0_off223 L) (src112 L) (dstOff_75 L)); iexact Ho75
  isplitl [Ho76]
  · iapply (pd 76 32 6 rfl (off1_32 L) (by decide) (k0_off226 L) (src0 L) (dstOff_76 L)); iexact Ho76
  isplitl [Ho77]
  · iapply (pd 77 32 6 rfl (off1_32 L) (by decide) (k0_off229 L) (src112 L) (dstOff_77 L)); iexact Ho77
  isplitl [Ho78]
  · iapply (pd 78 32 7 rfl (off1_32 L) (by decide) (k0_off232 L) (src0 L) (dstOff_78 L)); iexact Ho78
  isplitl [Ho79]
  · iapply (pd 79 32 7 rfl (off1_32 L) (by decide) (k0_off235 L) (src112 L) (dstOff_79 L)); iexact Ho79
  isplitl [Ho80]
  · iapply (pd 80 32 8 rfl (off1_32 L) (by decide) (k0_off238 L) (src0 L) (dstOff_80 L)); iexact Ho80
  isplitl [Ho81]
  · iapply (pd 81 32 8 rfl (off1_32 L) (by decide) (k0_off241 L) (src112 L) (dstOff_81 L)); iexact Ho81
  isplitl [Ho82]
  · iapply (pd 82 32 9 rfl (off1_32 L) (by decide) (k0_off244 L) (src0 L) (dstOff_82 L)); iexact Ho82
  isplitl [Ho83]
  · iapply (pd 83 32 9 rfl (off1_32 L) (by decide) (k0_off247 L) (src112 L) (dstOff_83 L)); iexact Ho83
  isplitl [Ho84]
  · iapply (pd 84 32 10 rfl (off1_32 L) (by decide) (k0_off250 L) (src0 L) (dstOff_84 L)); iexact Ho84
  isplitl [Ho85]
  · iapply (pd 85 32 10 rfl (off1_32 L) (by decide) (k0_off253 L) (src112 L) (dstOff_85 L)); iexact Ho85
  isplitl [Ho86]
  · iapply (pd 86 32 11 rfl (off1_32 L) (by decide) (k0_off256 L) (src0 L) (dstOff_86 L)); iexact Ho86
  isplitl [Ho87]
  · iapply (pd 87 32 11 rfl (off1_32 L) (by decide) (k0_off259 L) (src112 L) (dstOff_87 L)); iexact Ho87
  isplitl [Ho88]
  · iapply (pd 88 32 12 rfl (off1_32 L) (by decide) (k0_off262 L) (src0 L) (dstOff_88 L)); iexact Ho88
  isplitl [Ho89]
  · iapply (pd 89 32 12 rfl (off1_32 L) (by decide) (k0_off265 L) (src112 L) (dstOff_89 L)); iexact Ho89
  isplitl [Ho90]
  · iapply (pd 90 32 13 rfl (off1_32 L) (by decide) (k0_off268 L) (src0 L) (dstOff_90 L)); iexact Ho90
  isplitl [Ho91]
  · iapply (pd 91 32 13 rfl (off1_32 L) (by decide) (k0_off271 L) (src112 L) (dstOff_91 L)); iexact Ho91
  isplitl [Ho92]
  · iapply (pd 92 32 14 rfl (off1_32 L) (by decide) (k0_off274 L) (src0 L) (dstOff_92 L)); iexact Ho92
  isplitl [Ho93]
  · iapply (pd 93 32 14 rfl (off1_32 L) (by decide) (k0_off277 L) (src112 L) (dstOff_93 L)); iexact Ho93
  isplitl [Ho94]
  · iapply (pd 94 32 15 rfl (off1_32 L) (by decide) (k0_off280 L) (src0 L) (dstOff_94 L)); iexact Ho94
  isplitl [Ho95]
  · iapply (pd 95 32 15 rfl (off1_32 L) (by decide) (k0_off283 L) (src112 L) (dstOff_95 L)); iexact Ho95
  iempintro))

end Cert.Proof.KI
-- ==== Proof.KI.Run.lean ====
import proofs.«215561_g44298292691222_cont_8to1_c_1064_17_alg».proof.Proof.KI.Setup
import proofs.«215561_g44298292691222_cont_8to1_c_1064_17_alg».proof.Proof.KI.Pieces
import proofs.«215561_g44298292691222_cont_8to1_c_1064_17_alg».proof.Proof.KI.Words
import proofs.«215561_g44298292691222_cont_8to1_c_1064_17_alg».proof.Proof.KI.Final
import proofs.«215561_g44298292691222_cont_8to1_c_1064_17_alg».proof.Proof.KI.Finals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (d : Dev nD) (L : grid0.Coords)

/-- Piece `n` as the run leaves it: written whole from a buffer into which the source half-plane was written whole, the source
    channel being lane `t` of the vector loaded `K` words past the tile's first channel, with `K + t = n / 2`. It holds the channel permutation. -/
theorem piece_done (fx : Buf (Elt F) ((thrV d L).loc main_arg0_scv)) (fp : Buf (Elt F) ((thrV d L).loc main_arg1_scv))
    (fo : Buf (Elt F) ((thrV d L).loc main_v0_scv)) (hfp : ∀ j, (fp j).toNat < 192) (f0 : Buf (Elt F) ((thrV d L).loc cc0_scratch0))
    (n : Fin 96) (K t : ℕ) (e : K + t = n.val / 2)
    {k : BitVec 32} (hK : k0_off1 L k = ![cBase L + K]) (hK16 : K + 16 ≤ 48)
    (oS : BitVec 32 → Fin 4 → ℕ) (hS : ∀ w, oS w = ![bOf L, w.toNat, 112 * (n.val % 2), 0])
    {offD : Fin 4 → ℕ} (hD : offD = sliceOff L n)
    {hin : ∀ a, k0_off1 L k a + S16.size a ≤ S192.size a} {hc : S16.ShapeCasts S16} {hs : S16.Slices ![t] S1}
    {hp : ∀ a, (![0] : Fin 1 → ℕ) a < S1.size a} {vS : View sig .scVector .vmem S112x224 .f32} {fk : vS.ty.Contents (Elt F)}
    {hinS : ∀ a, oS (word d L fp f0 k hin hc t hs hp) a + S1x1x112x224.size a ≤ S8x192x224x224.size a}
    {hinD : ∀ a, offD a + S1x1x112x224.size a ≤ S8x192x224x224.size a} :
    ((View.loc (thrV d L) (oPiece offD hinD).view ↦[(oPiece offD hinD).view.set]{fullShare}
        (oPiece offD hinD).view.writes (Elt F) fo [⟨Rect.whole S112x224, ReadAs.same.apply (View.read (Elt F) vS (View.write (Elt F) vS fk
          (ReadAs.same.apply (View.read (Elt F) (xPiece (oS (word d L fp f0 k hin hc t hs hp)) hinS).view fx)) Finset.univ))⟩]) : sProp 𝕄)
      ⊢ (View.loc (thrV d L) (oPiece offD hinD).view ↦[(oPiece offD hinD).view.set]{fullShare}
          (Cert.Spec.G fx fp : Buf (Elt F) ((thrV d L).loc main_v0_scv))) := by
  have hw := word_eq d L fp f0 hK hK16 hin hc hs hp e (chan_lt L n)
  exact Entails.of_eq (piece_final d L n fx fp fo vS fk _ hw (by rw [hw]; exact hfp _) _ offD (hS _) hD hinS hinD)

theorem waits_base {W : Waits sig (HIx 1)} : ∀ p ∈ W, p ∈ W ∨ p.2 = none := fun _ hp => .inl hp

theorem waits_insert {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

set_option maxHeartbeats 64000000 in
/-- One tile's program run to its end: every piece then holds the channel permutation of the input. -/
theorem tile_run (O : CellTallies nD τ sig (HIx 1)) (W : Waits sig (HIx 1)) (qx qp : PosShare TreeShare)
    (fx : Buf (Elt F) ((thrV d L).loc main_arg0_scv)) (fp : Buf (Elt F) ((thrV d L).loc main_arg1_scv)) (fo : Buf (Elt F) ((thrV d L).loc main_v0_scv))
    (f0 : Buf (Elt F) ((thrV d L).loc cc0_scratch0))
    (f1 : Buf (Elt F) ((thrV d L).loc cc0_scratch1)) (f2 : Buf (Elt F) ((thrV d L).loc cc0_scratch2))
    (f3 : Buf (Elt F) ((thrV d L).loc cc0_scratch3)) (f4 : Buf (Elt F) ((thrV d L).loc cc0_scratch4))
    (hfp : ∀ j, (fp j).toNat < 192) (prog : Prog (TpuEff nD τ sig (Elt F) Λ₀ (thrV d L).2) PUnit)
    (hprog : prog = cc0__shuffle_body (F := F) L xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0) :
    iprop(Transfers.MayWaits (thrV d L) (none : HIx 1) O
        ∗ ((xW).view.loc (thrV d L) ↦{Transfers.shareTok qx 4 0} fx)
        ∗ ((xW).view.loc (thrV d L) ↦{Transfers.shareTok qx 4 1} fx)
        ∗ ((xW).view.loc (thrV d L) ↦{Transfers.shareTok qx 4 2} fx)
        ∗ ((xW).view.loc (thrV d L) ↦{Transfers.shareTok qx 4 3} fx)
        ∗ ((pW).view.loc (thrV d L) ↦{qp} fp)
        ∗ ((s0W).view.loc (thrV d L) ↦{fullShare} f0)
        ∗ ((s1W).view.loc (thrV d L) ↦{fullShare} f1)
        ∗ ((s2W).view.loc (thrV d L) ↦{fullShare} f2)
        ∗ ((s3W).view.loc (thrV d L) ↦{fullShare} f3)
        ∗ ((s4W).view.loc (thrV d L) ↦{fullShare} f4)
        ∗ semVal (thrV d L, SemLoc.dma cc0_scratch5.sem) 0
        ∗ semVal (thrV d L, SemLoc.dma cc0_scratch6.sem) 0
        ∗ semVal (thrV d L, SemLoc.dma cc0_scratch7.sem) 0
        ∗ semVal (thrV d L, SemLoc.dma cc0_scratch8.sem) 0
        ∗ semVal (thrV d L, SemLoc.dma cc0_scratch9.sem) 0
        ∗ semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scoped0.sem) 0
        ∗ heldPieces d L fo
        ∗ owes (thrV d L) O W)
      ⊢ (wp frame (wpE (defs₀ (F := F)) 𝒱₀ (thrV d L) none) Set.univ
          prog
          fun _ => iprop(((xW).view.loc (thrV d L) ↦{Transfers.shareTok qx 4 0} fx)
            ∗ ((xW).view.loc (thrV d L) ↦{Transfers.shareTok qx 4 1} fx)
            ∗ ((xW).view.loc (thrV d L) ↦{Transfers.shareTok qx 4 2} fx)
            ∗ ((xW).view.loc (thrV d L) ↦{Transfers.shareTok qx 4 3} fx)
            ∗ ((pW).view.loc (thrV d L) ↦{qp} fp)
            ∗ (∃ f, (s0W).view.loc (thrV d L) ↦{fullShare} f)
            ∗ (∃ f, (s1W).view.loc (thrV d L) ↦{fullShare} f)
            ∗ (∃ f, (s2W).view.loc (thrV d L) ↦{fullShare} f)
            ∗ (∃ f, (s3W).view.loc (thrV d L) ↦{fullShare} f)
            ∗ (∃ f, (s4W).view.loc (thrV d L) ↦{fullShare} f)
            ∗ semVal (thrV d L, SemLoc.dma cc0_scratch5.sem) 0
            ∗ semVal (thrV d L, SemLoc.dma cc0_scratch6.sem) 0
            ∗ semVal (thrV d L, SemLoc.dma cc0_scratch7.sem) 0
            ∗ semVal (thrV d L, SemLoc.dma cc0_scratch8.sem) 0
            ∗ semVal (thrV d L, SemLoc.dma cc0_scratch9.sem) 0
            ∗ semVal (thrV d L, SemLoc.dma cc0_scratch10.sem) 0
            ∗ semVal (thrV d L, SemLoc.dma cc0_scratch11.sem) 0
            ∗ semVal (thrV d L, SemLoc.dma cc0_scratch12.sem) 0
            ∗ semVal (thrV d L, SemLoc.dma cc0_scoped0.sem) 0
            ∗ heldPieces d L (Cert.Spec.G fx fp)
            ∗ ∃ W', ⌜∀ p ∈ W', p ∈ W ∨ p.2 = none⌝ ∗ owes (thrV d L) O W') : sProp 𝕄) := by
  subst hprog
  unfold heldPieces held
  iintro ⟨Hmw, Hx0, Hx1, Hx2, Hx3, Hp, Hs0, Hs1, Hs2, Hs3, Hs4, Hg0, Hg1, Hg2, Hg3, Hq0, Hq1, Hq2, Hq3, Hsc, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, Ho80, Ho81, Ho82, Ho83, Ho84, Ho85, Ho86, Ho87, Ho88, Ho89, Ho90, Ho91, Ho92, Ho93, Ho94, Ho95, -⟩, HO⟩

  have hany := any_lt d L fp hfp f0
  sl_exec (disch := (chk_norm; exact hany _ _ _))
  sl_step
  iclear Hmw
  isplitl [Hx0]; · iexact Hx0
  isplitl [Hx1]; · iexact Hx1
  isplitl [Hx2]; · iexact Hx2
  isplitl [Hx3]; · iexact Hx3
  isplitl [Hp]; · iexact Hp
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hg2]; · iexact Hg2
  isplitl [Hg3]; · iexact Hg3
  isplitl [Hq0]; · iexact Hq0
  isplitl [Hq1]; · iexact Hq1
  isplitl [Hq2]; · iexact Hq2
  isplitl [Hq3]; · iexact Hq3
  isplitl [Hsc]; · iexact Hsc
  isplitr [HO]
  · have pd := piece_done d L fx fp fo hfp f0
    close_pieces
  · iexists _
    isplitr
    swap
    · iexact HO
    · ipureintro
      repeat (first | exact waits_base | apply waits_insert)

end Cert.Proof.KI

end
-- ==== Proof.KI.Body.lean ====
import proofs.«215561_g44298292691222_cont_8to1_c_1064_17_alg».proof.Proof.KI.Run

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- What the tile's program uses of its own storage, split off from what the launch deals it. -/
def tileSems : Finset (SemLoc sig) :=
  {SemLoc.dma cc0_scratch5.sem, SemLoc.dma cc0_scratch6.sem, SemLoc.dma cc0_scratch7.sem, SemLoc.dma cc0_scratch8.sem,
    SemLoc.dma cc0_scratch9.sem, SemLoc.dma cc0_scratch10.sem, SemLoc.dma cc0_scratch11.sem, SemLoc.dma cc0_scratch12.sem,
    SemLoc.dma cc0_scoped0.sem}

def tileCell (thr : Thread nD τ) : SemLoc sig ↪ GSem nD τ sig := ⟨fun sm => (thr, sm), fun _ _ h => (Prod.mk.inj h).2⟩

theorem tileSems_scoped : ∀ sm ∈ (tileSems : Finset (SemLoc sig)), sm.isScoped .scVector = true := by decide

def tileBufs : Finset (Ref sig .scVector) := {cc0_scratch0, cc0_scratch1, cc0_scratch2, cc0_scratch3, cc0_scratch4}

def tileRef (d : Dev nD) (L : grid0.Coords) : Ref sig .scVector ↪ DevRef τ sig := ⟨(thrV d L).2.devRef, Proc.devRef_injective _⟩

omit [FloatOps F] in
theorem ownSems0_tile (d : Dev nD) (L : grid0.Coords) :
    (ownSems0 (thrV d L) : sProp 𝕄)
      = iprop((semVal (thrV d L, SemLoc.dma cc0_scratch5.sem) 0
          ∗ semVal (thrV d L, SemLoc.dma cc0_scratch6.sem) 0
          ∗ semVal (thrV d L, SemLoc.dma cc0_scratch7.sem) 0
          ∗ semVal (thrV d L, SemLoc.dma cc0_scratch8.sem) 0
          ∗ semVal (thrV d L, SemLoc.dma cc0_scratch9.sem) 0
          ∗ semVal (thrV d L, SemLoc.dma cc0_scratch10.sem) 0
          ∗ semVal (thrV d L, SemLoc.dma cc0_scratch11.sem) 0
          ∗ semVal (thrV d L, SemLoc.dma cc0_scratch12.sem) 0
          ∗ semVal (thrV d L, SemLoc.dma cc0_scoped0.sem) 0)
          ∗ bigSep (ownCells (thrV d L) \ tileSems.map (tileCell (thrV d L))) fun g => semVal g 0) := by
  unfold SparseCore.Cfg.ownSems0
  rw [SparseCore.bigSep_sdiff_split' (t := tileSems.map (tileCell (thrV d L))) (fun g hg => by
      obtain ⟨sm, hsm, rfl⟩ := Finset.mem_map.mp hg
      exact mem_ownCells.mpr ⟨rfl, tileSems_scoped sm hsm⟩), bigSep_map]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem ownBufs_tile (d : Dev nD) (L : grid0.Coords) :
    (ownBufs (thrV d L) : sProp 𝕄)
      = iprop(((∃ f, (s0W).view.loc (thrV d L) ↦{fullShare} f) ∗ (∃ f, (s1W).view.loc (thrV d L) ↦{fullShare} f)
          ∗ (∃ f, (s2W).view.loc (thrV d L) ↦{fullShare} f) ∗ (∃ f, (s3W).view.loc (thrV d L) ↦{fullShare} f)
          ∗ (∃ f, (s4W).view.loc (thrV d L) ↦{fullShare} f))
          ∗ bigSep (ownRefs (thrV d L).2 \ tileBufs.map (tileRef d L)) fun b => iprop(∃ f, (((thrV d L).1, b) : Loc nD τ sig) ↦{fullShare} f)) := by
  unfold SparseCore.Cfg.ownBufs
  rw [SparseCore.bigSep_sdiff_split' (t := tileBufs.map (tileRef d L)) (fun b hb => by
      obtain ⟨r, hr, rfl⟩ := Finset.mem_map.mp hb
      simp only [tileBufs, Finset.mem_insert, Finset.mem_singleton] at hr
      rcases hr with rfl | rfl | rfl | rfl | rfl <;> exact SparseCore.Cfg.mem_ownRefs_of_owner rfl), bigSep_map]
  unfold tileBufs
  rw [SparseCore.bigSep_insert' (by decide), SparseCore.bigSep_insert' (by decide), SparseCore.bigSep_insert' (by decide),
    SparseCore.bigSep_insert' (by decide), bigSep_singleton]
  rfl

omit [FloatOps F] in

theorem xW_pts (d : Dev nD) (L : grid0.Coords) (q : PosShare TreeShare) (f : Buf (Elt F) (xLoc d)) :
    ((xW).view.loc (thrV d L) ↦{q} f : sProp 𝕄) = xLoc d ↦{q} f := by
  simp only [Memref.view_whole, View.set_whole]
omit [FloatOps F] in

theorem pW_pts (d : Dev nD) (L : grid0.Coords) (q : PosShare TreeShare) (f : Buf (Elt F) (pLoc d)) :
    ((pW).view.loc (thrV d L) ↦{q} f : sProp 𝕄) = pLoc d ↦{q} f := by
  simp only [Memref.view_whole, View.set_whole]

omit [FloatOps F] in

theorem readToks4 (ℓ : Loc nD τ sig) (q : PosShare TreeShare) (f : Buf (Elt F) ℓ) :
    (bigSep Finset.univ (fun k : Fin 4 => (ℓ ↦{Transfers.shareTok q 4 k} f : sProp 𝕄)))
      = iprop((ℓ ↦{Transfers.shareTok q 4 0} f) ∗ (ℓ ↦{Transfers.shareTok q 4 1} f) ∗ (ℓ ↦{Transfers.shareTok q 4 2} f)
          ∗ (ℓ ↦{Transfers.shareTok q 4 3} f) ∗ emp) :=
  Cert.Lib.bigSep_univ_fin 4 _

/-- The body obligation of one tile: handed its read shares and its 96 pieces, it hands them back with every piece at the channel permutation. -/
theorem tile_body (d : Dev nD) (c : Fin 2) (i : Fin 16) (hpre : PreOK m d)
    (O : CellTallies nD τ sig (HIx 1)) (W : Waits sig (HIx 1)) (hO : ∀ g, O g none = 0) :
    iprop(levAts (K (F := F)).L (K (F := F)).lev ∗ emp ∗ goT m d c i
        ∗ scopedBufs (thrV d (coordsV c i)) ∗ scopedSems0 (thrV d (coordsV c i)) ∗ owes (thrV d (coordsV c i)) O W)
      ⊢ (wp frame (wpE (defs₀ (F := F)) 𝒱₀ (thrV d (coordsV c i)) none) Set.univ
          (cc0__shuffle_body (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0)
          fun _ => iprop(tdT m d c i ∗ scopedBufs (thrV d (coordsV c i)) ∗ scopedSems0 (thrV d (coordsV c i))
            ∗ ∃ W', ⌜∀ p ∈ W', p ∈ W ∨ p.2 = none⌝ ∗ owes (thrV d (coordsV c i)) O W') : sProp 𝕄) := by
  generalize hprog : cc0__shuffle_body (F := F) (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0 = prog
  rw [(K (F := F)).scopedBufs_V facts d _ _, SparseCore.Cfg.scopedSems0_V (Val := Elt F) d _ _, ownSems0_tile, ownBufs_tile]
  unfold goT tdT
  rw [← heldPieces_eq d (coordsV c i) (m (oLoc d)), ← heldPieces_eq d (coordsV c i) (Gm m d),
    ← xW_pts d (coordsV c i), ← pW_pts d (coordsV c i)]
  iintro ⟨#Hlv, -, ⟨Hx, Hp, Hpc⟩, ⟨⟨⟨%f0, Hs0⟩, ⟨%f1, Hs1⟩, ⟨%f2, Hs2⟩, ⟨%f3, Hs3⟩, ⟨%f4, Hs4⟩⟩, Hbufs⟩,
    ⟨⟨H5, H6, H7, H8, H9, H10, H11, H12, H13⟩, Hsems⟩, HO⟩
  ihave Hmw := ((K (F := F)).mayWaits_none (thr := thrV d (coordsV c i)) hO) $$ Hlv

  ihave Hx4 := (Transfers.pointsTo_toks_split (qT c i) 4) $$ Hx
  icases Hx4 with ⟨Hxr, Htoks⟩
  ihave Ht := (Entails.of_eq (readToks4 _ (qT c i) _)) $$ Htoks
  icases Ht with ⟨Ht0, Ht1, Ht2, Ht3, -⟩
  have run := tile_run d (coordsV c i) O W (qT c i) (qT c i) (m (xLoc d)) (m (pLoc d)) (m (oLoc d)) f0 f1 f2 f3 f4 hpre prog hprog.symm
  iapply (run.trans (wp_wand frame _ _)) $$ [Hmw Ht0 Ht1 Ht2 Ht3 Hp Hs0 Hs1 Hs2 Hs3 Hs4 H5 H6 H7 H8 H9 H10 H11 H12 H13 Hpc HO]
  · iframe; iexact Hmw
  iintro %_ ⟨Ht0, Ht1, Ht2, Ht3, Hp, Hs0, Hs1, Hs2, Hs3, Hs4, H5, H6, H7, H8, H9, H10, H11, H12, H13, Hpc, HW⟩
  ihave Hx := (Transfers.pointsTo_toks_join (qT c i) 4) $$ [Hxr Ht0 Ht1 Ht2 Ht3]
  · rw [readToks4]; iframe
  iframe

end Cert.Proof.KI

end
-- ==== Proof.KI.Split.lean ====
import proofs.«215561_g44298292691222_cont_8to1_c_1064_17_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A piece is one batch element, one channel and one half of the rows. -/
theorem mem_slSet (L : grid0.Coords) (n : Fin 96) (j : S8x192x224x224.Idx) :
    j ∈ slSet L n ↔ (j 0).val = bOf L ∧ (j 1).val = cBase L + n.val / 2
      ∧ 112 * (n.val % 2) ≤ (j 2).val ∧ (j 2).val < 112 * (n.val % 2) + 112 := by
  unfold slSet
  rw [Rect.mem_set_unit]
  have h3 : (j 3).val < 224 := (j 3).isLt
  constructor
  · intro h
    have h0 := h 0
    have h1 := h 1
    have h2 := h 2
    change bOf L ≤ (j 0).val ∧ (j 0).val < bOf L + 1 at h0
    change cBase L + n.val / 2 ≤ (j 1).val ∧ (j 1).val < cBase L + n.val / 2 + 1 at h1
    change 112 * (n.val % 2) ≤ (j 2).val ∧ (j 2).val < 112 * (n.val % 2) + 112 at h2
    omega
  · rintro ⟨h0, h1, h2, h2'⟩ a
    match a with
    | ⟨0, _⟩ => show bOf L ≤ (j 0).val ∧ (j 0).val < bOf L + 1; omega
    | ⟨1, _⟩ => show cBase L + n.val / 2 ≤ (j 1).val ∧ (j 1).val < cBase L + n.val / 2 + 1; omega
    | ⟨2, _⟩ => show 112 * (n.val % 2) ≤ (j 2).val ∧ (j 2).val < 112 * (n.val % 2) + 112; omega
    | ⟨3, _⟩ => show 0 ≤ (j 3).val ∧ (j 3).val < 0 + 224; omega

theorem wid_coordsV (c : Fin 2) (i : Fin 16) : wid (coordsV c i) = 2 * i.val + c.val := rfl

/-- An index lies in at most one piece: core, tile and piece number are read off its coordinates. -/
theorem slSet_inj {c c' : Fin 2} {i i' : Fin 16} {n n' : Fin 96} {j : S8x192x224x224.Idx}
    (h : j ∈ slSet (coordsV c i) n) (h' : j ∈ slSet (coordsV c' i') n') : c = c' ∧ i = i' ∧ n = n' := by
  rw [mem_slSet] at h h'
  unfold bOf cBase at h h'
  rw [wid_coordsV] at h h'
  have hc : c.val < 2 := c.isLt
  have hc' : c'.val < 2 := c'.isLt
  have hi : i.val < 16 := i.isLt
  have hi' : i'.val < 16 := i'.isLt
  have hn : n.val < 96 := n.isLt
  have hn' : n'.val < 96 := n'.isLt
  refine ⟨Fin.ext ?_, Fin.ext ?_, Fin.ext ?_⟩ <;> omega

def tilePieces (c : Fin 2) (i : Fin 16) : Finset S8x192x224x224.Idx := Finset.univ.biUnion fun n : Fin 96 => slSet (coordsV c i) n
def corePieces (c : Fin 2) : Finset S8x192x224x224.Idx := Finset.univ.biUnion fun i : Fin 16 => tilePieces c i

theorem mem_tilePieces {c : Fin 2} {i : Fin 16} {j : S8x192x224x224.Idx} : j ∈ tilePieces c i ↔ ∃ n, j ∈ slSet (coordsV c i) n := by
  simp only [tilePieces, Finset.mem_biUnion, Finset.mem_univ, true_and]
theorem mem_corePieces {c : Fin 2} {j : S8x192x224x224.Idx} : j ∈ corePieces c ↔ ∃ i n, j ∈ slSet (coordsV c i) n := by
  simp only [corePieces, Finset.mem_biUnion, Finset.mem_univ, true_and, mem_tilePieces]
  exact Iff.rfl

theorem pieces_disjoint (c : Fin 2) (i : Fin 16) : ∀ n ∈ (Finset.univ : Finset (Fin 96)), ∀ n' ∈ (Finset.univ : Finset (Fin 96)),
    n ≠ n' → Disjoint (slSet (coordsV c i) n) (slSet (coordsV c i) n') :=
  fun _ _ _ _ hne => Finset.disjoint_left.mpr fun _ h h' => hne (slSet_inj h h').2.2
theorem tiles_disjoint (c : Fin 2) : ∀ i ∈ (Finset.univ : Finset (Fin 16)), ∀ i' ∈ (Finset.univ : Finset (Fin 16)),
    i ≠ i' → Disjoint (tilePieces c i) (tilePieces c i') :=
  fun _ _ _ _ hne => Finset.disjoint_left.mpr fun _ h h' => by
    obtain ⟨n, hn⟩ := mem_tilePieces.mp h
    obtain ⟨n', hn'⟩ := mem_tilePieces.mp h'
    exact hne (slSet_inj hn hn').2.1
theorem cores_disjoint : ∀ c ∈ (Finset.univ : Finset (Fin 2)), ∀ c' ∈ (Finset.univ : Finset (Fin 2)),
    c ≠ c' → Disjoint (corePieces c) (corePieces c') :=
  fun _ _ _ _ hne => Finset.disjoint_left.mpr fun _ h h' => by
    obtain ⟨i, n, hn⟩ := mem_corePieces.mp h
    obtain ⟨i', n', hn'⟩ := mem_corePieces.mp h'
    exact hne (slSet_inj hn hn').1

/-- Every index lies in some piece: worker `4 b + ch / 48`, piece `2 (ch % 48) + row / 112`. -/
theorem cores_cover : (Finset.univ : Finset (Fin 2)).biUnion corePieces = Finset.univ := by
  ext j
  simp only [Finset.mem_biUnion, Finset.mem_univ, true_and, iff_true, mem_corePieces]
  have h0 : (j 0).val < 8 := (j 0).isLt
  have h1 : (j 1).val < 192 := (j 1).isLt
  have h2 : (j 2).val < 224 := (j 2).isLt
  have hw : (4 * (j 0).val + (j 1).val / 48) / 2 < 16 := by omega
  have hp : 2 * ((j 1).val % 48) + (j 2).val / 112 < 96 := by omega
  refine ⟨⟨(4 * (j 0).val + (j 1).val / 48) % 2, Nat.mod_lt _ (by decide)⟩, (⟨(4 * (j 0).val + (j 1).val / 48) / 2, hw⟩ : Fin 16),
    ⟨2 * ((j 1).val % 48) + (j 2).val / 112, hp⟩, ?_⟩
  rw [mem_slSet]
  unfold bOf cBase
  rw [wid_coordsV]
  simp only []
  omega

variable [FloatOps F] (m : (ℓ : Loc nD τ sig) → Buf (Elt F) ℓ)

/-- So the whole output array is the iterated separating conjunction of the 2 × 16 × 96 pieces. -/
theorem oPts_pieces (d : Dev nD) (f : Buf (Elt F) (oLoc d)) :
    (oLoc d ↦{fullShare} f : sProp 𝕄) = bigSep Finset.univ fun c : Fin 2 => bigSep Finset.univ fun i : Fin 16 =>
      bigSep Finset.univ fun n : Fin 96 => oLoc d ↦[slSet (coordsV c i) n]{fullShare} f := by
  have h1 : (oLoc d ↦[(Finset.univ : Finset (Fin 2)).biUnion corePieces]{fullShare} f : sProp 𝕄)
      = bigSep Finset.univ fun c : Fin 2 => oLoc d ↦[corePieces c]{fullShare} f :=
    pointsTo_biUnion Finset.univ (ℓ := oLoc d) corePieces cores_disjoint
  have h2 : ∀ c : Fin 2, (oLoc d ↦[corePieces c]{fullShare} f : sProp 𝕄)
      = bigSep Finset.univ fun i : Fin 16 => oLoc d ↦[tilePieces c i]{fullShare} f :=
    fun c => pointsTo_biUnion Finset.univ (ℓ := oLoc d) (tilePieces c) (tiles_disjoint c)
  have h3 : ∀ (c : Fin 2) (i : Fin 16), (oLoc d ↦[tilePieces c i]{fullShare} f : sProp 𝕄)
      = bigSep Finset.univ fun n : Fin 96 => oLoc d ↦[slSet (coordsV c i) n]{fullShare} f :=
    fun c i => pointsTo_biUnion Finset.univ (ℓ := oLoc d) (fun n => slSet (coordsV c i) n) (pieces_disjoint c i)
  rw [cores_cover] at h1
  refine Eq.trans ?_ (h1.trans (bigSep_congr fun c _ => (h2 c).trans (bigSep_congr fun i _ => h3 c i)))
  rfl

theorem P_st (d : Dev nD) (c : Fin ((K (F := F)).nCore 0)) : (P m).st 0 d c = stC m d (Fin.cast nCore_zero c) := rfl
theorem P_dn (d : Dev nD) (c : Fin ((K (F := F)).nCore 0)) : (P m).dn 0 d c = dnC m d (Fin.cast nCore_zero c) := rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem st_cores (d : Dev nD) :
    (bigSep Finset.univ fun c : Fin ((K (F := F)).nCore 0) => (P m).st 0 d c) = bigSep Finset.univ fun c : Fin 2 => stC m d c :=
  bigSep_cores (F := F) (fun c => stC m d c)
theorem dn_cores (d : Dev nD) :
    (bigSep Finset.univ fun c : Fin ((K (F := F)).nCore 0) => (P m).dn 0 d c) = bigSep Finset.univ fun c : Fin 2 => dnC m d c :=
  bigSep_cores (F := F) (fun c => dnC m d c)
theorem go_tiles (d : Dev nD) (c : Fin ((K (F := F)).nCore 0)) :
    (bigSep Finset.univ fun i : Fin ((K (F := F)).nSub 0) => (P m).go 0 d c i)
      = bigSep Finset.univ fun i : Fin 16 => goT m d (Fin.cast nCore_zero c) i :=
  bigSep_tiles (F := F) (fun i => goT m d (Fin.cast nCore_zero c) i)
theorem td_tiles (d : Dev nD) (c : Fin ((K (F := F)).nCore 0)) :
    (bigSep Finset.univ fun i : Fin ((K (F := F)).nSub 0) => (P m).td 0 d c i)
      = bigSep Finset.univ fun i : Fin 16 => tdT m d (Fin.cast nCore_zero c) i :=
  bigSep_tiles (F := F) (fun i => tdT m d (Fin.cast nCore_zero c) i)

def keepTC (d : Dev nD) : sProp 𝕄 :=
  iprop((xLoc d ↦{Transfers.shareDrop fullShare 2} m (xLoc d)) ∗ (pLoc d ↦{Transfers.shareDrop fullShare 2} m (pLoc d)))

theorem st_split (d : Dev nD) :
    iprop((xLoc d ↦{fullShare} m (xLoc d)) ∗ (pLoc d ↦{fullShare} m (pLoc d)) ∗ (oLoc d ↦{fullShare} m (oLoc d)))
      ⊢ (iprop(keepTC m d ∗ bigSep Finset.univ fun c : Fin ((K (F := F)).nCore 0) => (P m).st 0 d c) : sProp 𝕄) := by
  rw [st_cores]
  unfold keepTC stC
  rw [bigSep_sep', bigSep_sep', oPts_pieces (F := F) d (m (oLoc d))]
  iintro ⟨Hx, Hp, Ho⟩
  ihave Hx' := (Transfers.pointsTo_toks_split (ℓ := xLoc d) (S := Finset.univ) (f := m (xLoc d)) fullShare 2) $$ Hx
  ihave Hp' := (Transfers.pointsTo_toks_split (ℓ := pLoc d) (S := Finset.univ) (f := m (pLoc d)) fullShare 2) $$ Hp
  icases Hx' with ⟨Hxd, Hxt⟩
  icases Hp' with ⟨Hpd, Hpt⟩
  isplitl [Hxd Hpd]
  · isplitl [Hxd]; · iexact Hxd
    iexact Hpd
  isplitl [Hxt]; · iexact Hxt
  isplitl [Hpt]; · iexact Hpt
  iexact Ho

theorem dn_join (d : Dev nD) :
    iprop(keepTC m d ∗ bigSep Finset.univ fun c : Fin ((K (F := F)).nCore 0) => (P m).dn 0 d c)
      ⊢ (iprop((xLoc d ↦{fullShare} m (xLoc d)) ∗ (pLoc d ↦{fullShare} m (pLoc d)) ∗ (oLoc d ↦{fullShare} Gm m d)) : sProp 𝕄) := by
  rw [dn_cores]
  unfold keepTC dnC
  rw [bigSep_sep', bigSep_sep', oPts_pieces (F := F) d (Gm m d)]
  iintro ⟨⟨Hxd, Hpd⟩, Hxt, Hpt, Ho⟩
  isplitl [Hxd Hxt]
  · iapply (Transfers.pointsTo_toks_join (ℓ := xLoc d) (S := Finset.univ) (f := m (xLoc d)) fullShare 2)
    isplitl [Hxd]; · iexact Hxd
    iexact Hxt
  isplitl [Hpd Hpt]
  · iapply (Transfers.pointsTo_toks_join (ℓ := pLoc d) (S := Finset.univ) (f := m (pLoc d)) fullShare 2)
    isplitl [Hpd]; · iexact Hpd
    iexact Hpt
  iexact Ho

theorem vecSplit_core (d : Dev nD) (c : Fin 2) :
    stC m d c ⊢ |={Set.univ}=> (iprop((bigSep Finset.univ fun i : Fin 16 => goT m d c i)
      ∗ ((bigSep Finset.univ fun i : Fin 16 => tdT m d c i) -∗ dnC m d c)) : sProp 𝕄) := by
  unfold stC goT tdT dnC
  rw [bigSep_sep', bigSep_sep', bigSep_sep', bigSep_sep']
  iintro ⟨Hx, Hp, Ho⟩
  ihave Hx' := (Transfers.pointsTo_toks_split (ℓ := xLoc d) (S := Finset.univ) (f := m (xLoc d)) (qC c) 16) $$ Hx
  ihave Hp' := (Transfers.pointsTo_toks_split (ℓ := pLoc d) (S := Finset.univ) (f := m (pLoc d)) (qC c) 16) $$ Hp
  icases Hx' with ⟨Hxd, Hxt⟩
  icases Hp' with ⟨Hpd, Hpt⟩
  imodintro
  isplitl [Hxt Hpt Ho]
  · isplitl [Hxt]; · iexact Hxt
    isplitl [Hpt]; · iexact Hpt
    iexact Ho
  iintro ⟨Hxt, Hpt, Ho⟩
  isplitl [Hxd Hxt]
  · iapply (Transfers.pointsTo_toks_join (ℓ := xLoc d) (S := Finset.univ) (f := m (xLoc d)) (qC c) 16)
    isplitl [Hxd]; · iexact Hxd
    iexact Hxt
  isplitl [Hpd Hpt]
  · iapply (Transfers.pointsTo_toks_join (ℓ := pLoc d) (S := Finset.univ) (f := m (pLoc d)) (qC c) 16)
    isplitl [Hpd]; · iexact Hpd
    iexact Hpt
  iexact Ho

theorem vecSplit : (K (F := F)).VecSplit' (P m) 0 := by
  intro d c
  show (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c))
  rw [P_st, P_dn, go_tiles, td_tiles]
  exact vecSplit_core m d (Fin.cast nCore_zero c)

end Cert.Proof.KI

end
-- ==== Proof.KI.Launch.lean ====
import proofs.«215561_g44298292691222_cont_8to1_c_1064_17_alg».proof.Proof.KI.Setup
import proofs.«215561_g44298292691222_cont_8to1_c_1064_17_alg».proof.Proof.KI.Body
import proofs.«215561_g44298292691222_cont_8to1_c_1064_17_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

theorem defs₀_vector (c : Fin τ.nSC) (s : Fin τ.nSub) :
    defs₀ (F := F) (.scVector c s) 0 ()
      = SparseCore.onTile hcore0 hsub0 (fun c s => cc0__shuffle_body (coordsV c s)
          xW (Memref.isWhole_whole _) pW (Memref.isWhole_whole _) oW (Memref.isWhole_whole _)
          s0W (Memref.isWhole_whole _) s1W (Memref.isWhole_whole _) s2W (Memref.isWhole_whole _)
          s3W (Memref.isWhole_whole _) s4W (Memref.isWhole_whole _)
          cc0_scratch5 cc0_scratch6 cc0_scratch7 cc0_scratch8 cc0_scratch9 cc0_scratch10 cc0_scratch11 cc0_scratch12
          cc0_scoped0) ⟨⟩ c s := rfl

omit [FloatOps F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_body_at (d : Dev nD) (c : Fin 2) (i : Fin 16) (hpre : PreOK m d)
    (O : CellTallies nD τ sig (HIx 1)) (W : Waits sig (HIx 1)) (hO : ∀ g, O g none = 0)
    (thr : Thread nD τ) (hthr : thr = thrV d (coordsV c i))
    (prog : Prog (TpuEff nD τ sig (Elt F) Λ₀ thr.2) PUnit)
    (hprog : HEq prog (cc0__shuffle_body (F := F) (coordsV c i)
      xW (Memref.isWhole_whole _) pW (Memref.isWhole_whole _) oW (Memref.isWhole_whole _)
      s0W (Memref.isWhole_whole _) s1W (Memref.isWhole_whole _) s2W (Memref.isWhole_whole _)
      s3W (Memref.isWhole_whole _) s4W (Memref.isWhole_whole _)
      cc0_scratch5 cc0_scratch6 cc0_scratch7 cc0_scratch8 cc0_scratch9 cc0_scratch10 cc0_scratch11 cc0_scratch12 cc0_scoped0)) :
    iprop(levAts (K (F := F)).L (K (F := F)).lev ∗ emp ∗ goT m d c i ∗ scopedBufs thr ∗ scopedSems0 thr ∗ owes thr O W)
      ⊢ (wp frame (wpE (defs₀ (F := F)) 𝒱₀ thr none) Set.univ prog
          fun _ => iprop(tdT m d c i ∗ scopedBufs thr ∗ scopedSems0 thr
            ∗ ∃ W', ⌜∀ p ∈ W', p ∈ W ∨ p.2 = none⌝ ∗ owes thr O W') : sProp 𝕄) := by
  subst hthr
  obtain rfl := eq_of_heq hprog
  exact tile_body m d c i hpre O W hO

/-- Every tile meets its obligation, by `tile_body` at the tile's coordinates. -/
theorem tileObl (hpre : ∀ d, PreOK m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ (wp_mono frame _ _ fun _ => obl_post (q := 0))
  have e0 : (P m).x 0 (V d ((K (F := F)).core 0 c) ((K (F := F)).sub 0 i)) = iprop(emp) := rfl
  have e1 : (P m).go 0 d c i = goT m d ⟨_, hc.1⟩ ⟨_, hc.2⟩ := rfl
  have e4 : (P m).td 0 d c i = tdT m d ⟨_, hc.1⟩ ⟨_, hc.2⟩ := rfl
  rw [e0, e1, e4]
  generalize hq : cc0__shuffle_body (F := F) (coordsV ⟨_, hc.1⟩ ⟨_, hc.2⟩) xW (Memref.isWhole_whole _) pW (Memref.isWhole_whole _) oW (Memref.isWhole_whole _)
      s0W (Memref.isWhole_whole _) s1W (Memref.isWhole_whole _) s2W (Memref.isWhole_whole _) s3W (Memref.isWhole_whole _) s4W (Memref.isWhole_whole _)
      cc0_scratch5 cc0_scratch6 cc0_scratch7 cc0_scratch8 cc0_scratch9 cc0_scratch10 cc0_scratch11 cc0_scratch12 cc0_scoped0 = prog
  exact tile_body_at m d ⟨_, hc.1⟩ ⟨_, hc.2⟩ (hpre d) O W hO (V d ((K (F := F)).core 0 c) ((K (F := F)).sub 0 i)) rfl prog (heq_of_eq hq.symm)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev z' : DevRef τ sig := Proc.devRef .tc (main_cst : Ref sig .tc)

abbrev opCst : HloOp τ sig (Elt F) := StableHlo.nullary main_cst (constant S_ .f32 0x00000000#32)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1)
      ∗ (oLoc d ↦{fullShare} W main_v0) ∗ zLoc d ↦{fullShare} W main_cst) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

def V0 (d : Dev nD) : Valuation τ sig (Elt F) := fun b => m (d, b)

omit [FloatOps F] in
theorem held_z (d : Dev nD) (W : Valuation τ sig (Elt F)) :
    (StableHlo.held (T d) ({z'} : Finset (DevRef τ sig)) W : sProp 𝕄) = (zLoc d ↦{fullShare} W z') := by
  unfold StableHlo.held
  rw [bigSep_singleton]

abbrev FIN (d : Dev nD) : sProp 𝕄 :=
  iprop((xLoc d ↦{fullShare} m (xLoc d)) ∗ (pLoc d ↦{fullShare} m (pLoc d)) ∗ (oLoc d ↦{fullShare} Gm m d)
    ∗ zLoc d ↦{fullShare} (constant (F := F) S_ .f32 0x00000000#32 : Buf (Elt F) (zLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho, Hz⟩, -, -⟩, -⟩
  ihave Hs := (st_split m d) $$ [Hx Hp Ho]
  · isplitl [Hx]; · iexact Hx
    isplitl [Hp]; · iexact Hp
    iexact Ho
  icases Hs with ⟨Hkeep, Hst0⟩
  iapply ((K (F := F)).wp_run (D (F := F)) 𝒱 (EH := EH) (P := P m) κ d 0) $$ [Hst Hst0 Hkeep Hb Hz]
  isplitr; · iexact Hctx
  isplitl [Hst]; · iexact Hst
  isplitl [Hst0]; · iexact Hst0
  iintro ⟨Hst, Hdn⟩
  ihave Hj := (dn_join m d) $$ [Hkeep Hdn]
  · isplitl [Hkeep]; · iexact Hkeep
    iexact Hdn
  icases Hj with ⟨Hx, Hp, Ho⟩
  iapply (wp_hlo_within 𝒱 (SparseCore.T d) none Set.univ (op := opCst) (S := ({z'} : Finset (DevRef τ sig))) (Finset.Subset.refl _) (V := V0 m d)) $$ [Hb Hz]
  · isplitl [Hb]; · iexact Hb
    rw [held_z]; iexact Hz
  iintro ⟨Hb, Hheld⟩
  ihave Hz := (Entails.of_eq (held_z (F := F) d _)) $$ Hheld
  rw [wp_ret]; imodintro; imodintro
  isplitl [Hst]; · iexact Hst
  isplitl [Hx]; · iexact Hx
  isplitl [Hp]; · iexact Hp
  isplitl [Ho]; · iexact Ho
  rw [StableHlo.nullary_result]
  iexact Hz

def fq (d : Dev nD) (s' : Phys nD τ sig (Elt F)) : Prop :=
  s'.mem.mem (oLoc d) = Gm m d ∧ s'.mem.mem (zLoc d) = constant (F := F) S_ .f32 0x00000000#32
    ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hx, Hp, Ho, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := oLoc d) (I := Finset.univ) (q := fullShare) (f := Gm m d))) $$ [HSI Ho]
  · isplitl [HSI] <;> iassumption
  icases H with ⟨%h3, HSI, -⟩
  ihave H := (SI_pointsTo_agree (st := s') (ℓ := zLoc d) (I := Finset.univ) (q := fullShare) (f := (constant (F := F) S_ .f32 0x00000000#32 : Buf (Elt F) (zLoc d)))) $$ [HSI Hz]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

def QC : PUnit × MemSt nD τ sig (Elt F) → Prop := fun r => ∀ c : Dev nD,
  r.2.mem (oLoc c) = Gm m c ∧ r.2.mem (zLoc c) = constant (F := F) S_ .f32 0x00000000#32
    ∧ r.2.mem (xLoc c) = m (xLoc c) ∧ r.2.mem (pLoc c) = m (pLoc c)

/-- Under the precondition every weakly fair execution ends with the first result the channel permutation of the two arguments, the second the zero scalar, the arguments unchanged. -/
theorem run_main [∀ e, Nonempty (Elt F e)] (hpre : ∀ d, PreOK m d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Setup.lean ====
import proofs.«215561_g44298292691222_cont_8to1_c_1064_17_alg».proof.Defs
import proofs.«215561_g44298292691222_cont_8to1_c_1064_17_alg».proof.Proof.Spec
import Idealize.ShloMosaic.Lib.Transfers
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215561_g44298292691222_cont_8to1_c_1064_17_alg».proof.Proof.Gen.Kernel
import proofs.«215561_g44298292691222_cont_8to1_c_1064_17_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The three arrays and the tile's five buffers, each as the whole memref the kernel function is handed. -/
scoped notation "xW" => (Memref.whole Cert.Kernel.main_arg0_scv : Memref Cert.Kernel.sig Kind.scVector Space.hbm Cert.Kernel.S8x192x224x224 EltTy.f32)
scoped notation "pW" => (Memref.whole Cert.Kernel.main_arg1_scv : Memref Cert.Kernel.sig Kind.scVector Space.hbm Cert.Kernel.S192 EltTy.i32)
scoped notation "oW" => (Memref.whole Cert.Kernel.main_v0_scv : Memref Cert.Kernel.sig Kind.scVector Space.hbm Cert.Kernel.S8x192x224x224 EltTy.f32)
scoped notation "s0W" => (Memref.whole Cert.Kernel.cc0_scratch0 : Memref Cert.Kernel.sig Kind.scVector Space.vmem Cert.Kernel.S192 EltTy.i32)
scoped notation "s1W" => (Memref.whole Cert.Kernel.cc0_scratch1 : Memref Cert.Kernel.sig Kind.scVector Space.vmem Cert.Kernel.S112x224 EltTy.f32)
scoped notation "s2W" => (Memref.whole Cert.Kernel.cc0_scratch2 : Memref Cert.Kernel.sig Kind.scVector Space.vmem Cert.Kernel.S112x224 EltTy.f32)
scoped notation "s3W" => (Memref.whole Cert.Kernel.cc0_scratch3 : Memref Cert.Kernel.sig Kind.scVector Space.vmem Cert.Kernel.S112x224 EltTy.f32)
scoped notation "s4W" => (Memref.whole Cert.Kernel.cc0_scratch4 : Memref Cert.Kernel.sig Kind.scVector Space.vmem Cert.Kernel.S112x224 EltTy.f32)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0
abbrev zLoc (d : Dev nD) : Loc nD τ sig := (SparseCore.T d).loc main_cst

def coordsV (c : Fin (grid0.bound 0)) (s : Fin (grid0.bound 1)) : grid0.Coords :=
  fun | 0 => c | 1 => s | ⟨_ + 2, h⟩ => absurd h (Nat.not_lt.2 (Nat.le_add_left _ _))

abbrev thrV (d : Dev nD) (L : grid0.Coords) : Thread nD τ := V d ((L 0).castLE hcore0) ((L 1).castLE hsub0)

/-- Tile `s` of core `c` is worker `2 s + c` of 32; worker `w` serves batch element `w / 4` and the 48 channels from `(w % 4) · 48`. -/
def wid (L : grid0.Coords) : ℕ := 2 * (L 1).val + (L 0).val
def bOf (L : grid0.Coords) : ℕ := wid L / 4
def cBase (L : grid0.Coords) : ℕ := wid L % 4 * 48

theorem wid_lt (L : grid0.Coords) : wid L < 32 := by
  have h0 : (L 0).val < 2 := (L 0).isLt
  have h1 : (L 1).val < 16 := (L 1).isLt
  unfold wid; omega
theorem bOf_lt (L : grid0.Coords) : bOf L < 8 := by have := wid_lt L; unfold bOf; omega
theorem cBase_le (L : grid0.Coords) : cBase L ≤ 144 := by unfold cBase; omega

/-- Piece `n = 2 l + h` of a tile is half `h` (112 rows) of the plane of its channel `l`. -/
def sliceOff (L : grid0.Coords) (n : Fin 96) : Fin 4 → ℕ := ![bOf L, cBase L + n.val / 2, 112 * (n.val % 2), 0]

theorem sliceOff_inb (L : grid0.Coords) (n : Fin 96) : ∀ a, sliceOff L n a + S1x1x112x224.size a ≤ S8x192x224x224.size a := by
  have hb := bOf_lt L
  have hc := cBase_le L
  have hn : n.val < 96 := n.isLt
  intro a
  match a with
  | ⟨0, _⟩ => show bOf L + 1 ≤ 8; omega
  | ⟨1, _⟩ => show cBase L + n.val / 2 + 1 ≤ 192; omega
  | ⟨2, _⟩ => show 112 * (n.val % 2) + 112 ≤ 224; omega
  | ⟨3, _⟩ => show 0 + 224 ≤ 224; omega

abbrev sliceRect (L : grid0.Coords) (n : Fin 96) : Rect S8x192x224x224 :=
  Rect.unit (s := S8x192x224x224) (sliceOff L n) S1x1x112x224.size (sliceOff_inb L n)

def slSet (L : grid0.Coords) (n : Fin 96) : Finset S8x192x224x224.Idx := (sliceRect L n).set

/-- Both inputs are only read: each core gets one read share, each tile one share of its core's. -/
abbrev qC (c : Fin 2) : PosShare TreeShare := Transfers.shareTok fullShare 2 c
abbrev qT (c : Fin 2) (i : Fin 16) : PosShare TreeShare := Transfers.shareTok (qC c) 16 i

variable (m : (ℓ : Loc nD τ sig) → Buf (Elt F) ℓ)

abbrev Gm (d : Dev nD) : Buf (Elt F) (oLoc d) := Cert.Spec.G (m (xLoc d)) (m (pLoc d))

/-- A tile is handed its read shares and its 96 pieces at the launch contents, and hands them back at the channel permutation. -/
def goT (d : Dev nD) (c : Fin 2) (i : Fin 16) : sProp 𝕄 :=
  iprop((xLoc d ↦{qT c i} m (xLoc d)) ∗ (pLoc d ↦{qT c i} m (pLoc d))
    ∗ bigSep Finset.univ fun n : Fin 96 => oLoc d ↦[slSet (coordsV c i) n]{fullShare} m (oLoc d))

def tdT (d : Dev nD) (c : Fin 2) (i : Fin 16) : sProp 𝕄 :=
  iprop((xLoc d ↦{qT c i} m (xLoc d)) ∗ (pLoc d ↦{qT c i} m (pLoc d))
    ∗ bigSep Finset.univ fun n : Fin 96 => oLoc d ↦[slSet (coordsV c i) n]{fullShare} Gm m d)

/-- A core is handed, and hands back, the same for all its tiles. -/
def stC (d : Dev nD) (c : Fin 2) : sProp 𝕄 :=
  iprop((xLoc d ↦{qC c} m (xLoc d)) ∗ (pLoc d ↦{qC c} m (pLoc d))
    ∗ bigSep Finset.univ fun i : Fin 16 => bigSep Finset.univ fun n : Fin 96 => oLoc d ↦[slSet (coordsV c i) n]{fullShare} m (oLoc d))
def dnC (d : Dev nD) (c : Fin 2) : sProp 𝕄 :=
  iprop((xLoc d ↦{qC c} m (xLoc d)) ∗ (pLoc d ↦{qC c} m (pLoc d))
    ∗ bigSep Finset.univ fun i : Fin 16 => bigSep Finset.univ fun n : Fin 96 => oLoc d ↦[slSet (coordsV c i) n]{fullShare} Gm m d)

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P stC; infer_instance
  dn q d c := match q with | 0 => by unfold P dnC; infer_instance
  go q d c i := match q with | 0 => by unfold P goT; infer_instance
  td q d c i := match q with | 0 => by unfold P tdT; infer_instance

def PreOK (d : Dev nD) : Prop := ∀ j, (m (pLoc d) j).toNat < 192

end Cert.Proof.KB

end
-- ==== Proof.KB.Value.lean ====
import proofs.«215561_g44298292691222_cont_8to1_c_1064_17_alg».proof.Proof.KB.Setup

noncomputable section

namespace Cert.Proof.KB

open Cert.Kernel Cert.Kernel.Gen

open Idealize.ShloMosaic
open Idealize.ShloMosaic.ValueIdx
open Idealize.ShloMosaic.SparseCore (S V T)
open Idealize.SL Idealize.SL.RA Idealize.SL.BI
open scoped Idealize.SL.BI

/-- The 112 × 224 piece of `M` at `off`: one batch element, one channel, 112 rows, the two unit axes dropped. -/
abbrev pieceOfM (M : Memref sig .scVector .hbm S8x192x224x224 .f32) (off : Fin 4 → ℕ)
    (hin : ∀ a, off a + S1x1x112x224.size a ≤ S8x192x224x224.size a) : Memref sig .scVector .hbm S112x224 .f32 :=
  (M.slice (Rect.unit (s := S8x192x224x224) off S1x1x112x224.size hin) (fun _ => rfl)).squeeze S112x224 squeezes_S1x1x112x224_S112x224

abbrev xPiece (off : Fin 4 → ℕ) (hin : ∀ a, off a + S1x1x112x224.size a ≤ S8x192x224x224.size a) :
    Memref sig .scVector .hbm S112x224 .f32 := pieceOfM xW off hin
abbrev oPiece (off : Fin 4 → ℕ) (hin : ∀ a, off a + S1x1x112x224.size a ≤ S8x192x224x224.size a) :
    Memref sig .scVector .hbm S112x224 .f32 := pieceOfM oW off hin

theorem pc_lt0 {off : Fin 4 → ℕ} (hin : ∀ a, off a + S1x1x112x224.size a ≤ S8x192x224x224.size a) : off 0 < 8 := by
  have := hin 0; change off 0 + 1 ≤ 8 at this; omega
theorem pc_lt1 {off : Fin 4 → ℕ} (hin : ∀ a, off a + S1x1x112x224.size a ≤ S8x192x224x224.size a) : off 1 < 192 := by
  have := hin 1; change off 1 + 1 ≤ 192 at this; omega
theorem pc_lt2 {off : Fin 4 → ℕ} (hin : ∀ a, off a + S1x1x112x224.size a ≤ S8x192x224x224.size a) (y : S112x224.Idx) :
    off 2 + (y 0).val < 224 := by
  have := hin 2; change off 2 + 112 ≤ 224 at this; have : (y 0).val < 112 := (y 0).isLt; omega
theorem pc_lt3 {off : Fin 4 → ℕ} (hin : ∀ a, off a + S1x1x112x224.size a ≤ S8x192x224x224.size a) (y : S112x224.Idx) :
    off 3 + (y 1).val < 224 := by
  have := hin 3; change off 3 + 224 ≤ 224 at this; have : (y 1).val < 224 := (y 1).isLt; omega

/-- Element `y` of the piece at `off` is `(off 0, off 1, off 2 + y 0, off 3 + y 1)` of the whole array. -/
abbrev pieceIdx (off : Fin 4 → ℕ) (hin : ∀ a, off a + S1x1x112x224.size a ≤ S8x192x224x224.size a) (y : S112x224.Idx) :
    S8x192x224x224.Idx :=
  ix4 (n0 := 8) (n1 := 192) (n2 := 224) (n3 := 224) ⟨off 0, pc_lt0 hin⟩ ⟨off 1, pc_lt1 hin⟩
    ⟨off 2 + (y 0).val, pc_lt2 hin y⟩ ⟨off 3 + (y 1).val, pc_lt3 hin y⟩

/-- Dropping the two unit axes keeps the row-major order. -/
theorem unsqueeze_eq (h : S112x224.numel = S1x1x112x224.numel) (y : S112x224.Idx) :
    Shape.reshapeEquiv h y = ix4 (n0 := 1) (n1 := 1) (n2 := 112) (n3 := 224) ⟨0, Nat.one_pos⟩ ⟨0, Nat.one_pos⟩ (y 0) (y 1) :=
  Shape.reshapeEquiv_eq_of_rowMajor h (by
    rw [Shape.rowMajor_val_four, Shape.rowMajor_val_two]
    show ((0 * 1 + 0) * 112 + (y 0).val) * 224 + (y 1).val = (y 0).val * 224 + (y 1).val
    omega)

theorem emb_pieceOfM (M : Memref sig .scVector .hbm S8x192x224x224 .f32) (off : Fin 4 → ℕ)
    (hin : ∀ a, off a + S1x1x112x224.size a ≤ S8x192x224x224.size a) (y : S112x224.Idx) :
    (pieceOfM M off hin).view.emb y = M.view.emb (pieceIdx off hin y) := by
  show M.view.emb ((Rect.unit (s := S8x192x224x224) off S1x1x112x224.size hin).emb
    (Shape.reshapeEquiv squeezes_S1x1x112x224_S112x224.numel_eq y)) = _
  rw [unsqueeze_eq]
  congr 1
  funext a
  refine Fin.ext ?_
  match a with
  | ⟨0, _⟩ => show off 0 + 1 * 0 = off 0; omega
  | ⟨1, _⟩ => show off 1 + 1 * 0 = off 1; omega
  | ⟨2, _⟩ => show off 2 + 1 * (y 0).val = off 2 + (y 0).val; omega
  | ⟨3, _⟩ => show off 3 + 1 * (y 1).val = off 3 + (y 1).val; omega

theorem emb_piece_x (off : Fin 4 → ℕ) (hin : ∀ a, off a + S1x1x112x224.size a ≤ S8x192x224x224.size a) (y : S112x224.Idx) :
    (xPiece off hin).view.emb y = pieceIdx off hin y :=
  emb_pieceOfM xW off hin y
theorem emb_piece_o (off : Fin 4 → ℕ) (hin : ∀ a, off a + S1x1x112x224.size a ≤ S8x192x224x224.size a) (y : S112x224.Idx) :
    (oPiece off hin).view.emb y = pieceIdx off hin y :=
  emb_pieceOfM oW off hin y

theorem set_piece_o (off : Fin 4 → ℕ) (hin : ∀ a, off a + S1x1x112x224.size a ≤ S8x192x224x224.size a) :
    (oPiece off hin).view.set = (Rect.unit (s := S8x192x224x224) off S1x1x112x224.size hin).set :=
  (View.set_reshape ..).trans (View.set_slice_whole main_v0_scv _)
theorem set_piece_slice (L : grid0.Coords) (n : Fin 96) (off : Fin 4 → ℕ)
    (hin : ∀ a, off a + S1x1x112x224.size a ≤ S8x192x224x224.size a) (h : off = sliceOff L n) :
    (oPiece off hin).view.set = slSet L n := by
  subst h
  exact set_piece_o _ hin

theorem chan_lt (L : grid0.Coords) (n : Fin 96) : cBase L + n.val / 2 < 192 := by
  have := cBase_le L; have : n.val < 96 := n.isLt; omega

/-- Piece `n` and its source differ only in the channel, which is the one the index word names: element by element the source holds the channel permutation's value. -/
theorem piece_value (L : grid0.Coords) (n : Fin 96) {α : Type} (fx : Cert.Spec.SX.Idx → α) (p : Cert.Spec.SP.Idx → BitVec 32)
    (w : BitVec 32) (hw : w = p (ix1 ⟨cBase L + n.val / 2, chan_lt L n⟩)) (hlt : w.toNat < 192)
    (offS offD : Fin 4 → ℕ) (hS : offS = ![bOf L, w.toNat, 112 * (n.val % 2), 0]) (hD : offD = sliceOff L n)
    (hinS : ∀ a, offS a + S1x1x112x224.size a ≤ S8x192x224x224.size a)
    (hinD : ∀ a, offD a + S1x1x112x224.size a ≤ S8x192x224x224.size a) (y : S112x224.Idx) :
    fx ((xPiece offS hinS).view.emb y) = Cert.Spec.G fx p ((oPiece offD hinD).view.emb y) := by
  subst hS hD
  rw [emb_piece_x, emb_piece_o]
  unfold Cert.Spec.G Cert.Spec.src
  congr 1
  funext a
  refine Fin.ext ?_
  match a with
  | ⟨0, _⟩ => rfl
  | ⟨1, _⟩ =>
    show w.toNat = (p (ix1 ⟨cBase L + n.val / 2, chan_lt L n⟩)).toNat % 192
    rw [← hw, Nat.mod_eq_of_lt hlt]
  | ⟨2, _⟩ => rfl
  | ⟨3, _⟩ => rfl

end Cert.Proof.KB

end
-- ==== Proof.KB.Checks.lean ====
import proofs.«215561_g44298292691222_cont_8to1_c_1064_17_alg».proof.Proof.KB.Setup

namespace Cert.Proof.KB

open Cert.Kernel Cert.Kernel.Gen

open Idealize.ShloMosaic

/-- A half-plane at batch element `b < 8`, channel `v`, rows from `H` (with `H + 112 ≤ 224`) lies inside the array exactly when the
    channel does. -/
theorem inb_iff {off : Fin 4 → ℕ} {b v H : ℕ} (h : off = ![b, v, H, 0]) (hb : b < 8) (hH : H + 112 ≤ 224) :
    (∀ a, off a + S1x1x112x224.size a ≤ S8x192x224x224.size a) ↔ v < 192 := by
  subst h
  constructor
  · intro h
    have h1 := h 1
    change v + 1 ≤ 192 at h1
    omega
  · intro hv a
    match a with
    | ⟨0, _⟩ => show b + 1 ≤ 8; omega
    | ⟨1, _⟩ => show v + 1 ≤ 192; omega
    | ⟨2, _⟩ => show H + 112 ≤ 224; omega
    | ⟨3, _⟩ => show 0 + 224 ≤ 224; omega

theorem inb_iff₂ {off off' : Fin 4 → ℕ} {b v H : ℕ} (h : off = ![b, v, H, 0]) (h' : off' = ![b, v, H, 0]) (hb : b < 8) (hH : H + 112 ≤ 224) :
    ((∀ a, off a + S1x1x112x224.size a ≤ S8x192x224x224.size a) ∧ (∀ a, off' a + S1x1x112x224.size a ≤ S8x192x224x224.size a)) ↔ v < 192 := by
  rw [inb_iff h hb hH, inb_iff h' hb hH, and_self]

end Cert.Proof.KB
-- ==== Proof.KB.Offsets.lean ====
import proofs.«215561_g44298292691222_cont_8to1_c_1064_17_alg».proof.Proof.KB.Checks

noncomputable section

namespace Cert.Proof.KB

open Cert.Kernel Cert.Kernel.Gen
open Idealize.ShloMosaic

theorem bword_eq : ∀ L : grid0.Coords, k0_off2 L 0#32 ⟨0, by decide⟩ = bOf L := by decide +kernel

section
variable (L : grid0.Coords) (w : BitVec 32)

/-- A copy out of the input starts at (batch element, the index word, first row of the half, 0). The printed offset functions of one
    half differ only in the names of their bound variables, so the two stated here serve for all of them. -/
theorem src0 : k0_off2 L w = ![bOf L, w.toNat, 0, 0] := by
  funext a; match a with | ⟨0, _⟩ => exact bword_eq L | ⟨1, _⟩ => rfl | ⟨2, _⟩ => rfl | ⟨3, _⟩ => rfl
theorem src112 : k0_off3 L w = ![bOf L, w.toNat, 112, 0] := by
  funext a; match a with | ⟨0, _⟩ => exact bword_eq L | ⟨1, _⟩ => rfl | ⟨2, _⟩ => rfl | ⟨3, _⟩ => rfl

/-- Each printed predicate on an index word says that the word is below 192; again one statement per half serves for all. -/
theorem chk_1 : k0_chk1 L w ↔ w.toNat < 192 := inb_iff₂ (src0 L w) (src0 L w) (bOf_lt L) (by decide)
theorem chk_2 : k0_chk2 L w ↔ w.toNat < 192 := inb_iff₂ (src112 L w) (src112 L w) (bOf_lt L) (by decide)
theorem chk_3 : k0_chk3 L w ↔ w.toNat < 192 := chk_1 L w
theorem chk_4 : k0_chk4 L w ↔ w.toNat < 192 := chk_2 L w
theorem chk_5 : k0_chk5 L w ↔ w.toNat < 192 := chk_1 L w
theorem chk_6 : k0_chk6 L w ↔ w.toNat < 192 := chk_2 L w
theorem chk_7 : k0_chk7 L w ↔ w.toNat < 192 := chk_1 L w
theorem chk_8 : k0_chk8 L w ↔ w.toNat < 192 := chk_2 L w
theorem chk_9 : k0_chk9 L w ↔ w.toNat < 192 := chk_1 L w
theorem chk_10 : k0_chk10 L w ↔ w.toNat < 192 := chk_2 L w
theorem chk_11 : k0_chk11 L w ↔ w.toNat < 192 := chk_1 L w
theorem chk_12 : k0_chk12 L w ↔ w.toNat < 192 := chk_2 L w
theorem chk_13 : k0_chk13 L w ↔ w.toNat < 192 := chk_1 L w
theorem chk_14 : k0_chk14 L w ↔ w.toNat < 192 := chk_2 L w
theorem chk_15 : k0_chk15 L w ↔ w.toNat < 192 := chk_1 L w
theorem chk_16 : k0_chk16 L w ↔ w.toNat < 192 := chk_2 L w
theorem chk_17 : k0_chk17 L w ↔ w.toNat < 192 := chk_1 L w
theorem chk_18 : k0_chk18 L w ↔ w.toNat < 192 := chk_2 L w
theorem chk_19 : k0_chk19 L w ↔ w.toNat < 192 := chk_1 L w
theorem chk_20 : k0_chk20 L w ↔ w.toNat < 192 := chk_2 L w
theorem chk_21 : k0_chk21 L w ↔ w.toNat < 192 := chk_1 L w
theorem chk_22 : k0_chk22 L w ↔ w.toNat < 192 := chk_2 L w
theorem chk_23 : k0_chk23 L w ↔ w.toNat < 192 := chk_1 L w
theorem chk_24 : k0_chk24 L w ↔ w.toNat < 192 := chk_2 L w
theorem chk_25 : k0_chk25 L w ↔ w.toNat < 192 := chk_1 L w
theorem chk_26 : k0_chk26 L w ↔ w.toNat < 192 := chk_2 L w
theorem chk_27 : k0_chk27 L w ↔ w.toNat < 192 := chk_1 L w
theorem chk_28 : k0_chk28 L w ↔ w.toNat < 192 := chk_2 L w
theorem chk_29 : k0_chk29 L w ↔ w.toNat < 192 := chk_1 L w
theorem chk_30 : k0_chk30 L w ↔ w.toNat < 192 := chk_2 L w
theorem chk_31 : k0_chk31 L w ↔ w.toNat < 192 := chk_1 L w
theorem chk_32 : k0_chk32 L w ↔ w.toNat < 192 := chk_2 L w
theorem chk_33 : k0_chk33 L w ↔ w.toNat < 192 := chk_1 L w
theorem chk_34 : k0_chk34 L w ↔ w.toNat < 192 := chk_2 L w
theorem chk_35 : k0_chk35 L w ↔ w.toNat < 192 := chk_1 L w
theorem chk_36 : k0_chk36 L w ↔ w.toNat < 192 := chk_2 L w
theorem chk_37 : k0_chk37 L w ↔ w.toNat < 192 := chk_1 L w
theorem chk_38 : k0_chk38 L w ↔ w.toNat < 192 := chk_2 L w
theorem chk_39 : k0_chk39 L w ↔ w.toNat < 192 := chk_1 L w
theorem chk_40 : k0_chk40 L w ↔ w.toNat < 192 := chk_2 L w
theorem chk_41 : k0_chk41 L w ↔ w.toNat < 192 := chk_1 L w
theorem chk_42 : k0_chk42 L w ↔ w.toNat < 192 := chk_2 L w
theorem chk_43 : k0_chk43 L w ↔ w.toNat < 192 := chk_1 L w
theorem chk_44 : k0_chk44 L w ↔ w.toNat < 192 := chk_2 L w
theorem chk_45 : k0_chk45 L w ↔ w.toNat < 192 := chk_1 L w
theorem chk_46 : k0_chk46 L w ↔ w.toNat < 192 := chk_2 L w
theorem chk_47 : k0_chk47 L w ↔ w.toNat < 192 := chk_1 L w
theorem chk_48 : k0_chk48 L w ↔ w.toNat < 192 := chk_2 L w
theorem chk_49 : k0_chk49 L w ↔ w.toNat < 192 := chk_1 L w
theorem chk_50 : k0_chk50 L w ↔ w.toNat < 192 := chk_2 L w
theorem chk_51 : k0_chk51 L w ↔ w.toNat < 192 := chk_1 L w
theorem chk_52 : k0_chk52 L w ↔ w.toNat < 192 := chk_2 L w
theorem chk_53 : k0_chk53 L w ↔ w.toNat < 192 := chk_1 L w
theorem chk_54 : k0_chk54 L w ↔ w.toNat < 192 := chk_2 L w
theorem chk_55 : k0_chk55 L w ↔ w.toNat < 192 := chk_1 L w
theorem chk_56 : k0_chk56 L w ↔ w.toNat < 192 := chk_2 L w
theorem chk_57 : k0_chk57 L w ↔ w.toNat < 192 := chk_1 L w
theorem chk_58 : k0_chk58 L w ↔ w.toNat < 192 := chk_2 L w
theorem chk_59 : k0_chk59 L w ↔ w.toNat < 192 := chk_1 L w
theorem chk_60 : k0_chk60 L w ↔ w.toNat < 192 := chk_2 L w
theorem chk_61 : k0_chk61 L w ↔ w.toNat < 192 := chk_1 L w
theorem chk_62 : k0_chk62 L w ↔ w.toNat < 192 := chk_2 L w
theorem chk_63 : k0_chk63 L w ↔ w.toNat < 192 := chk_1 L w
theorem chk_64 : k0_chk64 L w ↔ w.toNat < 192 := chk_2 L w
theorem chk_65 : k0_chk65 L w ↔ w.toNat < 192 := chk_1 L w
theorem chk_66 : k0_chk66 L w ↔ w.toNat < 192 := chk_2 L w
theorem chk_67 : k0_chk67 L w ↔ w.toNat < 192 := chk_1 L w
theorem chk_68 : k0_chk68 L w ↔ w.toNat < 192 := chk_2 L w
theorem chk_69 : k0_chk69 L w ↔ w.toNat < 192 := chk_1 L w
theorem chk_70 : k0_chk70 L w ↔ w.toNat < 192 := chk_2 L w
theorem chk_71 : k0_chk71 L w ↔ w.toNat < 192 := chk_1 L w
theorem chk_72 : k0_chk72 L w ↔ w.toNat < 192 := chk_2 L w
theorem chk_73 : k0_chk73 L w ↔ w.toNat < 192 := chk_1 L w
theorem chk_74 : k0_chk74 L w ↔ w.toNat < 192 := chk_2 L w
theorem chk_75 : k0_chk75 L w ↔ w.toNat < 192 := chk_1 L w
theorem chk_76 : k0_chk76 L w ↔ w.toNat < 192 := chk_2 L w
theorem chk_77 : k0_chk77 L w ↔ w.toNat < 192 := chk_1 L w
theorem chk_78 : k0_chk78 L w ↔ w.toNat < 192 := chk_2 L w
theorem chk_79 : k0_chk79 L w ↔ w.toNat < 192 := chk_1 L w
theorem chk_80 : k0_chk80 L w ↔ w.toNat < 192 := chk_2 L w
theorem chk_81 : k0_chk81 L w ↔ w.toNat < 192 := chk_1 L w
theorem chk_82 : k0_chk82 L w ↔ w.toNat < 192 := chk_2 L w
theorem chk_83 : k0_chk83 L w ↔ w.toNat < 192 := chk_1 L w
theorem chk_84 : k0_chk84 L w ↔ w.toNat < 192 := chk_2 L w
theorem chk_85 : k0_chk85 L w ↔ w.toNat < 192 := chk_1 L w
theorem chk_86 : k0_chk86 L w ↔ w.toNat < 192 := chk_2 L w
theorem chk_87 : k0_chk87 L w ↔ w.toNat < 192 := chk_1 L w
theorem chk_88 : k0_chk88 L w ↔ w.toNat < 192 := chk_2 L w
theorem chk_89 : k0_chk89 L w ↔ w.toNat < 192 := chk_1 L w
theorem chk_90 : k0_chk90 L w ↔ w.toNat < 192 := chk_2 L w
theorem chk_91 : k0_chk91 L w ↔ w.toNat < 192 := chk_1 L w
theorem chk_92 : k0_chk92 L w ↔ w.toNat < 192 := chk_2 L w
theorem chk_93 : k0_chk93 L w ↔ w.toNat < 192 := chk_1 L w
theorem chk_94 : k0_chk94 L w ↔ w.toNat < 192 := chk_2 L w
theorem chk_95 : k0_chk95 L w ↔ w.toNat < 192 := chk_1 L w
theorem chk_96 : k0_chk96 L w ↔ w.toNat < 192 := inb_iff (src112 L w) (bOf_lt L) (by decide)

end

macro "chk_norm" : tactic => `(tactic| simp only [chk_1, chk_2, chk_3, chk_4, chk_5, chk_6, chk_7, chk_8, chk_9, chk_10, chk_11, chk_12, chk_13, chk_14, chk_15, chk_16, chk_17, chk_18, chk_19, chk_20, chk_21, chk_22, chk_23, chk_24, chk_25, chk_26, chk_27, chk_28, chk_29, chk_30, chk_31, chk_32, chk_33, chk_34, chk_35, chk_36, chk_37, chk_38, chk_39, chk_40, chk_41, chk_42, chk_43, chk_44, chk_45, chk_46, chk_47, chk_48, chk_49, chk_50, chk_51, chk_52, chk_53, chk_54, chk_55, chk_56, chk_57, chk_58, chk_59, chk_60, chk_61, chk_62, chk_63, chk_64, chk_65, chk_66, chk_67, chk_68, chk_69, chk_70, chk_71, chk_72, chk_73, chk_74, chk_75, chk_76, chk_77, chk_78, chk_79, chk_80, chk_81, chk_82, chk_83, chk_84, chk_85, chk_86, chk_87, chk_88, chk_89, chk_90, chk_91, chk_92, chk_93, chk_94, chk_95, chk_96])

/-- Piece `n` of every tile is copied to the place `sliceOff` gives it: decided over the 32 tiles. -/
abbrev DstAt (f : grid0.Coords → Fin 4 → ℕ) (n : Fin 96) : Prop := ∀ L, f L = sliceOff L n

theorem dstOff_0 : DstAt k0_off6 0 := by decide +kernel
theorem dstOff_1 : DstAt k0_off9 1 := by decide +kernel
theorem dstOff_2 : DstAt k0_off12 2 := by decide +kernel
theorem dstOff_3 : DstAt k0_off15 3 := by decide +kernel
theorem dstOff_4 : DstAt k0_off18 4 := by decide +kernel
theorem dstOff_5 : DstAt k0_off21 5 := by decide +kernel
theorem dstOff_6 : DstAt k0_off24 6 := by decide +kernel
theorem dstOff_7 : DstAt k0_off27 7 := by decide +kernel
theorem dstOff_8 : DstAt k0_off30 8 := by decide +kernel
theorem dstOff_9 : DstAt k0_off33 9 := by decide +kernel
theorem dstOff_10 : DstAt k0_off36 10 := by decide +kernel
theorem dstOff_11 : DstAt k0_off39 11 := by decide +kernel
theorem dstOff_12 : DstAt k0_off42 12 := by decide +kernel
theorem dstOff_13 : DstAt k0_off45 13 := by decide +kernel
theorem dstOff_14 : DstAt k0_off48 14 := by decide +kernel
theorem dstOff_15 : DstAt k0_off51 15 := by decide +kernel
theorem dstOff_16 : DstAt k0_off54 16 := by decide +kernel
theorem dstOff_17 : DstAt k0_off57 17 := by decide +kernel
theorem dstOff_18 : DstAt k0_off60 18 := by decide +kernel
theorem dstOff_19 : DstAt k0_off63 19 := by decide +kernel
theorem dstOff_20 : DstAt k0_off66 20 := by decide +kernel
theorem dstOff_21 : DstAt k0_off69 21 := by decide +kernel
theorem dstOff_22 : DstAt k0_off72 22 := by decide +kernel
theorem dstOff_23 : DstAt k0_off75 23 := by decide +kernel
theorem dstOff_24 : DstAt k0_off78 24 := by decide +kernel
theorem dstOff_25 : DstAt k0_off81 25 := by decide +kernel
theorem dstOff_26 : DstAt k0_off84 26 := by decide +kernel
theorem dstOff_27 : DstAt k0_off87 27 := by decide +kernel
theorem dstOff_28 : DstAt k0_off90 28 := by decide +kernel
theorem dstOff_29 : DstAt k0_off93 29 := by decide +kernel
theorem dstOff_30 : DstAt k0_off96 30 := by decide +kernel
theorem dstOff_31 : DstAt k0_off99 31 := by decide +kernel
theorem dstOff_32 : DstAt k0_off102 32 := by decide +kernel
theorem dstOff_33 : DstAt k0_off105 33 := by decide +kernel
theorem dstOff_34 : DstAt k0_off108 34 := by decide +kernel
theorem dstOff_35 : DstAt k0_off111 35 := by decide +kernel
theorem dstOff_36 : DstAt k0_off114 36 := by decide +kernel
theorem dstOff_37 : DstAt k0_off117 37 := by decide +kernel
theorem dstOff_38 : DstAt k0_off120 38 := by decide +kernel
theorem dstOff_39 : DstAt k0_off123 39 := by decide +kernel
theorem dstOff_40 : DstAt k0_off126 40 := by decide +kernel
theorem dstOff_41 : DstAt k0_off129 41 := by decide +kernel
theorem dstOff_42 : DstAt k0_off132 42 := by decide +kernel
theorem dstOff_43 : DstAt k0_off135 43 := by decide +kernel
theorem dstOff_44 : DstAt k0_off138 44 := by decide +kernel
theorem dstOff_45 : DstAt k0_off141 45 := by decide +kernel
theorem dstOff_46 : DstAt k0_off144 46 := by decide +kernel
theorem dstOff_47 : DstAt k0_off147 47 := by decide +kernel
theorem dstOff_48 : DstAt k0_off150 48 := by decide +kernel
theorem dstOff_49 : DstAt k0_off153 49 := by decide +kernel
theorem dstOff_50 : DstAt k0_off156 50 := by decide +kernel
theorem dstOff_51 : DstAt k0_off159 51 := by decide +kernel
theorem dstOff_52 : DstAt k0_off162 52 := by decide +kernel
theorem dstOff_53 : DstAt k0_off165 53 := by decide +kernel
theorem dstOff_54 : DstAt k0_off168 54 := by decide +kernel
theorem dstOff_55 : DstAt k0_off171 55 := by decide +kernel
theorem dstOff_56 : DstAt k0_off174 56 := by decide +kernel
theorem dstOff_57 : DstAt k0_off177 57 := by decide +kernel
theorem dstOff_58 : DstAt k0_off180 58 := by decide +kernel
theorem dstOff_59 : DstAt k0_off183 59 := by decide +kernel
theorem dstOff_60 : DstAt k0_off186 60 := by decide +kernel
theorem dstOff_61 : DstAt k0_off189 61 := by decide +kernel
theorem dstOff_62 : DstAt k0_off192 62 := by decide +kernel
theorem dstOff_63 : DstAt k0_off195 63 := by decide +kernel
theorem dstOff_64 : DstAt k0_off198 64 := by decide +kernel
theorem dstOff_65 : DstAt k0_off201 65 := by decide +kernel
theorem dstOff_66 : DstAt k0_off204 66 := by decide +kernel
theorem dstOff_67 : DstAt k0_off207 67 := by decide +kernel
theorem dstOff_68 : DstAt k0_off210 68 := by decide +kernel
theorem dstOff_69 : DstAt k0_off213 69 := by decide +kernel
theorem dstOff_70 : DstAt k0_off216 70 := by decide +kernel
theorem dstOff_71 : DstAt k0_off219 71 := by decide +kernel
theorem dstOff_72 : DstAt k0_off222 72 := by decide +kernel
theorem dstOff_73 : DstAt k0_off225 73 := by decide +kernel
theorem dstOff_74 : DstAt k0_off228 74 := by decide +kernel
theorem dstOff_75 : DstAt k0_off231 75 := by decide +kernel
theorem dstOff_76 : DstAt k0_off234 76 := by decide +kernel
theorem dstOff_77 : DstAt k0_off237 77 := by decide +kernel
theorem dstOff_78 : DstAt k0_off240 78 := by decide +kernel
theorem dstOff_79 : DstAt k0_off243 79 := by decide +kernel
theorem dstOff_80 : DstAt k0_off246 80 := by decide +kernel
theorem dstOff_81 : DstAt k0_off249 81 := by decide +kernel
theorem dstOff_82 : DstAt k0_off252 82 := by decide +kernel
theorem dstOff_83 : DstAt k0_off255 83 := by decide +kernel
theorem dstOff_84 : DstAt k0_off258 84 := by decide +kernel
theorem dstOff_85 : DstAt k0_off261 85 := by decide +kernel
theorem dstOff_86 : DstAt k0_off264 86 := by decide +kernel
theorem dstOff_87 : DstAt k0_off267 87 := by decide +kernel
theorem dstOff_88 : DstAt k0_off270 88 := by decide +kernel
theorem dstOff_89 : DstAt k0_off273 89 := by decide +kernel
theorem dstOff_90 : DstAt k0_off276 90 := by decide +kernel
theorem dstOff_91 : DstAt k0_off279 91 := by decide +kernel
theorem dstOff_92 : DstAt k0_off282 92 := by decide +kernel
theorem dstOff_93 : DstAt (fun L => k0_off285 L 46#32) 93 := by decide +kernel
theorem dstOff_94 : DstAt k0_off287 94 := by decide +kernel
theorem dstOff_95 : DstAt (fun L => k0_off285 L 47#32) 95 := by decide +kernel

end Cert.Proof.KB

end
-- ==== Proof.KB.Pieces.lean ====
import proofs.«215561_g44298292691222_cont_8to1_c_1064_17_alg».proof.Proof.KB.Value
import proofs.«215561_g44298292691222_cont_8to1_c_1064_17_alg».proof.Proof.KB.Offsets
import proofs.«215561_g44298292691222_cont_8to1_c_1064_17_alg».proof.Proof.LibSepFin

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable [FloatOps F] (d : Dev nD) (L : grid0.Coords) (g : Buf (Elt F) ((thrV d L).loc main_v0_scv))

/-- The piece of the output at `off`, held whole at the contents `g`. -/
abbrev held (off : Fin 4 → ℕ) (hin : ∀ a, off a + S1x1x112x224.size a ≤ S8x192x224x224.size a) : sProp 𝕄 :=
  View.loc (thrV d L) (oPiece off hin).view ↦[(oPiece off hin).view.set]{fullShare} g

/-- The tile's 96 pieces, each held at the offsets the program computes for it. -/
def heldPieces : sProp 𝕄 :=
  iprop(held d L g (k0_off6 L) (k0_off6_inb L)
    ∗ held d L g (k0_off9 L) (k0_off9_inb L)
    ∗ held d L g (k0_off12 L) (k0_off12_inb L)
    ∗ held d L g (k0_off15 L) (k0_off15_inb L)
    ∗ held d L g (k0_off18 L) (k0_off18_inb L)
    ∗ held d L g (k0_off21 L) (k0_off21_inb L)
    ∗ held d L g (k0_off24 L) (k0_off24_inb L)
    ∗ held d L g (k0_off27 L) (k0_off27_inb L)
    ∗ held d L g (k0_off30 L) (k0_off30_inb L)
    ∗ held d L g (k0_off33 L) (k0_off33_inb L)
    ∗ held d L g (k0_off36 L) (k0_off36_inb L)
    ∗ held d L g (k0_off39 L) (k0_off39_inb L)
    ∗ held d L g (k0_off42 L) (k0_off42_inb L)
    ∗ held d L g (k0_off45 L) (k0_off45_inb L)
    ∗ held d L g (k0_off48 L) (k0_off48_inb L)
    ∗ held d L g (k0_off51 L) (k0_off51_inb L)
    ∗ held d L g (k0_off54 L) (k0_off54_inb L)
    ∗ held d L g (k0_off57 L) (k0_off57_inb L)
    ∗ held d L g (k0_off60 L) (k0_off60_inb L)
    ∗ held d L g (k0_off63 L) (k0_off63_inb L)
    ∗ held d L g (k0_off66 L) (k0_off66_inb L)
    ∗ held d L g (k0_off69 L) (k0_off69_inb L)
    ∗ held d L g (k0_off72 L) (k0_off72_inb L)
    ∗ held d L g (k0_off75 L) (k0_off75_inb L)
    ∗ held d L g (k0_off78 L) (k0_off78_inb L)
    ∗ held d L g (k0_off81 L) (k0_off81_inb L)
    ∗ held d L g (k0_off84 L) (k0_off84_inb L)
    ∗ held d L g (k0_off87 L) (k0_off87_inb L)
    ∗ held d L g (k0_off90 L) (k0_off90_inb L)
    ∗ held d L g (k0_off93 L) (k0_off93_inb L)
    ∗ held d L g (k0_off96 L) (k0_off96_inb L)
    ∗ held d L g (k0_off99 L) (k0_off99_inb L)
    ∗ held d L g (k0_off102 L) (k0_off102_inb L)
    ∗ held d L g (k0_off105 L) (k0_off105_inb L)
    ∗ held d L g (k0_off108 L) (k0_off108_inb L)
    ∗ held d L g (k0_off111 L) (k0_off111_inb L)
    ∗ held d L g (k0_off114 L) (k0_off114_inb L)
    ∗ held d L g (k0_off117 L) (k0_off117_inb L)
    ∗ held d L g (k0_off120 L) (k0_off120_inb L)
    ∗ held d L g (k0_off123 L) (k0_off123_inb L)
    ∗ held d L g (k0_off126 L) (k0_off126_inb L)
    ∗ held d L g (k0_off129 L) (k0_off129_inb L)
    ∗ held d L g (k0_off132 L) (k0_off132_inb L)
    ∗ held d L g (k0_off135 L) (k0_off135_inb L)
    ∗ held d L g (k0_off138 L) (k0_off138_inb L)
    ∗ held d L g (k0_off141 L) (k0_off141_inb L)
    ∗ held d L g (k0_off144 L) (k0_off144_inb L)
    ∗ held d L g (k0_off147 L) (k0_off147_inb L)
    ∗ held d L g (k0_off150 L) (k0_off150_inb L)
    ∗ held d L g (k0_off153 L) (k0_off153_inb L)
    ∗ held d L g (k0_off156 L) (k0_off156_inb L)
    ∗ held d L g (k0_off159 L) (k0_off159_inb L)
    ∗ held d L g (k0_off162 L) (k0_off162_inb L)
    ∗ held d L g (k0_off165 L) (k0_off165_inb L)
    ∗ held d L g (k0_off168 L) (k0_off168_inb L)
    ∗ held d L g (k0_off171 L) (k0_off171_inb L)
    ∗ held d L g (k0_off174 L) (k0_off174_inb L)
    ∗ held d L g (k0_off177 L) (k0_off177_inb L)
    ∗ held d L g (k0_off180 L) (k0_off180_inb L)
    ∗ held d L g (k0_off183 L) (k0_off183_inb L)
    ∗ held d L g (k0_off186 L) (k0_off186_inb L)
    ∗ held d L g (k0_off189 L) (k0_off189_inb L)
    ∗ held d L g (k0_off192 L) (k0_off192_inb L)
    ∗ held d L g (k0_off195 L) (k0_off195_inb L)
    ∗ held d L g (k0_off198 L) (k0_off198_inb L)
    ∗ held d L g (k0_off201 L) (k0_off201_inb L)
    ∗ held d L g (k0_off204 L) (k0_off204_inb L)
    ∗ held d L g (k0_off207 L) (k0_off207_inb L)
    ∗ held d L g (k0_off210 L) (k0_off210_inb L)
    ∗ held d L g (k0_off213 L) (k0_off213_inb L)
    ∗ held d L g (k0_off216 L) (k0_off216_inb L)
    ∗ held d L g (k0_off219 L) (k0_off219_inb L)
    ∗ held d L g (k0_off222 L) (k0_off222_inb L)
    ∗ held d L g (k0_off225 L) (k0_off225_inb L)
    ∗ held d L g (k0_off228 L) (k0_off228_inb L)
    ∗ held d L g (k0_off231 L) (k0_off231_inb L)
    ∗ held d L g (k0_off234 L) (k0_off234_inb L)
    ∗ held d L g (k0_off237 L) (k0_off237_inb L)
    ∗ held d L g (k0_off240 L) (k0_off240_inb L)
    ∗ held d L g (k0_off243 L) (k0_off243_inb L)
    ∗ held d L g (k0_off246 L) (k0_off246_inb L)
    ∗ held d L g (k0_off249 L) (k0_off249_inb L)
    ∗ held d L g (k0_off252 L) (k0_off252_inb L)
    ∗ held d L g (k0_off255 L) (k0_off255_inb L)
    ∗ held d L g (k0_off258 L) (k0_off258_inb L)
    ∗ held d L g (k0_off261 L) (k0_off261_inb L)
    ∗ held d L g (k0_off264 L) (k0_off264_inb L)
    ∗ held d L g (k0_off267 L) (k0_off267_inb L)
    ∗ held d L g (k0_off270 L) (k0_off270_inb L)
    ∗ held d L g (k0_off273 L) (k0_off273_inb L)
    ∗ held d L g (k0_off276 L) (k0_off276_inb L)
    ∗ held d L g (k0_off279 L) (k0_off279_inb L)
    ∗ held d L g (k0_off282 L) (k0_off282_inb L)
    ∗ held d L g (k0_off285 L 46#32) (k0_off285_inb L 0)
    ∗ held d L g (k0_off287 L) (k0_off287_inb L)
    ∗ held d L g (k0_off285 L 47#32) (k0_off285_inb L 1)
    ∗ emp)

/-- A held piece is piece `n` of the output array. -/
theorem held_eq {n : Fin 96} {off : Fin 4 → ℕ} {hin : ∀ a, off a + S1x1x112x224.size a ≤ S8x192x224x224.size a} (h : off = sliceOff L n) :
    (held d L g off hin : sProp 𝕄) = (oLoc d ↦[slSet L n]{fullShare} g) := by
  unfold held
  rw [set_piece_slice L n off hin h]

theorem sep_congr' {a a' b b' : sProp 𝕄} (h : a = a') (h' : b = b') : (iprop(a ∗ b) : sProp 𝕄) = iprop(a' ∗ b') := by subst h; subst h'; rfl

set_option maxRecDepth 4096 in
theorem heldPieces_eq : (heldPieces d L g : sProp 𝕄) = bigSep Finset.univ fun n : Fin 96 => oLoc d ↦[slSet L n]{fullShare} g := by
  rw [Cert.Lib.bigSep_univ_fin]
  unfold heldPieces
  exact sep_congr' (held_eq d L g (dstOff_0 L)) (sep_congr' (held_eq d L g (dstOff_1 L)) (sep_congr' (held_eq d L g (dstOff_2 L)) (sep_congr' (held_eq d L g (dstOff_3 L)) (sep_congr' (held_eq d L g (dstOff_4 L)) (sep_congr' (held_eq d L g (dstOff_5 L)) (sep_congr' (held_eq d L g (dstOff_6 L)) (sep_congr' (held_eq d L g (dstOff_7 L)) (sep_congr' (held_eq d L g (dstOff_8 L)) (sep_congr' (held_eq d L g (dstOff_9 L)) (sep_congr' (held_eq d L g (dstOff_10 L)) (sep_congr' (held_eq d L g (dstOff_11 L)) (sep_congr' (held_eq d L g (dstOff_12 L)) (sep_congr' (held_eq d L g (dstOff_13 L)) (sep_congr' (held_eq d L g (dstOff_14 L)) (sep_congr' (held_eq d L g (dstOff_15 L)) (sep_congr' (held_eq d L g (dstOff_16 L)) (sep_congr' (held_eq d L g (dstOff_17 L)) (sep_congr' (held_eq d L g (dstOff_18 L)) (sep_congr' (held_eq d L g (dstOff_19 L)) (sep_congr' (held_eq d L g (dstOff_20 L)) (sep_congr' (held_eq d L g (dstOff_21 L)) (sep_congr' (held_eq d L g (dstOff_22 L)) (sep_congr' (held_eq d L g (dstOff_23 L)) (sep_congr' (held_eq d L g (dstOff_24 L)) (sep_congr' (held_eq d L g (dstOff_25 L)) (sep_congr' (held_eq d L g (dstOff_26 L)) (sep_congr' (held_eq d L g (dstOff_27 L)) (sep_congr' (held_eq d L g (dstOff_28 L)) (sep_congr' (held_eq d L g (dstOff_29 L)) (sep_congr' (held_eq d L g (dstOff_30 L)) (sep_congr' (held_eq d L g (dstOff_31 L)) (sep_congr' (held_eq d L g (dstOff_32 L)) (sep_congr' (held_eq d L g (dstOff_33 L)) (sep_congr' (held_eq d L g (dstOff_34 L)) (sep_congr' (held_eq d L g (dstOff_35 L)) (sep_congr' (held_eq d L g (dstOff_36 L)) (sep_congr' (held_eq d L g (dstOff_37 L)) (sep_congr' (held_eq d L g (dstOff_38 L)) (sep_congr' (held_eq d L g (dstOff_39 L)) (sep_congr' (held_eq d L g (dstOff_40 L)) (sep_congr' (held_eq d L g (dstOff_41 L)) (sep_congr' (held_eq d L g (dstOff_42 L)) (sep_congr' (held_eq d L g (dstOff_43 L)) (sep_congr' (held_eq d L g (dstOff_44 L)) (sep_congr' (held_eq d L g (dstOff_45 L)) (sep_congr' (held_eq d L g (dstOff_46 L)) (sep_congr' (held_eq d L g (dstOff_47 L)) (sep_congr' (held_eq d L g (dstOff_48 L)) (sep_congr' (held_eq d L g (dstOff_49 L)) (sep_congr' (held_eq d L g (dstOff_50 L)) (sep_congr' (held_eq d L g (dstOff_51 L)) (sep_congr' (held_eq d L g (dstOff_52 L)) (sep_congr' (held_eq d L g (dstOff_53 L)) (sep_congr' (held_eq d L g (dstOff_54 L)) (sep_congr' (held_eq d L g (dstOff_55 L)) (sep_congr' (held_eq d L g (dstOff_56 L)) (sep_congr' (held_eq d L g (dstOff_57 L)) (sep_congr' (held_eq d L g (dstOff_58 L)) (sep_congr' (held_eq d L g (dstOff_59 L)) (sep_congr' (held_eq d L g (dstOff_60 L)) (sep_congr' (held_eq d L g (dstOff_61 L)) (sep_congr' (held_eq d L g (dstOff_62 L)) (sep_congr' (held_eq d L g (dstOff_63 L)) (sep_congr' (held_eq d L g (dstOff_64 L)) (sep_congr' (held_eq d L g (dstOff_65 L)) (sep_congr' (held_eq d L g (dstOff_66 L)) (sep_congr' (held_eq d L g (dstOff_67 L)) (sep_congr' (held_eq d L g (dstOff_68 L)) (sep_congr' (held_eq d L g (dstOff_69 L)) (sep_congr' (held_eq d L g (dstOff_70 L)) (sep_congr' (held_eq d L g (dstOff_71 L)) (sep_congr' (held_eq d L g (dstOff_72 L)) (sep_congr' (held_eq d L g (dstOff_73 L)) (sep_congr' (held_eq d L g (dstOff_74 L)) (sep_congr' (held_eq d L g (dstOff_75 L)) (sep_congr' (held_eq d L g (dstOff_76 L)) (sep_congr' (held_eq d L g (dstOff_77 L)) (sep_congr' (held_eq d L g (dstOff_78 L)) (sep_congr' (held_eq d L g (dstOff_79 L)) (sep_congr' (held_eq d L g (dstOff_80 L)) (sep_congr' (held_eq d L g (dstOff_81 L)) (sep_congr' (held_eq d L g (dstOff_82 L)) (sep_congr' (held_eq d L g (dstOff_83 L)) (sep_congr' (held_eq d L g (dstOff_84 L)) (sep_congr' (held_eq d L g (dstOff_85 L)) (sep_congr' (held_eq d L g (dstOff_86 L)) (sep_congr' (held_eq d L g (dstOff_87 L)) (sep_congr' (held_eq d L g (dstOff_88 L)) (sep_congr' (held_eq d L g (dstOff_89 L)) (sep_congr' (held_eq d L g (dstOff_90 L)) (sep_congr' (held_eq d L g (dstOff_91 L)) (sep_congr' (held_eq d L g (dstOff_92 L)) (sep_congr' (held_eq d L g (dstOff_93 L)) (sep_congr' (held_eq d L g (dstOff_94 L)) (sep_congr' (held_eq d L g (dstOff_95 L)) (rfl))))))))))))))))))))))))))))))))))))))))))))))))))))))))))))))))))))))))))))))))))))))))))))))))

end Cert.Proof.KB

end
-- ==== Proof.KB.Words.lean ====
import proofs.«215561_g44298292691222_cont_8to1_c_1064_17_alg».proof.Proof.KB.Setup
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (d : Dev nD) (L : grid0.Coords)

/-- After the whole copy the scratch holds the index array, so every word read out of it is below 192 when all index words are. -/
theorem any_lt (fp : Buf (Elt F) ((thrV d L).loc main_arg1_scv)) (hfp : ∀ j, (fp j).toNat < 192)
    (f0 : Buf (Elt F) ((thrV d L).loc cc0_scratch0)) (r : LoadRect S192) (hc : r.shape.ShapeCasts S16) (j : S16.Idx) :
    (shapeCast S16 (View.readAt (Elt F) (s0W).view r
        (View.write (Elt F) (s0W).view f0 (ReadAs.same.apply (View.read (Elt F) (pW).view fp)) Finset.univ)) hc j).toNat < 192 := by
  unfold shapeCast
  rw [View.readAt_apply, View.read_write_univ, ReadAs.apply_same, View.read_apply, cast_eq]
  exact hfp _

/-- The three loads start at the tile's first channel and 16 and 32 words further: decided over the 32 tiles. -/
theorem off1 : ∀ (L : grid0.Coords) (j : Fin 3) (a : Fin 1),
    k0_off1 L (BitVec.ofNat 32 (16 * j.val)) a = (![cBase L + 16 * j.val] : Fin 1 → ℕ) a := by decide +kernel
theorem off1_0 : k0_off1 L 0#32 = ![cBase L + 0] := funext (off1 L 0)
theorem off1_16 : k0_off1 L 16#32 = ![cBase L + 16] := funext (off1 L 1)
theorem off1_32 : k0_off1 L 32#32 = ![cBase L + 32] := funext (off1 L 2)

theorem word_lt (K : ℕ) (hK16 : K + 16 ≤ 48) (j : S16.Idx) : cBase L + K + (j 0).val < 192 := by
  have h1 := cBase_le L
  have h2 : (j 0).val < 16 := (j 0).isLt
  omega

/-- Lane `j` of the vector loaded `K` words past the tile's first channel is the index word of channel `cBase L + K + j`. -/
theorem vec_eq (fp : Buf (Elt F) ((thrV d L).loc main_arg1_scv)) (f0 : Buf (Elt F) ((thrV d L).loc cc0_scratch0))
    (k : BitVec 32) (K : ℕ) (hK : k0_off1 L k = ![cBase L + K]) (hK16 : K + 16 ≤ 48)
    (hin : ∀ a, k0_off1 L k a + S16.size a ≤ S192.size a) (hc : S16.ShapeCasts S16) (j : S16.Idx) :
    shapeCast S16 (View.readAt (Elt F) (s0W).view (Rect.unit (s := S192) (k0_off1 L k) S16.size hin).toLoadRect
        (View.write (Elt F) (s0W).view f0 (ReadAs.same.apply (View.read (Elt F) (pW).view fp)) Finset.univ)) hc j
      = fp (ix1 ⟨cBase L + K + (j 0).val, word_lt L K hK16 j⟩) := by
  unfold shapeCast
  rw [Shape.reshapeEquiv_self, View.readAt_apply, View.read_write_univ, ReadAs.apply_same, View.read_apply, cast_eq]
  congr 1
  funext a
  match a with
  | ⟨0, _⟩ =>
    apply Fin.ext
    show k0_off1 L k 0 + 1 * (j 0).val = cBase L + K + (j 0).val
    rw [hK, Nat.one_mul]
    rfl

theorem lane_lt {t : ℕ} (hs : S16.Slices ![t] S1) : t < 16 := by
  obtain ⟨h, h2⟩ := hs
  have h3 := h2 0
  change t + 1 ≤ 16 at h3
  omega

/-- Extracting lane `t` reads the vector at `t`. -/
theorem lane_eq (W : IVec S16 32) (t : ℕ) (hs : S16.Slices ![t] S1) (hp : ∀ a, (![0] : Fin 1 → ℕ) a < S1.size a) :
    extractAt ![0] (extractStridedSlice S1 ![t] W hs) hp = W (ix1 ⟨t, lane_lt hs⟩) := by
  unfold extractAt extractStridedSlice
  congr 1
  funext a
  match a with
  | ⟨0, _⟩ => exact Fin.ext (Nat.add_zero t)

/-- The index word the program extracts: lane `t` of the vector loaded at `k`. -/
abbrev word (fp : Buf (Elt F) ((thrV d L).loc main_arg1_scv)) (f0 : Buf (Elt F) ((thrV d L).loc cc0_scratch0)) (k : BitVec 32)
    (hin : ∀ a, k0_off1 L k a + S16.size a ≤ S192.size a) (hc : S16.ShapeCasts S16) (t : ℕ) (hs : S16.Slices ![t] S1)
    (hp : ∀ a, (![0] : Fin 1 → ℕ) a < S1.size a) : BitVec 32 :=
  extractAt ![0] (extractStridedSlice S1 ![t] (shapeCast S16 (View.readAt (Elt F) (s0W).view
    (Rect.unit (s := S192) (k0_off1 L k) S16.size hin).toLoadRect
    (View.write (Elt F) (s0W).view f0 (ReadAs.same.apply (View.read (Elt F) (pW).view fp)) Finset.univ)) hc) hs) hp

/-- It is the index word of channel `cBase L + K + t`. -/
theorem word_eq (fp : Buf (Elt F) ((thrV d L).loc main_arg1_scv)) (f0 : Buf (Elt F) ((thrV d L).loc cc0_scratch0)) {k : BitVec 32} {K : ℕ}
    (hK : k0_off1 L k = ![cBase L + K]) (hK16 : K + 16 ≤ 48) (hin : ∀ a, k0_off1 L k a + S16.size a ≤ S192.size a)
    (hc : S16.ShapeCasts S16) {t : ℕ} (hs : S16.Slices ![t] S1) (hp : ∀ a, (![0] : Fin 1 → ℕ) a < S1.size a)
    {c : ℕ} (e : K + t = c) (hc' : cBase L + c < 192) :
    word d L fp f0 k hin hc t hs hp = fp (ix1 ⟨cBase L + c, hc'⟩) :=
  (lane_eq _ t hs hp).trans ((vec_eq d L fp f0 k K hK hK16 hin hc _).trans
    (congrArg fp (congrArg ix1 (Fin.ext (by show cBase L + K + t = cBase L + c; omega)))))

end Cert.Proof.KB

end
-- ==== Proof.KB.Final.lean ====
import proofs.«215561_g44298292691222_cont_8to1_c_1064_17_alg».proof.Proof.KB.Value
import Idealize.ShloMosaic.Lib.Writes

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

/-- A piece written whole with what a buffer reads after the source piece was written into it whole holds the channel permutation. -/
theorem piece_final (n : Fin 96) (fx : Buf (Elt F) ((thrV d L).loc main_arg0_scv)) (fp : Buf (Elt F) ((thrV d L).loc main_arg1_scv))
    (fo : Buf (Elt F) ((thrV d L).loc main_v0_scv))
    (vS : View sig .scVector .vmem S112x224 .f32) (fk : vS.ty.Contents (Elt F))
    (w : BitVec 32) (hw : w = fp (ix1 ⟨cBase L + n.val / 2, chan_lt L n⟩)) (hlt : w.toNat < 192)
    (offS offD : Fin 4 → ℕ) (hS : offS = ![bOf L, w.toNat, 112 * (n.val % 2), 0]) (hD : offD = sliceOff L n)
    (hinS : ∀ a, offS a + S1x1x112x224.size a ≤ S8x192x224x224.size a)
    (hinD : ∀ a, offD a + S1x1x112x224.size a ≤ S8x192x224x224.size a) :
    ((View.loc (thrV d L) (oPiece offD hinD).view ↦[(oPiece offD hinD).view.set]{fullShare}
        (oPiece offD hinD).view.writes (Elt F) fo [⟨Rect.whole S112x224, ReadAs.same.apply (View.read (Elt F) vS
          (View.write (Elt F) vS fk (ReadAs.same.apply (View.read (Elt F) (xPiece offS hinS).view fx)) Finset.univ))⟩]) : sProp 𝕄)
      = (View.loc (thrV d L) (oPiece offD hinD).view ↦[(oPiece offD hinD).view.set]{fullShare}
          (Cert.Spec.G fx fp : Buf (Elt F) ((thrV d L).loc main_v0_scv))) := by
  refine pointsTo_congr fun i hi => ?_
  obtain ⟨y, -, rfl⟩ := Finset.mem_map.mp hi
  have he : (oPiece offD hinD).view.emb y = ((oPiece offD hinD).view.slice (Rect.whole S112x224)).emb y := by
    show _ = (oPiece offD hinD).view.emb ((Rect.whole S112x224).emb y)
    rw [Rect.emb_whole_apply]
  rw [View.writes_singleton]
  conv_lhs => rw [he, View.write_emb_of_mem _ _ (Finset.mem_univ _)]
  rw [ReadAs.apply_same, View.read_write_univ, ReadAs.apply_same]
  exact piece_value L n fx fp w hw hlt offS offD hS hD hinS hinD y

end Cert.Proof.KB

end
-- ==== Proof.KB.Finals.lean ====
import proofs.«215561_g44298292691222_cont_8to1_c_1064_17_alg».proof.Proof.KB.Setup

namespace Cert.Proof.KB

open Idealize.SL.ProofMode

set_option hygiene false in
/-- The pieces in order: piece n is `piece_done` (applied to the run's contents as `pd`) at its lane and load, its printed source offsets and its place in the output. -/
macro "close_pieces" : tactic => `(tactic| (
  isplitl [Ho0]
  · iapply (pd 0 0 0 rfl (off1_0 L) (by decide) (k0_off2 L) (src0 L) (dstOff_0 L)); iexact Ho0
  isplitl [Ho1]
  · iapply (pd 1 0 0 rfl (off1_0 L) (by decide) (k0_off3 L) (src112 L) (dstOff_1 L)); iexact Ho1
  isplitl [Ho2]
  · iapply (pd 2 0 1 rfl (off1_0 L) (by decide) (k0_off4 L) (src0 L) (dstOff_2 L)); iexact Ho2
  isplitl [Ho3]
  · iapply (pd 3 0 1 rfl (off1_0 L) (by decide) (k0_off7 L) (src112 L) (dstOff_3 L)); iexact Ho3
  isplitl [Ho4]
  · iapply (pd 4 0 2 rfl (off1_0 L) (by decide) (k0_off10 L) (src0 L) (dstOff_4 L)); iexact Ho4
  isplitl [Ho5]
  · iapply (pd 5 0 2 rfl (off1_0 L) (by decide) (k0_off13 L) (src112 L) (dstOff_5 L)); iexact Ho5
  isplitl [Ho6]
  · iapply (pd 6 0 3 rfl (off1_0 L) (by decide) (k0_off16 L) (src0 L) (dstOff_6 L)); iexact Ho6
  isplitl [Ho7]
  · iapply (pd 7 0 3 rfl (off1_0 L) (by decide) (k0_off19 L) (src112 L) (dstOff_7 L)); iexact Ho7
  isplitl [Ho8]
  · iapply (pd 8 0 4 rfl (off1_0 L) (by decide) (k0_off22 L) (src0 L) (dstOff_8 L)); iexact Ho8
  isplitl [Ho9]
  · iapply (pd 9 0 4 rfl (off1_0 L) (by decide) (k0_off25 L) (src112 L) (dstOff_9 L)); iexact Ho9
  isplitl [Ho10]
  · iapply (pd 10 0 5 rfl (off1_0 L) (by decide) (k0_off28 L) (src0 L) (dstOff_10 L)); iexact Ho10
  isplitl [Ho11]
  · iapply (pd 11 0 5 rfl (off1_0 L) (by decide) (k0_off31 L) (src112 L) (dstOff_11 L)); iexact Ho11
  isplitl [Ho12]
  · iapply (pd 12 0 6 rfl (off1_0 L) (by decide) (k0_off34 L) (src0 L) (dstOff_12 L)); iexact Ho12
  isplitl [Ho13]
  · iapply (pd 13 0 6 rfl (off1_0 L) (by decide) (k0_off37 L) (src112 L) (dstOff_13 L)); iexact Ho13
  isplitl [Ho14]
  · iapply (pd 14 0 7 rfl (off1_0 L) (by decide) (k0_off40 L) (src0 L) (dstOff_14 L)); iexact Ho14
  isplitl [Ho15]
  · iapply (pd 15 0 7 rfl (off1_0 L) (by decide) (k0_off43 L) (src112 L) (dstOff_15 L)); iexact Ho15
  isplitl [Ho16]
  · iapply (pd 16 0 8 rfl (off1_0 L) (by decide) (k0_off46 L) (src0 L) (dstOff_16 L)); iexact Ho16
  isplitl [Ho17]
  · iapply (pd 17 0 8 rfl (off1_0 L) (by decide) (k0_off49 L) (src112 L) (dstOff_17 L)); iexact Ho17
  isplitl [Ho18]
  · iapply (pd 18 0 9 rfl (off1_0 L) (by decide) (k0_off52 L) (src0 L) (dstOff_18 L)); iexact Ho18
  isplitl [Ho19]
  · iapply (pd 19 0 9 rfl (off1_0 L) (by decide) (k0_off55 L) (src112 L) (dstOff_19 L)); iexact Ho19
  isplitl [Ho20]
  · iapply (pd 20 0 10 rfl (off1_0 L) (by decide) (k0_off58 L) (src0 L) (dstOff_20 L)); iexact Ho20
  isplitl [Ho21]
  · iapply (pd 21 0 10 rfl (off1_0 L) (by decide) (k0_off61 L) (src112 L) (dstOff_21 L)); iexact Ho21
  isplitl [Ho22]
  · iapply (pd 22 0 11 rfl (off1_0 L) (by decide) (k0_off64 L) (src0 L) (dstOff_22 L)); iexact Ho22
  isplitl [Ho23]
  · iapply (pd 23 0 11 rfl (off1_0 L) (by decide) (k0_off67 L) (src112 L) (dstOff_23 L)); iexact Ho23
  isplitl [Ho24]
  · iapply (pd 24 0 12 rfl (off1_0 L) (by decide) (k0_off70 L) (src0 L) (dstOff_24 L)); iexact Ho24
  isplitl [Ho25]
  · iapply (pd 25 0 12 rfl (off1_0 L) (by decide) (k0_off73 L) (src112 L) (dstOff_25 L)); iexact Ho25
  isplitl [Ho26]
  · iapply (pd 26 0 13 rfl (off1_0 L) (by decide) (k0_off76 L) (src0 L) (dstOff_26 L)); iexact Ho26
  isplitl [Ho27]
  · iapply (pd 27 0 13 rfl (off1_0 L) (by decide) (k0_off79 L) (src112 L) (dstOff_27 L)); iexact Ho27
  isplitl [Ho28]
  · iapply (pd 28 0 14 rfl (off1_0 L) (by decide) (k0_off82 L) (src0 L) (dstOff_28 L)); iexact Ho28
  isplitl [Ho29]
  · iapply (pd 29 0 14 rfl (off1_0 L) (by decide) (k0_off85 L) (src112 L) (dstOff_29 L)); iexact Ho29
  isplitl [Ho30]
  · iapply (pd 30 0 15 rfl (off1_0 L) (by decide) (k0_off88 L) (src0 L) (dstOff_30 L)); iexact Ho30
  isplitl [Ho31]
  · iapply (pd 31 0 15 rfl (off1_0 L) (by decide) (k0_off91 L) (src112 L) (dstOff_31 L)); iexact Ho31
  isplitl [Ho32]
  · iapply (pd 32 16 0 rfl (off1_16 L) (by decide) (k0_off94 L) (src0 L) (dstOff_32 L)); iexact Ho32
  isplitl [Ho33]
  · iapply (pd 33 16 0 rfl (off1_16 L) (by decide) (k0_off97 L) (src112 L) (dstOff_33 L)); iexact Ho33
  isplitl [Ho34]
  · iapply (pd 34 16 1 rfl (off1_16 L) (by decide) (k0_off100 L) (src0 L) (dstOff_34 L)); iexact Ho34
  isplitl [Ho35]
  · iapply (pd 35 16 1 rfl (off1_16 L) (by decide) (k0_off103 L) (src112 L) (dstOff_35 L)); iexact Ho35
  isplitl [Ho36]
  · iapply (pd 36 16 2 rfl (off1_16 L) (by decide) (k0_off106 L) (src0 L) (dstOff_36 L)); iexact Ho36
  isplitl [Ho37]
  · iapply (pd 37 16 2 rfl (off1_16 L) (by decide) (k0_off109 L) (src112 L) (dstOff_37 L)); iexact Ho37
  isplitl [Ho38]
  · iapply (pd 38 16 3 rfl (off1_16 L) (by decide) (k0_off112 L) (src0 L) (dstOff_38 L)); iexact Ho38
  isplitl [Ho39]
  · iapply (pd 39 16 3 rfl (off1_16 L) (by decide) (k0_off115 L) (src112 L) (dstOff_39 L)); iexact Ho39
  isplitl [Ho40]
  · iapply (pd 40 16 4 rfl (off1_16 L) (by decide) (k0_off118 L) (src0 L) (dstOff_40 L)); iexact Ho40
  isplitl [Ho41]
  · iapply (pd 41 16 4 rfl (off1_16 L) (by decide) (k0_off121 L) (src112 L) (dstOff_41 L)); iexact Ho41
  isplitl [Ho42]
  · iapply (pd 42 16 5 rfl (off1_16 L) (by decide) (k0_off124 L) (src0 L) (dstOff_42 L)); iexact Ho42
  isplitl [Ho43]
  · iapply (pd 43 16 5 rfl (off1_16 L) (by decide) (k0_off127 L) (src112 L) (dstOff_43 L)); iexact Ho43
  isplitl [Ho44]
  · iapply (pd 44 16 6 rfl (off1_16 L) (by decide) (k0_off130 L) (src0 L) (dstOff_44 L)); iexact Ho44
  isplitl [Ho45]
  · iapply (pd 45 16 6 rfl (off1_16 L) (by decide) (k0_off133 L) (src112 L) (dstOff_45 L)); iexact Ho45
  isplitl [Ho46]
  · iapply (pd 46 16 7 rfl (off1_16 L) (by decide) (k0_off136 L) (src0 L) (dstOff_46 L)); iexact Ho46
  isplitl [Ho47]
  · iapply (pd 47 16 7 rfl (off1_16 L) (by decide) (k0_off139 L) (src112 L) (dstOff_47 L)); iexact Ho47
  isplitl [Ho48]
  · iapply (pd 48 16 8 rfl (off1_16 L) (by decide) (k0_off142 L) (src0 L) (dstOff_48 L)); iexact Ho48
  isplitl [Ho49]
  · iapply (pd 49 16 8 rfl (off1_16 L) (by decide) (k0_off145 L) (src112 L) (dstOff_49 L)); iexact Ho49
  isplitl [Ho50]
  · iapply (pd 50 16 9 rfl (off1_16 L) (by decide) (k0_off148 L) (src0 L) (dstOff_50 L)); iexact Ho50
  isplitl [Ho51]
  · iapply (pd 51 16 9 rfl (off1_16 L) (by decide) (k0_off151 L) (src112 L) (dstOff_51 L)); iexact Ho51
  isplitl [Ho52]
  · iapply (pd 52 16 10 rfl (off1_16 L) (by decide) (k0_off154 L) (src0 L) (dstOff_52 L)); iexact Ho52
  isplitl [Ho53]
  · iapply (pd 53 16 10 rfl (off1_16 L) (by decide) (k0_off157 L) (src112 L) (dstOff_53 L)); iexact Ho53
  isplitl [Ho54]
  · iapply (pd 54 16 11 rfl (off1_16 L) (by decide) (k0_off160 L) (src0 L) (dstOff_54 L)); iexact Ho54
  isplitl [Ho55]
  · iapply (pd 55 16 11 rfl (off1_16 L) (by decide) (k0_off163 L) (src112 L) (dstOff_55 L)); iexact Ho55
  isplitl [Ho56]
  · iapply (pd 56 16 12 rfl (off1_16 L) (by decide) (k0_off166 L) (src0 L) (dstOff_56 L)); iexact Ho56
  isplitl [Ho57]
  · iapply (pd 57 16 12 rfl (off1_16 L) (by decide) (k0_off169 L) (src112 L) (dstOff_57 L)); iexact Ho57
  isplitl [Ho58]
  · iapply (pd 58 16 13 rfl (off1_16 L) (by decide) (k0_off172 L) (src0 L) (dstOff_58 L)); iexact Ho58
  isplitl [Ho59]
  · iapply (pd 59 16 13 rfl (off1_16 L) (by decide) (k0_off175 L) (src112 L) (dstOff_59 L)); iexact Ho59
  isplitl [Ho60]
  · iapply (pd 60 16 14 rfl (off1_16 L) (by decide) (k0_off178 L) (src0 L) (dstOff_60 L)); iexact Ho60
  isplitl [Ho61]
  · iapply (pd 61 16 14 rfl (off1_16 L) (by decide) (k0_off181 L) (src112 L) (dstOff_61 L)); iexact Ho61
  isplitl [Ho62]
  · iapply (pd 62 16 15 rfl (off1_16 L) (by decide) (k0_off184 L) (src0 L) (dstOff_62 L)); iexact Ho62
  isplitl [Ho63]
  · iapply (pd 63 16 15 rfl (off1_16 L) (by decide) (k0_off187 L) (src112 L) (dstOff_63 L)); iexact Ho63
  isplitl [Ho64]
  · iapply (pd 64 32 0 rfl (off1_32 L) (by decide) (k0_off190 L) (src0 L) (dstOff_64 L)); iexact Ho64
  isplitl [Ho65]
  · iapply (pd 65 32 0 rfl (off1_32 L) (by decide) (k0_off193 L) (src112 L) (dstOff_65 L)); iexact Ho65
  isplitl [Ho66]
  · iapply (pd 66 32 1 rfl (off1_32 L) (by decide) (k0_off196 L) (src0 L) (dstOff_66 L)); iexact Ho66
  isplitl [Ho67]
  · iapply (pd 67 32 1 rfl (off1_32 L) (by decide) (k0_off199 L) (src112 L) (dstOff_67 L)); iexact Ho67
  isplitl [Ho68]
  · iapply (pd 68 32 2 rfl (off1_32 L) (by decide) (k0_off202 L) (src0 L) (dstOff_68 L)); iexact Ho68
  isplitl [Ho69]
  · iapply (pd 69 32 2 rfl (off1_32 L) (by decide) (k0_off205 L) (src112 L) (dstOff_69 L)); iexact Ho69
  isplitl [Ho70]
  · iapply (pd 70 32 3 rfl (off1_32 L) (by decide) (k0_off208 L) (src0 L) (dstOff_70 L)); iexact Ho70
  isplitl [Ho71]
  · iapply (pd 71 32 3 rfl (off1_32 L) (by decide) (k0_off211 L) (src112 L) (dstOff_71 L)); iexact Ho71
  isplitl [Ho72]
  · iapply (pd 72 32 4 rfl (off1_32 L) (by decide) (k0_off214 L) (src0 L) (dstOff_72 L)); iexact Ho72
  isplitl [Ho73]
  · iapply (pd 73 32 4 rfl (off1_32 L) (by decide) (k0_off217 L) (src112 L) (dstOff_73 L)); iexact Ho73
  isplitl [Ho74]
  · iapply (pd 74 32 5 rfl (off1_32 L) (by decide) (k0_off220 L) (src0 L) (dstOff_74 L)); iexact Ho74
  isplitl [Ho75]
  · iapply (pd 75 32 5 rfl (off1_32 L) (by decide) (k0_off223 L) (src112 L) (dstOff_75 L)); iexact Ho75
  isplitl [Ho76]
  · iapply (pd 76 32 6 rfl (off1_32 L) (by decide) (k0_off226 L) (src0 L) (dstOff_76 L)); iexact Ho76
  isplitl [Ho77]
  · iapply (pd 77 32 6 rfl (off1_32 L) (by decide) (k0_off229 L) (src112 L) (dstOff_77 L)); iexact Ho77
  isplitl [Ho78]
  · iapply (pd 78 32 7 rfl (off1_32 L) (by decide) (k0_off232 L) (src0 L) (dstOff_78 L)); iexact Ho78
  isplitl [Ho79]
  · iapply (pd 79 32 7 rfl (off1_32 L) (by decide) (k0_off235 L) (src112 L) (dstOff_79 L)); iexact Ho79
  isplitl [Ho80]
  · iapply (pd 80 32 8 rfl (off1_32 L) (by decide) (k0_off238 L) (src0 L) (dstOff_80 L)); iexact Ho80
  isplitl [Ho81]
  · iapply (pd 81 32 8 rfl (off1_32 L) (by decide) (k0_off241 L) (src112 L) (dstOff_81 L)); iexact Ho81
  isplitl [Ho82]
  · iapply (pd 82 32 9 rfl (off1_32 L) (by decide) (k0_off244 L) (src0 L) (dstOff_82 L)); iexact Ho82
  isplitl [Ho83]
  · iapply (pd 83 32 9 rfl (off1_32 L) (by decide) (k0_off247 L) (src112 L) (dstOff_83 L)); iexact Ho83
  isplitl [Ho84]
  · iapply (pd 84 32 10 rfl (off1_32 L) (by decide) (k0_off250 L) (src0 L) (dstOff_84 L)); iexact Ho84
  isplitl [Ho85]
  · iapply (pd 85 32 10 rfl (off1_32 L) (by decide) (k0_off253 L) (src112 L) (dstOff_85 L)); iexact Ho85
  isplitl [Ho86]
  · iapply (pd 86 32 11 rfl (off1_32 L) (by decide) (k0_off256 L) (src0 L) (dstOff_86 L)); iexact Ho86
  isplitl [Ho87]
  · iapply (pd 87 32 11 rfl (off1_32 L) (by decide) (k0_off259 L) (src112 L) (dstOff_87 L)); iexact Ho87
  isplitl [Ho88]
  · iapply (pd 88 32 12 rfl (off1_32 L) (by decide) (k0_off262 L) (src0 L) (dstOff_88 L)); iexact Ho88
  isplitl [Ho89]
  · iapply (pd 89 32 12 rfl (off1_32 L) (by decide) (k0_off265 L) (src112 L) (dstOff_89 L)); iexact Ho89
  isplitl [Ho90]
  · iapply (pd 90 32 13 rfl (off1_32 L) (by decide) (k0_off268 L) (src0 L) (dstOff_90 L)); iexact Ho90
  isplitl [Ho91]
  · iapply (pd 91 32 13 rfl (off1_32 L) (by decide) (k0_off271 L) (src112 L) (dstOff_91 L)); iexact Ho91
  isplitl [Ho92]
  · iapply (pd 92 32 14 rfl (off1_32 L) (by decide) (k0_off274 L) (src0 L) (dstOff_92 L)); iexact Ho92
  isplitl [Ho93]
  · iapply (pd 93 32 14 rfl (off1_32 L) (by decide) (k0_off277 L) (src112 L) (dstOff_93 L)); iexact Ho93
  isplitl [Ho94]
  · iapply (pd 94 32 15 rfl (off1_32 L) (by decide) (k0_off280 L) (src0 L) (dstOff_94 L)); iexact Ho94
  isplitl [Ho95]
  · iapply (pd 95 32 15 rfl (off1_32 L) (by decide) (k0_off283 L) (src112 L) (dstOff_95 L)); iexact Ho95
  iempintro))

end Cert.Proof.KB
-- ==== Proof.KB.Run.lean ====
import proofs.«215561_g44298292691222_cont_8to1_c_1064_17_alg».proof.Proof.KB.Setup
import proofs.«215561_g44298292691222_cont_8to1_c_1064_17_alg».proof.Proof.KB.Pieces
import proofs.«215561_g44298292691222_cont_8to1_c_1064_17_alg».proof.Proof.KB.Words
import proofs.«215561_g44298292691222_cont_8to1_c_1064_17_alg».proof.Proof.KB.Final
import proofs.«215561_g44298292691222_cont_8to1_c_1064_17_alg».proof.Proof.KB.Finals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F] (d : Dev nD) (L : grid0.Coords)

/-- Piece `n` as the run leaves it: written whole from a buffer into which the source half-plane was written whole, the source
    channel being lane `t` of the vector loaded `K` words past the tile's first channel, with `K + t = n / 2`. It holds the channel permutation. -/
theorem piece_done (fx : Buf (Elt F) ((thrV d L).loc main_arg0_scv)) (fp : Buf (Elt F) ((thrV d L).loc main_arg1_scv))
    (fo : Buf (Elt F) ((thrV d L).loc main_v0_scv)) (hfp : ∀ j, (fp j).toNat < 192) (f0 : Buf (Elt F) ((thrV d L).loc cc0_scratch0))
    (n : Fin 96) (K t : ℕ) (e : K + t = n.val / 2)
    {k : BitVec 32} (hK : k0_off1 L k = ![cBase L + K]) (hK16 : K + 16 ≤ 48)
    (oS : BitVec 32 → Fin 4 → ℕ) (hS : ∀ w, oS w = ![bOf L, w.toNat, 112 * (n.val % 2), 0])
    {offD : Fin 4 → ℕ} (hD : offD = sliceOff L n)
    {hin : ∀ a, k0_off1 L k a + S16.size a ≤ S192.size a} {hc : S16.ShapeCasts S16} {hs : S16.Slices ![t] S1}
    {hp : ∀ a, (![0] : Fin 1 → ℕ) a < S1.size a} {vS : View sig .scVector .vmem S112x224 .f32} {fk : vS.ty.Contents (Elt F)}
    {hinS : ∀ a, oS (word d L fp f0 k hin hc t hs hp) a + S1x1x112x224.size a ≤ S8x192x224x224.size a}
    {hinD : ∀ a, offD a + S1x1x112x224.size a ≤ S8x192x224x224.size a} :
    ((View.loc (thrV d L) (oPiece offD hinD).view ↦[(oPiece offD hinD).view.set]{fullShare}
        (oPiece offD hinD).view.writes (Elt F) fo [⟨Rect.whole S112x224, ReadAs.same.apply (View.read (Elt F) vS (View.write (Elt F) vS fk
          (ReadAs.same.apply (View.read (Elt F) (xPiece (oS (word d L fp f0 k hin hc t hs hp)) hinS).view fx)) Finset.univ))⟩]) : sProp 𝕄)
      ⊢ (View.loc (thrV d L) (oPiece offD hinD).view ↦[(oPiece offD hinD).view.set]{fullShare}
          (Cert.Spec.G fx fp : Buf (Elt F) ((thrV d L).loc main_v0_scv))) := by
  have hw := word_eq d L fp f0 hK hK16 hin hc hs hp e (chan_lt L n)
  exact Entails.of_eq (piece_final d L n fx fp fo vS fk _ hw (by rw [hw]; exact hfp _) _ offD (hS _) hD hinS hinD)

theorem waits_base {W : Waits sig (HIx 1)} : ∀ p ∈ W, p ∈ W ∨ p.2 = none := fun _ hp => .inl hp

theorem waits_insert {W W' : Waits sig (HIx 1)} (a : SemLoc sig) (h : ∀ p ∈ W', p ∈ W ∨ p.2 = none) :
    ∀ p ∈ insert (a, (default : HIx 1)) W', p ∈ W ∨ p.2 = none := by
  intro p hp
  rcases Finset.mem_insert.mp hp with rfl | hp
  · exact .inr rfl
  · exact h p hp

set_option maxHeartbeats 64000000 in
/-- One tile's program run to its end: every piece then holds the channel permutation of the input. -/
theorem tile_run (O : CellTallies nD τ sig (HIx 1)) (W : Waits sig (HIx 1)) (qx qp : PosShare TreeShare)
    (fx : Buf (Elt F) ((thrV d L).loc main_arg0_scv)) (fp : Buf (Elt F) ((thrV d L).loc main_arg1_scv)) (fo : Buf (Elt F) ((thrV d L).loc main_v0_scv))
    (f0 : Buf (Elt F) ((thrV d L).loc cc0_scratch0))
    (f1 : Buf (Elt F) ((thrV d L).loc cc0_scratch1)) (f2 : Buf (Elt F) ((thrV d L).loc cc0_scratch2))
    (f3 : Buf (Elt F) ((thrV d L).loc cc0_scratch3)) (f4 : Buf (Elt F) ((thrV d L).loc cc0_scratch4))
    (hfp : ∀ j, (fp j).toNat < 192) (prog : Prog (TpuEff nD τ sig (Elt F) Λ₀ (thrV d L).2) PUnit)
    (hprog : prog = cc0__shuffle_body (F := F) L xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0) :
    iprop(Transfers.MayWaits (thrV d L) (none : HIx 1) O
        ∗ ((xW).view.loc (thrV d L) ↦{Transfers.shareTok qx 4 0} fx)
        ∗ ((xW).view.loc (thrV d L) ↦{Transfers.shareTok qx 4 1} fx)
        ∗ ((xW).view.loc (thrV d L) ↦{Transfers.shareTok qx 4 2} fx)
        ∗ ((xW).view.loc (thrV d L) ↦{Transfers.shareTok qx 4 3} fx)
        ∗ ((pW).view.loc (thrV d L) ↦{qp} fp)
        ∗ ((s0W).view.loc (thrV d L) ↦{fullShare} f0)
        ∗ ((s1W).view.loc (thrV d L) ↦{fullShare} f1)
        ∗ ((s2W).view.loc (thrV d L) ↦{fullShare} f2)
        ∗ ((s3W).view.loc (thrV d L) ↦{fullShare} f3)
        ∗ ((s4W).view.loc (thrV d L) ↦{fullShare} f4)
        ∗ semVal (thrV d L, SemLoc.dma cc0_scratch5.sem) 0
        ∗ semVal (thrV d L, SemLoc.dma cc0_scratch6.sem) 0
        ∗ semVal (thrV d L, SemLoc.dma cc0_scratch7.sem) 0
        ∗ semVal (thrV d L, SemLoc.dma cc0_scratch8.sem) 0
        ∗ semVal (thrV d L, SemLoc.dma cc0_scratch9.sem) 0
        ∗ semVal (thrV d L, SemLoc.dma cc0_scratch10.sem) 0
        ∗ semVal (thrV d L, SemLoc.dma cc0_scratch11.sem) 0
        ∗ semVal (thrV d L, SemLoc.dma cc0_scratch12.sem) 0
        ∗ semVal (thrV d L, SemLoc.dma cc0_scoped0.sem) 0
        ∗ heldPieces d L fo
        ∗ owes (thrV d L) O W)
      ⊢ (wp frame (wpE (defs₀ (F := F)) 𝒱₀ (thrV d L) none) Set.univ
          prog
          fun _ => iprop(((xW).view.loc (thrV d L) ↦{Transfers.shareTok qx 4 0} fx)
            ∗ ((xW).view.loc (thrV d L) ↦{Transfers.shareTok qx 4 1} fx)
            ∗ ((xW).view.loc (thrV d L) ↦{Transfers.shareTok qx 4 2} fx)
            ∗ ((xW).view.loc (thrV d L) ↦{Transfers.shareTok qx 4 3} fx)
            ∗ ((pW).view.loc (thrV d L) ↦{qp} fp)
            ∗ (∃ f, (s0W).view.loc (thrV d L) ↦{fullShare} f)
            ∗ (∃ f, (s1W).view.loc (thrV d L) ↦{fullShare} f)
            ∗ (∃ f, (s2W).view.loc (thrV d L) ↦{fullShare} f)
            ∗ (∃ f, (s3W).view.loc (thrV d L) ↦{fullShare} f)
            ∗ (∃ f, (s4W).view.loc (thrV d L) ↦{fullShare} f)
            ∗ semVal (thrV d L, SemLoc.dma cc0_scratch5.sem) 0
            ∗ semVal (thrV d L, SemLoc.dma cc0_scratch6.sem) 0
            ∗ semVal (thrV d L, SemLoc.dma cc0_scratch7.sem) 0
            ∗ semVal (thrV d L, SemLoc.dma cc0_scratch8.sem) 0
            ∗ semVal (thrV d L, SemLoc.dma cc0_scratch9.sem) 0
            ∗ semVal (thrV d L, SemLoc.dma cc0_scratch10.sem) 0
            ∗ semVal (thrV d L, SemLoc.dma cc0_scratch11.sem) 0
            ∗ semVal (thrV d L, SemLoc.dma cc0_scratch12.sem) 0
            ∗ semVal (thrV d L, SemLoc.dma cc0_scoped0.sem) 0
            ∗ heldPieces d L (Cert.Spec.G fx fp)
            ∗ ∃ W', ⌜∀ p ∈ W', p ∈ W ∨ p.2 = none⌝ ∗ owes (thrV d L) O W') : sProp 𝕄) := by
  subst hprog
  unfold heldPieces held
  iintro ⟨Hmw, Hx0, Hx1, Hx2, Hx3, Hp, Hs0, Hs1, Hs2, Hs3, Hs4, Hg0, Hg1, Hg2, Hg3, Hq0, Hq1, Hq2, Hq3, Hsc, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24, Ho25, Ho26, Ho27, Ho28, Ho29, Ho30, Ho31, Ho32, Ho33, Ho34, Ho35, Ho36, Ho37, Ho38, Ho39, Ho40, Ho41, Ho42, Ho43, Ho44, Ho45, Ho46, Ho47, Ho48, Ho49, Ho50, Ho51, Ho52, Ho53, Ho54, Ho55, Ho56, Ho57, Ho58, Ho59, Ho60, Ho61, Ho62, Ho63, Ho64, Ho65, Ho66, Ho67, Ho68, Ho69, Ho70, Ho71, Ho72, Ho73, Ho74, Ho75, Ho76, Ho77, Ho78, Ho79, Ho80, Ho81, Ho82, Ho83, Ho84, Ho85, Ho86, Ho87, Ho88, Ho89, Ho90, Ho91, Ho92, Ho93, Ho94, Ho95, -⟩, HO⟩

  have hany := any_lt d L fp hfp f0
  sl_exec (disch := (chk_norm; exact hany _ _ _))
  sl_step
  iclear Hmw
  isplitl [Hx0]; · iexact Hx0
  isplitl [Hx1]; · iexact Hx1
  isplitl [Hx2]; · iexact Hx2
  isplitl [Hx3]; · iexact Hx3
  isplitl [Hp]; · iexact Hp
  isplitl [Hs0]; · iexists _; iexact Hs0
  isplitl [Hs1]; · iexists _; iexact Hs1
  isplitl [Hs2]; · iexists _; iexact Hs2
  isplitl [Hs3]; · iexists _; iexact Hs3
  isplitl [Hs4]; · iexists _; iexact Hs4
  isplitl [Hg0]; · iexact Hg0
  isplitl [Hg1]; · iexact Hg1
  isplitl [Hg2]; · iexact Hg2
  isplitl [Hg3]; · iexact Hg3
  isplitl [Hq0]; · iexact Hq0
  isplitl [Hq1]; · iexact Hq1
  isplitl [Hq2]; · iexact Hq2
  isplitl [Hq3]; · iexact Hq3
  isplitl [Hsc]; · iexact Hsc
  isplitr [HO]
  · have pd := piece_done d L fx fp fo hfp f0
    close_pieces
  · iexists _
    isplitr
    swap
    · iexact HO
    · ipureintro
      repeat (first | exact waits_base | apply waits_insert)

end Cert.Proof.KB

end
-- ==== Proof.KB.Body.lean ====
import proofs.«215561_g44298292691222_cont_8to1_c_1064_17_alg».proof.Proof.KB.Run

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- What the tile's program uses of its own storage, split off from what the launch deals it. -/
def tileSems : Finset (SemLoc sig) :=
  {SemLoc.dma cc0_scratch5.sem, SemLoc.dma cc0_scratch6.sem, SemLoc.dma cc0_scratch7.sem, SemLoc.dma cc0_scratch8.sem,
    SemLoc.dma cc0_scratch9.sem, SemLoc.dma cc0_scratch10.sem, SemLoc.dma cc0_scratch11.sem, SemLoc.dma cc0_scratch12.sem,
    SemLoc.dma cc0_scoped0.sem}

def tileCell (thr : Thread nD τ) : SemLoc sig ↪ GSem nD τ sig := ⟨fun sm => (thr, sm), fun _ _ h => (Prod.mk.inj h).2⟩

theorem tileSems_scoped : ∀ sm ∈ (tileSems : Finset (SemLoc sig)), sm.isScoped .scVector = true := by decide

def tileBufs : Finset (Ref sig .scVector) := {cc0_scratch0, cc0_scratch1, cc0_scratch2, cc0_scratch3, cc0_scratch4}

def tileRef (d : Dev nD) (L : grid0.Coords) : Ref sig .scVector ↪ DevRef τ sig := ⟨(thrV d L).2.devRef, Proc.devRef_injective _⟩

omit [FloatOps F] in
theorem ownSems0_tile (d : Dev nD) (L : grid0.Coords) :
    (ownSems0 (thrV d L) : sProp 𝕄)
      = iprop((semVal (thrV d L, SemLoc.dma cc0_scratch5.sem) 0
          ∗ semVal (thrV d L, SemLoc.dma cc0_scratch6.sem) 0
          ∗ semVal (thrV d L, SemLoc.dma cc0_scratch7.sem) 0
          ∗ semVal (thrV d L, SemLoc.dma cc0_scratch8.sem) 0
          ∗ semVal (thrV d L, SemLoc.dma cc0_scratch9.sem) 0
          ∗ semVal (thrV d L, SemLoc.dma cc0_scratch10.sem) 0
          ∗ semVal (thrV d L, SemLoc.dma cc0_scratch11.sem) 0
          ∗ semVal (thrV d L, SemLoc.dma cc0_scratch12.sem) 0
          ∗ semVal (thrV d L, SemLoc.dma cc0_scoped0.sem) 0)
          ∗ bigSep (ownCells (thrV d L) \ tileSems.map (tileCell (thrV d L))) fun g => semVal g 0) := by
  unfold SparseCore.Cfg.ownSems0
  rw [SparseCore.bigSep_sdiff_split' (t := tileSems.map (tileCell (thrV d L))) (fun g hg => by
      obtain ⟨sm, hsm, rfl⟩ := Finset.mem_map.mp hg
      exact mem_ownCells.mpr ⟨rfl, tileSems_scoped sm hsm⟩), bigSep_map]
  unfold tileSems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem ownBufs_tile (d : Dev nD) (L : grid0.Coords) :
    (ownBufs (thrV d L) : sProp 𝕄)
      = iprop(((∃ f, (s0W).view.loc (thrV d L) ↦{fullShare} f) ∗ (∃ f, (s1W).view.loc (thrV d L) ↦{fullShare} f)
          ∗ (∃ f, (s2W).view.loc (thrV d L) ↦{fullShare} f) ∗ (∃ f, (s3W).view.loc (thrV d L) ↦{fullShare} f)
          ∗ (∃ f, (s4W).view.loc (thrV d L) ↦{fullShare} f))
          ∗ bigSep (ownRefs (thrV d L).2 \ tileBufs.map (tileRef d L)) fun b => iprop(∃ f, (((thrV d L).1, b) : Loc nD τ sig) ↦{fullShare} f)) := by
  unfold SparseCore.Cfg.ownBufs
  rw [SparseCore.bigSep_sdiff_split' (t := tileBufs.map (tileRef d L)) (fun b hb => by
      obtain ⟨r, hr, rfl⟩ := Finset.mem_map.mp hb
      simp only [tileBufs, Finset.mem_insert, Finset.mem_singleton] at hr
      rcases hr with rfl | rfl | rfl | rfl | rfl <;> exact SparseCore.Cfg.mem_ownRefs_of_owner rfl), bigSep_map]
  unfold tileBufs
  rw [SparseCore.bigSep_insert' (by decide), SparseCore.bigSep_insert' (by decide), SparseCore.bigSep_insert' (by decide),
    SparseCore.bigSep_insert' (by decide), bigSep_singleton]
  rfl

omit [FloatOps F] in

theorem xW_pts (d : Dev nD) (L : grid0.Coords) (q : PosShare TreeShare) (f : Buf (Elt F) (xLoc d)) :
    ((xW).view.loc (thrV d L) ↦{q} f : sProp 𝕄) = xLoc d ↦{q} f := by
  simp only [Memref.view_whole, View.set_whole]
omit [FloatOps F] in

theorem pW_pts (d : Dev nD) (L : grid0.Coords) (q : PosShare TreeShare) (f : Buf (Elt F) (pLoc d)) :
    ((pW).view.loc (thrV d L) ↦{q} f : sProp 𝕄) = pLoc d ↦{q} f := by
  simp only [Memref.view_whole, View.set_whole]

omit [FloatOps F] in

theorem readToks4 (ℓ : Loc nD τ sig) (q : PosShare TreeShare) (f : Buf (Elt F) ℓ) :
    (bigSep Finset.univ (fun k : Fin 4 => (ℓ ↦{Transfers.shareTok q 4 k} f : sProp 𝕄)))
      = iprop((ℓ ↦{Transfers.shareTok q 4 0} f) ∗ (ℓ ↦{Transfers.shareTok q 4 1} f) ∗ (ℓ ↦{Transfers.shareTok q 4 2} f)
          ∗ (ℓ ↦{Transfers.shareTok q 4 3} f) ∗ emp) :=
  Cert.Lib.bigSep_univ_fin 4 _

/-- The body obligation of one tile: handed its read shares and its 96 pieces, it hands them back with every piece at the channel permutation. -/
theorem tile_body (d : Dev nD) (c : Fin 2) (i : Fin 16) (hpre : PreOK m d)
    (O : CellTallies nD τ sig (HIx 1)) (W : Waits sig (HIx 1)) (hO : ∀ g, O g none = 0) :
    iprop(levAts (K (F := F)).L (K (F := F)).lev ∗ emp ∗ goT m d c i
        ∗ scopedBufs (thrV d (coordsV c i)) ∗ scopedSems0 (thrV d (coordsV c i)) ∗ owes (thrV d (coordsV c i)) O W)
      ⊢ (wp frame (wpE (defs₀ (F := F)) 𝒱₀ (thrV d (coordsV c i)) none) Set.univ
          (cc0__shuffle_body (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0)
          fun _ => iprop(tdT m d c i ∗ scopedBufs (thrV d (coordsV c i)) ∗ scopedSems0 (thrV d (coordsV c i))
            ∗ ∃ W', ⌜∀ p ∈ W', p ∈ W ∨ p.2 = none⌝ ∗ owes (thrV d (coordsV c i)) O W') : sProp 𝕄) := by
  generalize hprog : cc0__shuffle_body (F := F) (coordsV c i) xW (Memref.isWhole_whole _) pW (Memref.isWhole_whole _) oW (Memref.isWhole_whole _) s0W (Memref.isWhole_whole _) s1W (Memref.isWhole_whole _) s2W (Memref.isWhole_whole _) s3W (Memref.isWhole_whole _) s4W (Memref.isWhole_whole _) cc0_scratch5 cc0_scratch6 cc0_scratch7 cc0_scratch8 cc0_scratch9 cc0_scratch10 cc0_scratch11 cc0_scratch12 cc0_scoped0 = prog
  rw [(K (F := F)).scopedBufs_V facts d _ _, SparseCore.Cfg.scopedSems0_V (Val := Elt F) d _ _, ownSems0_tile, ownBufs_tile]
  unfold goT tdT
  rw [← heldPieces_eq d (coordsV c i) (m (oLoc d)), ← heldPieces_eq d (coordsV c i) (Gm m d),
    ← xW_pts d (coordsV c i), ← pW_pts d (coordsV c i)]
  iintro ⟨#Hlv, -, ⟨Hx, Hp, Hpc⟩, ⟨⟨⟨%f0, Hs0⟩, ⟨%f1, Hs1⟩, ⟨%f2, Hs2⟩, ⟨%f3, Hs3⟩, ⟨%f4, Hs4⟩⟩, Hbufs⟩,
    ⟨⟨H5, H6, H7, H8, H9, H10, H11, H12, H13⟩, Hsems⟩, HO⟩
  ihave Hmw := ((K (F := F)).mayWaits_none (thr := thrV d (coordsV c i)) hO) $$ Hlv

  ihave Hx4 := (Transfers.pointsTo_toks_split (qT c i) 4) $$ Hx
  icases Hx4 with ⟨Hxr, Htoks⟩
  ihave Ht := (Entails.of_eq (readToks4 _ (qT c i) _)) $$ Htoks
  icases Ht with ⟨Ht0, Ht1, Ht2, Ht3, -⟩
  have run := tile_run d (coordsV c i) O W (qT c i) (qT c i) (m (xLoc d)) (m (pLoc d)) (m (oLoc d)) f0 f1 f2 f3 f4 hpre prog hprog.symm
  iapply (run.trans (wp_wand frame _ _)) $$ [Hmw Ht0 Ht1 Ht2 Ht3 Hp Hs0 Hs1 Hs2 Hs3 Hs4 H5 H6 H7 H8 H9 H10 H11 H12 H13 Hpc HO]
  · iframe; iexact Hmw
  iintro %_ ⟨Ht0, Ht1, Ht2, Ht3, Hp, Hs0, Hs1, Hs2, Hs3, Hs4, H5, H6, H7, H8, H9, H10, H11, H12, H13, Hpc, HW⟩
  ihave Hx := (Transfers.pointsTo_toks_join (qT c i) 4) $$ [Hxr Ht0 Ht1 Ht2 Ht3]
  · rw [readToks4]; iframe
  iframe

end Cert.Proof.KB

end
-- ==== Proof.KB.Split.lean ====
import proofs.«215561_g44298292691222_cont_8to1_c_1064_17_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A piece is one batch element, one channel and one half of the rows. -/
theorem mem_slSet (L : grid0.Coords) (n : Fin 96) (j : S8x192x224x224.Idx) :
    j ∈ slSet L n ↔ (j 0).val = bOf L ∧ (j 1).val = cBase L + n.val / 2
      ∧ 112 * (n.val % 2) ≤ (j 2).val ∧ (j 2).val < 112 * (n.val % 2) + 112 := by
  unfold slSet
  rw [Rect.mem_set_unit]
  have h3 : (j 3).val < 224 := (j 3).isLt
  constructor
  · intro h
    have h0 := h 0
    have h1 := h 1
    have h2 := h 2
    change bOf L ≤ (j 0).val ∧ (j 0).val < bOf L + 1 at h0
    change cBase L + n.val / 2 ≤ (j 1).val ∧ (j 1).val < cBase L + n.val / 2 + 1 at h1
    change 112 * (n.val % 2) ≤ (j 2).val ∧ (j 2).val < 112 * (n.val % 2) + 112 at h2
    omega
  · rintro ⟨h0, h1, h2, h2'⟩ a
    match a with
    | ⟨0, _⟩ => show bOf L ≤ (j 0).val ∧ (j 0).val < bOf L + 1; omega
    | ⟨1, _⟩ => show cBase L + n.val / 2 ≤ (j 1).val ∧ (j 1).val < cBase L + n.val / 2 + 1; omega
    | ⟨2, _⟩ => show 112 * (n.val % 2) ≤ (j 2).val ∧ (j 2).val < 112 * (n.val % 2) + 112; omega
    | ⟨3, _⟩ => show 0 ≤ (j 3).val ∧ (j 3).val < 0 + 224; omega

theorem wid_coordsV (c : Fin 2) (i : Fin 16) : wid (coordsV c i) = 2 * i.val + c.val := rfl

/-- An index lies in at most one piece: core, tile and piece number are read off its coordinates. -/
theorem slSet_inj {c c' : Fin 2} {i i' : Fin 16} {n n' : Fin 96} {j : S8x192x224x224.Idx}
    (h : j ∈ slSet (coordsV c i) n) (h' : j ∈ slSet (coordsV c' i') n') : c = c' ∧ i = i' ∧ n = n' := by
  rw [mem_slSet] at h h'
  unfold bOf cBase at h h'
  rw [wid_coordsV] at h h'
  have hc : c.val < 2 := c.isLt
  have hc' : c'.val < 2 := c'.isLt
  have hi : i.val < 16 := i.isLt
  have hi' : i'.val < 16 := i'.isLt
  have hn : n.val < 96 := n.isLt
  have hn' : n'.val < 96 := n'.isLt
  refine ⟨Fin.ext ?_, Fin.ext ?_, Fin.ext ?_⟩ <;> omega

def tilePieces (c : Fin 2) (i : Fin 16) : Finset S8x192x224x224.Idx := Finset.univ.biUnion fun n : Fin 96 => slSet (coordsV c i) n
def corePieces (c : Fin 2) : Finset S8x192x224x224.Idx := Finset.univ.biUnion fun i : Fin 16 => tilePieces c i

theorem mem_tilePieces {c : Fin 2} {i : Fin 16} {j : S8x192x224x224.Idx} : j ∈ tilePieces c i ↔ ∃ n, j ∈ slSet (coordsV c i) n := by
  simp only [tilePieces, Finset.mem_biUnion, Finset.mem_univ, true_and]
theorem mem_corePieces {c : Fin 2} {j : S8x192x224x224.Idx} : j ∈ corePieces c ↔ ∃ i n, j ∈ slSet (coordsV c i) n := by
  simp only [corePieces, Finset.mem_biUnion, Finset.mem_univ, true_and, mem_tilePieces]
  exact Iff.rfl

theorem pieces_disjoint (c : Fin 2) (i : Fin 16) : ∀ n ∈ (Finset.univ : Finset (Fin 96)), ∀ n' ∈ (Finset.univ : Finset (Fin 96)),
    n ≠ n' → Disjoint (slSet (coordsV c i) n) (slSet (coordsV c i) n') :=
  fun _ _ _ _ hne => Finset.disjoint_left.mpr fun _ h h' => hne (slSet_inj h h').2.2
theorem tiles_disjoint (c : Fin 2) : ∀ i ∈ (Finset.univ : Finset (Fin 16)), ∀ i' ∈ (Finset.univ : Finset (Fin 16)),
    i ≠ i' → Disjoint (tilePieces c i) (tilePieces c i') :=
  fun _ _ _ _ hne => Finset.disjoint_left.mpr fun _ h h' => by
    obtain ⟨n, hn⟩ := mem_tilePieces.mp h
    obtain ⟨n', hn'⟩ := mem_tilePieces.mp h'
    exact hne (slSet_inj hn hn').2.1
theorem cores_disjoint : ∀ c ∈ (Finset.univ : Finset (Fin 2)), ∀ c' ∈ (Finset.univ : Finset (Fin 2)),
    c ≠ c' → Disjoint (corePieces c) (corePieces c') :=
  fun _ _ _ _ hne => Finset.disjoint_left.mpr fun _ h h' => by
    obtain ⟨i, n, hn⟩ := mem_corePieces.mp h
    obtain ⟨i', n', hn'⟩ := mem_corePieces.mp h'
    exact hne (slSet_inj hn hn').1

/-- Every index lies in some piece: worker `4 b + ch / 48`, piece `2 (ch % 48) + row / 112`. -/
theorem cores_cover : (Finset.univ : Finset (Fin 2)).biUnion corePieces = Finset.univ := by
  ext j
  simp only [Finset.mem_biUnion, Finset.mem_univ, true_and, iff_true, mem_corePieces]
  have h0 : (j 0).val < 8 := (j 0).isLt
  have h1 : (j 1).val < 192 := (j 1).isLt
  have h2 : (j 2).val < 224 := (j 2).isLt
  have hw : (4 * (j 0).val + (j 1).val / 48) / 2 < 16 := by omega
  have hp : 2 * ((j 1).val % 48) + (j 2).val / 112 < 96 := by omega
  refine ⟨⟨(4 * (j 0).val + (j 1).val / 48) % 2, Nat.mod_lt _ (by decide)⟩, (⟨(4 * (j 0).val + (j 1).val / 48) / 2, hw⟩ : Fin 16),
    ⟨2 * ((j 1).val % 48) + (j 2).val / 112, hp⟩, ?_⟩
  rw [mem_slSet]
  unfold bOf cBase
  rw [wid_coordsV]
  simp only []
  omega

variable [FloatOps F] (m : (ℓ : Loc nD τ sig) → Buf (Elt F) ℓ)

/-- So the whole output array is the iterated separating conjunction of the 2 × 16 × 96 pieces. -/
theorem oPts_pieces (d : Dev nD) (f : Buf (Elt F) (oLoc d)) :
    (oLoc d ↦{fullShare} f : sProp 𝕄) = bigSep Finset.univ fun c : Fin 2 => bigSep Finset.univ fun i : Fin 16 =>
      bigSep Finset.univ fun n : Fin 96 => oLoc d ↦[slSet (coordsV c i) n]{fullShare} f := by
  have h1 : (oLoc d ↦[(Finset.univ : Finset (Fin 2)).biUnion corePieces]{fullShare} f : sProp 𝕄)
      = bigSep Finset.univ fun c : Fin 2 => oLoc d ↦[corePieces c]{fullShare} f :=
    pointsTo_biUnion Finset.univ (ℓ := oLoc d) corePieces cores_disjoint
  have h2 : ∀ c : Fin 2, (oLoc d ↦[corePieces c]{fullShare} f : sProp 𝕄)
      = bigSep Finset.univ fun i : Fin 16 => oLoc d ↦[tilePieces c i]{fullShare} f :=
    fun c => pointsTo_biUnion Finset.univ (ℓ := oLoc d) (tilePieces c) (tiles_disjoint c)
  have h3 : ∀ (c : Fin 2) (i : Fin 16), (oLoc d ↦[tilePieces c i]{fullShare} f : sProp 𝕄)
      = bigSep Finset.univ fun n : Fin 96 => oLoc d ↦[slSet (coordsV c i) n]{fullShare} f :=
    fun c i => pointsTo_biUnion Finset.univ (ℓ := oLoc d) (fun n => slSet (coordsV c i) n) (pieces_disjoint c i)
  rw [cores_cover] at h1
  refine Eq.trans ?_ (h1.trans (bigSep_congr fun c _ => (h2 c).trans (bigSep_congr fun i _ => h3 c i)))
  rfl

theorem P_st (d : Dev nD) (c : Fin ((K (F := F)).nCore 0)) : (P m).st 0 d c = stC m d (Fin.cast nCore_zero c) := rfl
theorem P_dn (d : Dev nD) (c : Fin ((K (F := F)).nCore 0)) : (P m).dn 0 d c = dnC m d (Fin.cast nCore_zero c) := rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem st_cores (d : Dev nD) :
    (bigSep Finset.univ fun c : Fin ((K (F := F)).nCore 0) => (P m).st 0 d c) = bigSep Finset.univ fun c : Fin 2 => stC m d c :=
  bigSep_cores (F := F) (fun c => stC m d c)
theorem dn_cores (d : Dev nD) :
    (bigSep Finset.univ fun c : Fin ((K (F := F)).nCore 0) => (P m).dn 0 d c) = bigSep Finset.univ fun c : Fin 2 => dnC m d c :=
  bigSep_cores (F := F) (fun c => dnC m d c)
theorem go_tiles (d : Dev nD) (c : Fin ((K (F := F)).nCore 0)) :
    (bigSep Finset.univ fun i : Fin ((K (F := F)).nSub 0) => (P m).go 0 d c i)
      = bigSep Finset.univ fun i : Fin 16 => goT m d (Fin.cast nCore_zero c) i :=
  bigSep_tiles (F := F) (fun i => goT m d (Fin.cast nCore_zero c) i)
theorem td_tiles (d : Dev nD) (c : Fin ((K (F := F)).nCore 0)) :
    (bigSep Finset.univ fun i : Fin ((K (F := F)).nSub 0) => (P m).td 0 d c i)
      = bigSep Finset.univ fun i : Fin 16 => tdT m d (Fin.cast nCore_zero c) i :=
  bigSep_tiles (F := F) (fun i => tdT m d (Fin.cast nCore_zero c) i)

def keepTC (d : Dev nD) : sProp 𝕄 :=
  iprop((xLoc d ↦{Transfers.shareDrop fullShare 2} m (xLoc d)) ∗ (pLoc d ↦{Transfers.shareDrop fullShare 2} m (pLoc d)))

theorem st_split (d : Dev nD) :
    iprop((xLoc d ↦{fullShare} m (xLoc d)) ∗ (pLoc d ↦{fullShare} m (pLoc d)) ∗ (oLoc d ↦{fullShare} m (oLoc d)))
      ⊢ (iprop(keepTC m d ∗ bigSep Finset.univ fun c : Fin ((K (F := F)).nCore 0) => (P m).st 0 d c) : sProp 𝕄) := by
  rw [st_cores]
  unfold keepTC stC
  rw [bigSep_sep', bigSep_sep', oPts_pieces (F := F) d (m (oLoc d))]
  iintro ⟨Hx, Hp, Ho⟩
  ihave Hx' := (Transfers.pointsTo_toks_split (ℓ := xLoc d) (S := Finset.univ) (f := m (xLoc d)) fullShare 2) $$ Hx
  ihave Hp' := (Transfers.pointsTo_toks_split (ℓ := pLoc d) (S := Finset.univ) (f := m (pLoc d)) fullShare 2) $$ Hp
  icases Hx' with ⟨Hxd, Hxt⟩
  icases Hp' with ⟨Hpd, Hpt⟩
  isplitl [Hxd Hpd]
  · isplitl [Hxd]; · iexact Hxd
    iexact Hpd
  isplitl [Hxt]; · iexact Hxt
  isplitl [Hpt]; · iexact Hpt
  iexact Ho

theorem dn_join (d : Dev nD) :
    iprop(keepTC m d ∗ bigSep Finset.univ fun c : Fin ((K (F := F)).nCore 0) => (P m).dn 0 d c)
      ⊢ (iprop((xLoc d ↦{fullShare} m (xLoc d)) ∗ (pLoc d ↦{fullShare} m (pLoc d)) ∗ (oLoc d ↦{fullShare} Gm m d)) : sProp 𝕄) := by
  rw [dn_cores]
  unfold keepTC dnC
  rw [bigSep_sep', bigSep_sep', oPts_pieces (F := F) d (Gm m d)]
  iintro ⟨⟨Hxd, Hpd⟩, Hxt, Hpt, Ho⟩
  isplitl [Hxd Hxt]
  · iapply (Transfers.pointsTo_toks_join (ℓ := xLoc d) (S := Finset.univ) (f := m (xLoc d)) fullShare 2)
    isplitl [Hxd]; · iexact Hxd
    iexact Hxt
  isplitl [Hpd Hpt]
  · iapply (Transfers.pointsTo_toks_join (ℓ := pLoc d) (S := Finset.univ) (f := m (pLoc d)) fullShare 2)
    isplitl [Hpd]; · iexact Hpd
    iexact Hpt
  iexact Ho

theorem vecSplit_core (d : Dev nD) (c : Fin 2) :
    stC m d c ⊢ |={Set.univ}=> (iprop((bigSep Finset.univ fun i : Fin 16 => goT m d c i)
      ∗ ((bigSep Finset.univ fun i : Fin 16 => tdT m d c i) -∗ dnC m d c)) : sProp 𝕄) := by
  unfold stC goT tdT dnC
  rw [bigSep_sep', bigSep_sep', bigSep_sep', bigSep_sep']
  iintro ⟨Hx, Hp, Ho⟩
  ihave Hx' := (Transfers.pointsTo_toks_split (ℓ := xLoc d) (S := Finset.univ) (f := m (xLoc d)) (qC c) 16) $$ Hx
  ihave Hp' := (Transfers.pointsTo_toks_split (ℓ := pLoc d) (S := Finset.univ) (f := m (pLoc d)) (qC c) 16) $$ Hp
  icases Hx' with ⟨Hxd, Hxt⟩
  icases Hp' with ⟨Hpd, Hpt⟩
  imodintro
  isplitl [Hxt Hpt Ho]
  · isplitl [Hxt]; · iexact Hxt
    isplitl [Hpt]; · iexact Hpt
    iexact Ho
  iintro ⟨Hxt, Hpt, Ho⟩
  isplitl [Hxd Hxt]
  · iapply (Transfers.pointsTo_toks_join (ℓ := xLoc d) (S := Finset.univ) (f := m (xLoc d)) (qC c) 16)
    isplitl [Hxd]; · iexact Hxd
    iexact Hxt
  isplitl [Hpd Hpt]
  · iapply (Transfers.pointsTo_toks_join (ℓ := pLoc d) (S := Finset.univ) (f := m (pLoc d)) (qC c) 16)
    isplitl [Hpd]; · iexact Hpd
    iexact Hpt
  iexact Ho

theorem vecSplit : (K (F := F)).VecSplit' (P m) 0 := by
  intro d c
  show (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c))
  rw [P_st, P_dn, go_tiles, td_tiles]
  exact vecSplit_core m d (Fin.cast nCore_zero c)

end Cert.Proof.KB

end
-- ==== Proof.KB.Launch.lean ====
import proofs.«215561_g44298292691222_cont_8to1_c_1064_17_alg».proof.Proof.KB.Setup
import proofs.«215561_g44298292691222_cont_8to1_c_1064_17_alg».proof.Proof.KB.Body
import proofs.«215561_g44298292691222_cont_8to1_c_1064_17_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

theorem defs₀_vector (c : Fin τ.nSC) (s : Fin τ.nSub) :
    defs₀ (F := F) (.scVector c s) 0 ()
      = SparseCore.onTile hcore0 hsub0 (fun c s => cc0__shuffle_body (coordsV c s)
          xW (Memref.isWhole_whole _) pW (Memref.isWhole_whole _) oW (Memref.isWhole_whole _)
          s0W (Memref.isWhole_whole _) s1W (Memref.isWhole_whole _) s2W (Memref.isWhole_whole _)
          s3W (Memref.isWhole_whole _) s4W (Memref.isWhole_whole _)
          cc0_scratch5 cc0_scratch6 cc0_scratch7 cc0_scratch8 cc0_scratch9 cc0_scratch10 cc0_scratch11 cc0_scratch12
          cc0_scoped0) ⟨⟩ c s := rfl

omit [FloatOps F] in

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tile_body_at (d : Dev nD) (c : Fin 2) (i : Fin 16) (hpre : PreOK m d)
    (O : CellTallies nD τ sig (HIx 1)) (W : Waits sig (HIx 1)) (hO : ∀ g, O g none = 0)
    (thr : Thread nD τ) (hthr : thr = thrV d (coordsV c i))
    (prog : Prog (TpuEff nD τ sig (Elt F) Λ₀ thr.2) PUnit)
    (hprog : HEq prog (cc0__shuffle_body (F := F) (coordsV c i)
      xW (Memref.isWhole_whole _) pW (Memref.isWhole_whole _) oW (Memref.isWhole_whole _)
      s0W (Memref.isWhole_whole _) s1W (Memref.isWhole_whole _) s2W (Memref.isWhole_whole _)
      s3W (Memref.isWhole_whole _) s4W (Memref.isWhole_whole _)
      cc0_scratch5 cc0_scratch6 cc0_scratch7 cc0_scratch8 cc0_scratch9 cc0_scratch10 cc0_scratch11 cc0_scratch12 cc0_scoped0)) :
    iprop(levAts (K (F := F)).L (K (F := F)).lev ∗ emp ∗ goT m d c i ∗ scopedBufs thr ∗ scopedSems0 thr ∗ owes thr O W)
      ⊢ (wp frame (wpE (defs₀ (F := F)) 𝒱₀ thr none) Set.univ prog
          fun _ => iprop(tdT m d c i ∗ scopedBufs thr ∗ scopedSems0 thr
            ∗ ∃ W', ⌜∀ p ∈ W', p ∈ W ∨ p.2 = none⌝ ∗ owes thr O W') : sProp 𝕄) := by
  subst hthr
  obtain rfl := eq_of_heq hprog
  exact tile_body m d c i hpre O W hO

/-- Every tile meets its obligation, by `tile_body` at the tile's coordinates. -/
theorem tileObl (hpre : ∀ d, PreOK m d) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ (wp_mono frame _ _ fun _ => obl_post (q := 0))
  have e0 : (P m).x 0 (V d ((K (F := F)).core 0 c) ((K (F := F)).sub 0 i)) = iprop(emp) := rfl
  have e1 : (P m).go 0 d c i = goT m d ⟨_, hc.1⟩ ⟨_, hc.2⟩ := rfl
  have e4 : (P m).td 0 d c i = tdT m d ⟨_, hc.1⟩ ⟨_, hc.2⟩ := rfl
  rw [e0, e1, e4]
  generalize hq : cc0__shuffle_body (F := F) (coordsV ⟨_, hc.1⟩ ⟨_, hc.2⟩) xW (Memref.isWhole_whole _) pW (Memref.isWhole_whole _) oW (Memref.isWhole_whole _)
      s0W (Memref.isWhole_whole _) s1W (Memref.isWhole_whole _) s2W (Memref.isWhole_whole _) s3W (Memref.isWhole_whole _) s4W (Memref.isWhole_whole _)
      cc0_scratch5 cc0_scratch6 cc0_scratch7 cc0_scratch8 cc0_scratch9 cc0_scratch10 cc0_scratch11 cc0_scratch12 cc0_scoped0 = prog
  exact tile_body_at m d ⟨_, hc.1⟩ ⟨_, hc.2⟩ (hpre d) O W hO (V d ((K (F := F)).core 0 c) ((K (F := F)).sub 0 i)) rfl prog (heq_of_eq hq.symm)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

abbrev z' : DevRef τ sig := Proc.devRef .tc (main_cst : Ref sig .tc)

abbrev opCst : HloOp τ sig (Elt F) := StableHlo.nullary main_cst (constant S_ .f32 0x00000000#32)

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1)
      ∗ (oLoc d ↦{fullShare} W main_v0) ∗ zLoc d ↦{fullShare} W main_cst) := by
  unfold unscopedBufs
  rw [show (Finset.univ.filter fun b : Ref sig .tc => ¬ b.isScoped) = {main_arg0, main_arg1, main_v0, main_cst} by decide,
    SparseCore.bigSep_insert' (by decide), SparseCore.bigSep_insert' (by decide), SparseCore.bigSep_insert' (by decide), bigSep_singleton]

def V0 (d : Dev nD) : Valuation τ sig (Elt F) := fun b => m (d, b)

omit [FloatOps F] in
theorem held_z (d : Dev nD) (W : Valuation τ sig (Elt F)) :
    (StableHlo.held (T d) ({z'} : Finset (DevRef τ sig)) W : sProp 𝕄) = (zLoc d ↦{fullShare} W z') := by
  unfold StableHlo.held
  rw [bigSep_singleton]

abbrev FIN (d : Dev nD) : sProp 𝕄 :=
  iprop((xLoc d ↦{fullShare} m (xLoc d)) ∗ (pLoc d ↦{fullShare} m (pLoc d)) ∗ (oLoc d ↦{fullShare} Gm m d)
    ∗ zLoc d ↦{fullShare} (constant (F := F) S_ .f32 0x00000000#32 : Buf (Elt F) (zLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hp, Ho, Hz⟩, -, -⟩, -⟩
  ihave Hs := (st_split m d) $$ [Hx Hp Ho]
  · isplitl [Hx]; · iexact Hx
    isplitl [Hp]; · iexact Hp
    iexact Ho
  icases Hs with ⟨Hkeep, Hst0⟩
  iapply ((K (F := F)).wp_run (D (F := F)) 𝒱 (EH := EH) (P := P m) κ d 0) $$ [Hst Hst0 Hkeep Hb Hz]
  isplitr; · iexact Hctx
  isplitl [Hst]; · iexact Hst
  isplitl [Hst0]; · iexact Hst0
  iintro ⟨Hst, Hdn⟩
  ihave Hj := (dn_join m d) $$ [Hkeep Hdn]
  · isplitl [Hkeep]; · iexact Hkeep
    iexact Hdn
  icases Hj with ⟨Hx, Hp, Ho⟩
  iapply (wp_hlo_within 𝒱 (SparseCore.T d) none Set.univ (op := opCst) (S := ({z'} : Finset (DevRef τ sig))) (Finset.Subset.refl _) (V := V0 m d)) $$ [Hb Hz]
  · isplitl [Hb]; · iexact Hb
    rw [held_z]; iexact Hz
  iintro ⟨Hb, Hheld⟩
  ihave Hz := (Entails.of_eq (held_z (F := F) d _)) $$ Hheld
  rw [wp_ret]; imodintro; imodintro
  isplitl [Hst]; · iexact Hst
  isplitl [Hx]; · iexact Hx
  isplitl [Hp]; · iexact Hp
  isplitl [Ho]; · iexact Ho
  rw [StableHlo.nullary_result]
  iexact Hz

def fq (d : Dev nD) (s' : Phys nD τ sig (Elt F)) : Prop :=
  s'.mem.mem (oLoc d) = Gm m d ∧ s'.mem.mem (zLoc d) = constant (F := F) S_ .f32 0x00000000#32
    ∧ s'.mem.mem (xLoc d) = m (xLoc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Hx, Hp, Ho, Hz⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := oLoc d) (I := Finset.univ) (q := fullShare) (f := Gm m d))) $$ [HSI Ho]
  · isplitl [HSI] <;> iassumption
  icases H with ⟨%h3, HSI, -⟩
  ihave H := (SI_pointsTo_agree (st := s') (ℓ := zLoc d) (I := Finset.univ) (q := fullShare) (f := (constant (F := F) S_ .f32 0x00000000#32 : Buf (Elt F) (zLoc d)))) $$ [HSI Hz]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

def QC : PUnit × MemSt nD τ sig (Elt F) → Prop := fun r => ∀ c : Dev nD,
  r.2.mem (oLoc c) = Gm m c ∧ r.2.mem (zLoc c) = constant (F := F) S_ .f32 0x00000000#32
    ∧ r.2.mem (xLoc c) = m (xLoc c) ∧ r.2.mem (pLoc c) = m (pLoc c)

/-- Under the precondition every weakly fair execution ends with the first result the channel permutation of the two arguments, the second the zero scalar, the arguments unchanged. -/
theorem run_main [∀ e, Nonempty (Elt F e)] (hpre : ∀ d, PreOK m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/- The kernel is a channel permutation, out[b, c] = x[b, perm[c]]. Each of the 32 tiles moves 96 half-planes; the output is the disjoint
   union of the 32 × 96 pieces and the inputs are only read. One run theorem per program gives the strongest post; the frames drop the
   values, and at the ideal instance kernel and reference both end at `Cert.Spec.G` of the same arguments. -/
import proofs.«215561_g44298292691222_cont_8to1_c_1064_17_alg».proof.Defs
import proofs.«215561_g44298292691222_cont_8to1_c_1064_17_alg».proof.Proof.Gen.Kernel
import proofs.«215561_g44298292691222_cont_8to1_c_1064_17_alg».proof.Proof.Gen.Kernel.Skeleton
import proofs.«215561_g44298292691222_cont_8to1_c_1064_17_alg».proof.Proof.Gen.KernelIdeal
import proofs.«215561_g44298292691222_cont_8to1_c_1064_17_alg».proof.Proof.Gen.KernelIdeal.Skeleton
import proofs.«215561_g44298292691222_cont_8to1_c_1064_17_alg».proof.Proof.Gen.ReferenceIdeal
import proofs.«215561_g44298292691222_cont_8to1_c_1064_17_alg».proof.Proof.Gen.Pre_input_domain
import Idealize.ShloMosaic.Adequacy
import Idealize.ShloMosaic.Init
import proofs.«215561_g44298292691222_cont_8to1_c_1064_17_alg».proof.Proof.RefRun
import proofs.«215561_g44298292691222_cont_8to1_c_1064_17_alg».proof.Proof.KI.Launch
import proofs.«215561_g44298292691222_cont_8to1_c_1064_17_alg».proof.Proof.KB.Launch

noncomputable section

namespace Cert.Proof

open Idealize.ShloMosaic Idealize.SL.Sem

theorem preOK_Kernel (m : (ℓ : Loc Cert.Kernel.nD Cert.Kernel.τ Cert.Kernel.sig) → Buf (Elt Bits) ℓ) (h : Cert.Pre_Kernel m) :
    ∀ d, Cert.Proof.KB.PreOK m d :=
  fun d => Cert.Proof.Ref.perm_lt _ _ (h d)

theorem preOK_KernelIdeal (m : (ℓ : Loc Cert.KernelIdeal.nD Cert.KernelIdeal.τ Cert.KernelIdeal.sig) → Buf (Elt Ideal) ℓ)
    (h : Cert.Pre_KernelIdeal m) : ∀ d, Cert.Proof.KI.PreOK m d :=
  fun d => Cert.Proof.Ref.perm_lt _ _ (h d)

theorem frame_Kernel : Cert.frame_Kernel := fun m ρ hpre =>
  (θ_run Cert.Kernel.defs _ _).mono (fun _ h c => ⟨(h c).2.2.1, (h c).2.2.2⟩)
    (Cert.Proof.KB.run_main (F := Bits) m ρ (preOK_Kernel m hpre))

theorem frame_KernelIdeal : Cert.frame_KernelIdeal := fun m ρ hpre =>
  (θ_run Cert.KernelIdeal.defs _ _).mono (fun _ h c => ⟨(h c).2.2.1, (h c).2.2.2⟩)
    (Cert.Proof.KI.run_main (F := Ideal) m ρ (preOK_KernelIdeal m hpre))

theorem frame_ReferenceIdeal : Cert.frame_ReferenceIdeal := fun m ρ hpre =>
  (θ_run Cert.ReferenceIdeal.defs _ _).mono (fun _ h c => ⟨(h c).2.2.1, (h c).2.2.2⟩) (Cert.Proof.Ref.run m ρ hpre)

theorem preserves : Cert.preserves_Kernel_KernelIdeal := trivial

theorem algebraic : Cert.algebraic_KernelIdeal_ReferenceIdeal := by
  intro m ρ m' ρ' hpre hagree
  have hpre' : Cert.Pre_ReferenceIdeal m' := fun c => by
    rw [(hagree c).1, (hagree c).2]; exact hpre c
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constant (F := Ideal) Cert.KernelIdeal.S_ .f32 0x00000000#32, ?_, ?_⟩
  · exact (θ_run Cert.KernelIdeal.defs _ _).mono (fun _ h c => h c)
      (Cert.Proof.KI.run_main (F := Ideal) m ρ (preOK_KernelIdeal m hpre))
  · refine (θ_run Cert.ReferenceIdeal.defs _ _).mono (fun _ h c => ⟨(h c).1.trans ?_, (h c).2.1, (h c).2.2.1, (h c).2.2.2⟩)
      (Cert.Proof.Ref.run m' ρ' hpre')
    rw [(hagree c).1, (hagree c).2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, preserves, algebraic⟩

end Cert.Proof

end
